-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S60x256x256 : Shape := ⟨3, ![60, 256, 256]⟩
abbrev S60x256 : Shape := ⟨2, ![60, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S60x256x256 : S_.BroadcastsInDim S60x256x256 (![] : Fin 0 → Fin S60x256x256.rank)
  reducesTo_S60x256x256_S_d0_1_2 : S60x256x256.ReducesTo [0, 1, 2] S_
  bcast_S_S60x256 : S_.BroadcastsInDim S60x256 (![] : Fin 0 → Fin S60x256.rank)
  reducesTo_S60x256_S_d0_1 : S60x256.ReducesTo [0, 1] S_

variable [Facts]

def fn {F : FTy → Type} [FloatOps F] (main_arg0 : FVec F S8192x256 .f32) (main_arg1 : FVec F S60x256x256 .f32) (main_arg2 : FVec F S60x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S60x256x256 .f32 := Host.absf main_arg1
  let main_cst_0 : FVec F S_ .f32 := constant S_ .f32 0x7F800000#32
  let main_v5 : FVec F S60x256x256 .f32 := broadcastInDim S60x256x256 ![] bcast_S_S60x256x256 main_cst_0
  let main_v6 : IVec S60x256x256 1 := cmpf .olt main_v4 main_v5
  let main_c_1 : IVec S_ 1 := constantI S_ 1 1#1
  let main_v7 : IVec S_ 1 := (fun x v => Host.reduce IntOp.andi x v reducesTo_S60x256x256_S_d0_1_2 h_S_) main_v6 main_c_1
  let main_v8 : IVec S_ 1 := andi main_v3 main_v7
  let main_v9 : FVec F S60x256 .f32 := Host.absf main_arg2
  let main_cst_2 : FVec F S_ .f32 := constant S_ .f32 0x7F800000#32
  let main_v10 : FVec F S60x256 .f32 := broadcastInDim S60x256 ![] bcast_S_S60x256 main_cst_2
  let main_v11 : IVec S60x256 1 := cmpf .olt main_v9 main_v10
  let main_c_3 : IVec S_ 1 := constantI S_ 1 1#1
  let main_v12 : IVec S_ 1 := (fun x v => Host.reduce IntOp.andi x v reducesTo_S60x256_S_d0_1 h_S_) main_v11 main_c_3
  let main_v13 : IVec S_ 1 := andi main_v8 main_v12
  main_v13
-- ==== Kernel.lean ====
abbrev S8192x256 : Shape := ⟨2, ![8192, 256]⟩
abbrev S60x256x256 : Shape := ⟨3, ![60, 256, 256]⟩
abbrev S60x256 : Shape := ⟨2, ![60, 256]⟩
abbrev S16 : Shape := ⟨1, ![16]⟩
abbrev S16x4 : Shape := ⟨2, ![16, 4]⟩
abbrev S_ : Shape := ⟨0, ![]⟩
abbrev S1x256x256 : Shape := ⟨3, ![1, 256, 256]⟩
abbrev S61x256x256 : Shape := ⟨3, ![61, 256, 256]⟩
abbrev S1x256 : Shape := ⟨2, ![1, 256]⟩
abbrev S61x256 : Shape := ⟨2, ![61, 256]⟩
abbrev S64 : Shape := ⟨1, ![64]⟩
abbrev S64x1 : Shape := ⟨2, ![64, 1]⟩
abbrev S1 : Shape := ⟨1, ![1]⟩
abbrev S1x1 : Shape := ⟨2, ![1, 1]⟩
abbrev S64x256x256 : Shape := ⟨3, ![64, 256, 256]⟩
abbrev S16x4x256x256 : Shape := ⟨4, ![16, 4, 256, 256]⟩
abbrev S64x256 : Shape := ⟨2, ![64, 256]⟩
abbrev S16x4x1x256 : Shape := ⟨4, ![16, 4, 1, 256]⟩
abbrev S16x1 : Shape := ⟨2, ![16, 1]⟩
abbrev S16x256x256 : Shape := ⟨3, ![16, 256, 256]⟩
abbrev S16x256 : Shape := ⟨2, ![16, 256]⟩
abbrev S16x1x256 : Shape := ⟨3, ![16, 1, 256]⟩
abbrev S16x8192x256 : Shape := ⟨3, ![16, 8192, 256]⟩
abbrev S2048x256 : Shape := ⟨2, ![2048, 256]⟩
abbrev S1x1x256 : Shape := ⟨3, ![1, 1, 256]⟩
abbrev S1x2048x256 : Shape := ⟨3, ![1, 2048, 256]⟩
abbrev S256x256 : Shape := ⟨2, ![256, 256]⟩
abbrev S256 : Shape := ⟨1, ![256]⟩
abbrev S1x1x256x256 : Shape := ⟨4, ![1, 1, 256, 256]⟩
abbrev S1x1x1x256 : Shape := ⟨4, ![1, 1, 1, 256]⟩

abbrev nBuf : Space → Nat
  | .hbm => 114
  | .vmem => 48
  | .smem => 1
  | _ => 0

abbrev bufTy : (tb : Table) → Fin (tcTables nBuf tb) → BufTy
  | .hbm, ⟨0, _⟩ => ⟨S8192x256, .f32⟩
  | .hbm, ⟨1, _⟩ => ⟨S60x256x256, .f32⟩
  | .hbm, ⟨2, _⟩ => ⟨S60x256, .f32⟩
  | .hbm, ⟨3, _⟩ => ⟨S16, .i32⟩
  | .hbm, ⟨4, _⟩ => ⟨S16x4, .i32⟩
  | .hbm, ⟨5, _⟩ => ⟨S_, .f32⟩
  | .hbm, ⟨6, _⟩ => ⟨S1x256x256, .f32⟩
  | .hbm, ⟨7, _⟩ => ⟨S61x256x256, .f32⟩
  | .hbm, ⟨8, _⟩ => ⟨S_, .f32⟩
  | .hbm, ⟨9, _⟩ => ⟨S1x256, .f32⟩
  | .hbm, ⟨10, _⟩ => ⟨S61x256, .f32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i1⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S64, .i32⟩
  | .hbm, ⟨19, _⟩ => ⟨S64x1, .i32⟩
  | .hbm, ⟨20, _⟩ => ⟨S1, .i32⟩
  | .hbm, ⟨21, _⟩ => ⟨S_, .i32⟩
  | .hbm, ⟨22, _⟩ => ⟨S64x1, .i32⟩
  | .hbm, ⟨23, _⟩ => ⟨S64x1, .i1⟩
  | .hbm, ⟨24, _⟩ => ⟨S1x1, .i32⟩
  | .hbm, ⟨25, _⟩ => ⟨S64x1, .i32⟩
  | .hbm, ⟨26, _⟩ => ⟨S64x1, .i1⟩
  | .hbm, ⟨27, _⟩ => ⟨S64x1, .i1⟩
  | .hbm, ⟨28, _⟩ => ⟨S_, .i1⟩
  | .hbm, ⟨29, _⟩ => ⟨S64, .i1⟩
  | .hbm, ⟨30, _⟩ => ⟨S64x256x256, .f32⟩
  | .hbm, ⟨31, _⟩ => ⟨S64x256x256, .i1⟩
  | .hbm, ⟨32, _⟩ => ⟨S_, .f32⟩
  | .hbm, ⟨33, _⟩ => ⟨S64x256x256, .f32⟩
  | .hbm, ⟨34, _⟩ => ⟨S64x256x256, .f32⟩
  | .hbm, ⟨35, _⟩ => ⟨S16x4x256x256, .f32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S64, .i32⟩
  | .hbm, ⟨44, _⟩ => ⟨S64x1, .i32⟩
  | .hbm, ⟨45, _⟩ => ⟨S1, .i32⟩
  | .hbm, ⟨46, _⟩ => ⟨S_, .i32⟩
  | .hbm, ⟨47, _⟩ => ⟨S64x1, .i32⟩
  | .hbm, ⟨48, _⟩ => ⟨S64x1, .i1⟩
  | .hbm, ⟨49, _⟩ => ⟨S1x1, .i32⟩
  | .hbm, ⟨50, _⟩ => ⟨S64x1, .i32⟩
  | .hbm, ⟨51, _⟩ => ⟨S64x1, .i1⟩
  | .hbm, ⟨52, _⟩ => ⟨S64x1, .i1⟩
  | .hbm, ⟨53, _⟩ => ⟨S_, .i1⟩
  | .hbm, ⟨54, _⟩ => ⟨S64, .i1⟩
  | .hbm, ⟨55, _⟩ => ⟨S64x256, .f32⟩
  | .hbm, ⟨56, _⟩ => ⟨S64x256, .i1⟩
  | .hbm, ⟨57, _⟩ => ⟨S_, .f32⟩
  | .hbm, ⟨58, _⟩ => ⟨S64x256, .f32⟩
  | .hbm, ⟨59, _⟩ => ⟨S64x256, .f32⟩
  | .hbm, ⟨60, _⟩ => ⟨S16x4x1x256, .f32⟩
  | .hbm, ⟨61, _⟩ => ⟨S_, .i32⟩
  | .hbm, ⟨62, _⟩ => ⟨S16, .i32⟩
  | .hbm, ⟨63, _⟩ => ⟨S16, .i1⟩
  | .hbm, ⟨64, _⟩ => ⟨S_, .i32⟩
  | .hbm, ⟨65, _⟩ => ⟨S16, .i32⟩
  | .hbm, ⟨66, _⟩ => ⟨S16, .i32⟩
  | .hbm, ⟨67, _⟩ => ⟨S16, .i32⟩
  | .hbm, ⟨68, _⟩ => ⟨S16x1, .i32⟩
  | .hbm, ⟨69, _⟩ => ⟨S1, .i32⟩
  | .hbm, ⟨70, _⟩ => ⟨S_, .i32⟩
  | .hbm, ⟨71, _⟩ => ⟨S16x1, .i32⟩
  | .hbm, ⟨72, _⟩ => ⟨S16x1, .i1⟩
  | .hbm, ⟨73, _⟩ => ⟨S1x1, .i32⟩
  | .hbm, ⟨74, _⟩ => ⟨S16x1, .i32⟩
  | .hbm, ⟨75, _⟩ => ⟨S16x1, .i1⟩
  | .hbm, ⟨76, _⟩ => ⟨S16x1, .i1⟩
  | .hbm, ⟨77, _⟩ => ⟨S_, .i1⟩
  | .hbm, ⟨78, _⟩ => ⟨S16, .i1⟩
  | .hbm, ⟨79, _⟩ => ⟨S16x256x256, .f32⟩
  | .hbm, ⟨80, _⟩ => ⟨S16x256x256, .i1⟩
  | .hbm, ⟨81, _⟩ => ⟨S_, .f32⟩
  | .hbm, ⟨82, _⟩ => ⟨S16x256x256, .f32⟩
  | .hbm, ⟨83, _⟩ => ⟨S16x256x256, .f32⟩
  | .hbm, ⟨84, _⟩ => ⟨S_, .i32⟩
  | .hbm, ⟨85, _⟩ => ⟨S16, .i32⟩
  | .hbm, ⟨86, _⟩ => ⟨S16, .i1⟩
  | .hbm, ⟨87, _⟩ => ⟨S_, .i32⟩
  | .hbm, ⟨88, _⟩ => ⟨S16, .i32⟩
  | .hbm, ⟨89, _⟩ => ⟨S16, .i32⟩
  | .hbm, ⟨90, _⟩ => ⟨S16, .i32⟩
  | .hbm, ⟨91, _⟩ => ⟨S16x1, .i32⟩
  | .hbm, ⟨92, _⟩ => ⟨S1, .i32⟩
  | .hbm, ⟨93, _⟩ => ⟨S_, .i32⟩
  | .hbm, ⟨94, _⟩ => ⟨S16x1, .i32⟩
  | .hbm, ⟨95, _⟩ => ⟨S16x1, .i1⟩
  | .hbm, ⟨96, _⟩ => ⟨S1x1, .i32⟩
  | .hbm, ⟨97, _⟩ => ⟨S16x1, .i32⟩
  | .hbm, ⟨98, _⟩ => ⟨S16x1, .i1⟩
  | .hbm, ⟨99, _⟩ => ⟨S16x1, .i1⟩
  | .hbm, ⟨100, _⟩ => ⟨S_, .i1⟩
  | .hbm, ⟨101, _⟩ => ⟨S16, .i1⟩
  | .hbm, ⟨102, _⟩ => ⟨S16x256, .f32⟩
  | .hbm, ⟨103, _⟩ => ⟨S16x256, .i1⟩
  | .hbm, ⟨104, _⟩ => ⟨S_, .f32⟩
  | .hbm, ⟨105, _⟩ => ⟨S16x256, .f32⟩
  | .hbm, ⟨106, _⟩ => ⟨S16x256, .f32⟩
  | .hbm, ⟨107, _⟩ => ⟨S16x1x256, .f32⟩
  | .hbm, ⟨108, _⟩ => ⟨S16x8192x256, .f32⟩
  | .hbm, ⟨109, _⟩ => ⟨S16x8192x256, .f32⟩
  | .hbm, ⟨110, _⟩ => ⟨S16x8192x256, .f32⟩
  | .hbm, ⟨111, _⟩ => ⟨S16x8192x256, .f32⟩
  | .hbm, ⟨112, _⟩ => ⟨S16x8192x256, .f32⟩
  | .hbm, ⟨113, _⟩ => ⟨S16x8192x256, .f32⟩
  | .local _ .vmem, ⟨0, _⟩ => ⟨S2048x256, .f32⟩
  | .local _ .vmem, ⟨1, _⟩ => ⟨S2048x256, .f32⟩
  | .local _ .vmem, ⟨2, _⟩ => ⟨S1x256x256, .f32⟩
  | .local _ .vmem, ⟨3, _⟩ => ⟨S1x256x256, .f32⟩
  | .local _ .vmem, ⟨4, _⟩ => ⟨S1x1x256, .f32⟩
  | .local _ .vmem, ⟨5, _⟩ => ⟨S1x1x256, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1x1x256x256, .f32⟩
  | .local _ .vmem, ⟨11, _⟩ => ⟨S1x1x256x256, .f32⟩
  | .local _ .vmem, ⟨12, _⟩ => ⟨S1x1x1x256, .f32⟩
  | .local _ .vmem, ⟨13, _⟩ => ⟨S1x1x1x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x1x256x256, .f32⟩
  | .local _ .vmem, ⟨19, _⟩ => ⟨S1x1x256x256, .f32⟩
  | .local _ .vmem, ⟨20, _⟩ => ⟨S1x1x1x256, .f32⟩
  | .local _ .vmem, ⟨21, _⟩ => ⟨S1x1x1x256, .f32⟩
  | .local _ .vmem, ⟨22, _⟩ => ⟨S1x2048x256, .f32⟩
  | .local _ .vmem, ⟨23, _⟩ => ⟨S1x2048x256, .f32⟩
  | .local _ .vmem, ⟨24, _⟩ => ⟨S1x2048x256, .f32⟩
  | .local _ .vmem, ⟨25, _⟩ => ⟨S1x2048x256, .f32⟩
  | .local _ .vmem, ⟨26, _⟩ => ⟨S1x1x256x256, .f32⟩
  | .local _ .vmem, ⟨27, _⟩ => ⟨S1x1x256x256, .f32⟩
  | .local _ .vmem, ⟨28, _⟩ => ⟨S1x1x1x256, .f32⟩
  | .local _ .vmem, ⟨29, _⟩ => ⟨S1x1x1x256, .f32⟩
  | .local _ .vmem, ⟨30, _⟩ => ⟨S1x2048x256, .f32⟩
  | .local _ .vmem, ⟨31, _⟩ => ⟨S1x2048x256, .f32⟩
  | .local _ .vmem, ⟨32, _⟩ => ⟨S1x2048x256, .f32⟩
  | .local _ .vmem, ⟨33, _⟩ => ⟨S1x2048x256, .f32⟩
  | .local _ .vmem, ⟨34, _⟩ => ⟨S1x1x256x256, .f32⟩
  | .local _ .vmem, ⟨35, _⟩ => ⟨S1x1x256x256, .f32⟩
  | .local _ .vmem, ⟨36, _⟩ => ⟨S1x1x1x256, .f32⟩
  | .local _ .vmem, ⟨37, _⟩ => ⟨S1x1x1x256, .f32⟩
  | .local _ .vmem, ⟨38, _⟩ => ⟨S1x2048x256, .f32⟩
  | .local _ .vmem, ⟨39, _⟩ => ⟨S1x2048x256, .f32⟩
  | .local _ .vmem, ⟨40, _⟩ => ⟨S1x2048x256, .f32⟩
  | .local _ .vmem, ⟨41, _⟩ => ⟨S1x2048x256, .f32⟩
  | .local _ .vmem, ⟨42, _⟩ => ⟨S1x1x256x256, .f32⟩
  | .local _ .vmem, ⟨43, _⟩ => ⟨S1x1x256x256, .f32⟩
  | .local _ .vmem, ⟨44, _⟩ => ⟨S1x1x1x256, .f32⟩
  | .local _ .vmem, ⟨45, _⟩ => ⟨S1x1x1x256, .f32⟩
  | .local _ .vmem, ⟨46, _⟩ => ⟨S1x2048x256, .f32⟩
  | .local _ .vmem, ⟨47, _⟩ => ⟨S1x2048x256, .f32⟩
  | .local _ .smem, ⟨0, _⟩ => ⟨S16x4, .i32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_2 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v8 : Ref sig .tc := ⟨.hbm, 59, rfl⟩
abbrev main_v9 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v10 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_cst : Ref sig .tc := ⟨.hbm, 104, rfl⟩
abbrev main_call3_v15 : Ref sig .tc := ⟨.hbm, 105, rfl⟩
abbrev main_v11 : Ref sig .tc := ⟨.hbm, 106, rfl⟩
abbrev main_v12 : Ref sig .tc := ⟨.hbm, 107, rfl⟩
abbrev main_v13 : Ref sig .tc := ⟨.hbm, 108, rfl⟩
abbrev main_v14 : Ref sig .tc := ⟨.hbm, 109, rfl⟩
abbrev main_v15 : Ref sig .tc := ⟨.hbm, 110, rfl⟩
abbrev main_v16 : Ref sig .tc := ⟨.hbm, 111, rfl⟩
abbrev main_v17 : Ref sig .tc := ⟨.hbm, 112, rfl⟩
abbrev main_v18 : Ref sig .tc := ⟨.hbm, 113, rfl⟩
abbrev main_c_1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc5_stg3_0 : Ref sig .tc := ⟨.vmem, 46, rfl⟩
abbrev cc5_stg3_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem3_1 : DmaSem sig := 47

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![16, 4, 4], ![false, false, false]⟩

abbrev pre1 : Pipeline.Prefetch sig := ⟨1, ![main_c_1.idx], fun | 0 => main_c_1.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let arg2 : BitVec 32 := BitVec.ofNat 32 (i 2).val
  let v1 : Index := Scalar.indexCast arg2
  ![v0.toNat, v1.toNat]
def cc1_transform_0 (k1_off1_inb : ∀ i : grid1.Coords, ∀ a, (k1_off1 i) a + S1x1.size a ≤ S16x4.size a) (numel1_S1x1 : S1x1.numel = 1) (pf : pre1.Contents (Elt F)) (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg2
  let v2 : BitVec 32 := pf.at 0 (Rect.unit (s := S16x4) ![v0.toNat, v1.toNat] S1x1.size (k1_off1_inb i)) numel1_S1x1
  let c0_i32 : BitVec 32 := 0#32
  let c0_i32_0 : BitVec 32 := 0#32
  ![v2.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![16, 4, 4], ![false, false, false]⟩

abbrev pre2 : Pipeline.Prefetch sig := ⟨1, ![main_c_1.idx], fun | 0 => main_c_1.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 2 → Nat :=
  let arg0 : BitVec 32 := BitVec.ofNat 32 (i 0).val
  let v0 : Index := Scalar.indexCast arg0
  let arg2 : BitVec 32 := BitVec.ofNat 32 (i 2).val
  let v1 : Index := Scalar.indexCast arg2
  ![v0.toNat, v1.toNat]
def cc2_transform_0 (k2_off1_inb : ∀ i : grid2.Coords, ∀ a, (k2_off1 i) a + S1x1.size a ≤ S16x4.size a) (numel1_S1x1 : S1x1.numel = 1) (pf : pre2.Contents (Elt F)) (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg2
  let v2 : BitVec 32 := pf.at 0 (Rect.unit (s := S16x4) ![v0.toNat, v1.toNat] S1x1.size (k2_off1_inb i)) numel1_S1x1
  let c0_i32 : BitVec 32 := 0#32
  let c0_i32_0 : BitVec 32 := 0#32
  ![v2.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S1x1x256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x1x1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![16, 4, 4], ![false, false, false]⟩

abbrev pre3 : Pipeline.Prefetch sig := ⟨1, ![main_c_1.idx], fun | 0 => main_c_1.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 2 → Nat :=
  let arg0 : BitVec 32 := BitVec.ofNat 32 (i 0).val
  let v0 : Index := Scalar.indexCast arg0
  let arg2 : BitVec 32 := BitVec.ofNat 32 (i 2).val
  let v1 : Index := Scalar.indexCast arg2
  ![v0.toNat, v1.toNat]
def cc3_transform_0 (k3_off1_inb : ∀ i : grid3.Coords, ∀ a, (k3_off1 i) a + S1x1.size a ≤ S16x4.size a) (numel1_S1x1 : S1x1.numel = 1) (pf : pre3.Contents (Elt F)) (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg2
  let v2 : BitVec 32 := pf.at 0 (Rect.unit (s := S16x4) ![v0.toNat, v1.toNat] S1x1.size (k3_off1_inb i)) numel1_S1x1
  let c0_i32 : BitVec 32 := 0#32
  let c0_i32_0 : BitVec 32 := 0#32
  ![v2.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage3_0 : Fin 2 → Memref sig .tc .vmem S1x2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x1x256x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S1x1x1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![16, 4, 4], ![false, false, false]⟩

abbrev pre4 : Pipeline.Prefetch sig := ⟨1, ![main_c_1.idx], fun | 0 => main_c_1.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 2 → Nat :=
  let arg0 : BitVec 32 := BitVec.ofNat 32 (i 0).val
  let v0 : Index := Scalar.indexCast arg0
  let arg2 : BitVec 32 := BitVec.ofNat 32 (i 2).val
  let v1 : Index := Scalar.indexCast arg2
  ![v0.toNat, v1.toNat]
def cc4_transform_0 (k4_off1_inb : ∀ i : grid4.Coords, ∀ a, (k4_off1 i) a + S1x1.size a ≤ S16x4.size a) (numel1_S1x1 : S1x1.numel = 1) (pf : pre4.Contents (Elt F)) (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg2
  let v2 : BitVec 32 := pf.at 0 (Rect.unit (s := S16x4) ![v0.toNat, v1.toNat] S1x1.size (k4_off1_inb i)) numel1_S1x1
  let c0_i32 : BitVec 32 := 0#32
  let c0_i32_0 : BitVec 32 := 0#32
  ![v2.toNat, arg1.toNat, c0_i32.toNat]

def cc4_transform_1 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc4_transform_2 (i : grid4.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage4_0 : Fin 2 → Memref sig .tc .vmem S1x2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true, true]

abbrev stage4_1 : Fin 2 → Memref sig .tc .vmem S1x1x256x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x1x1x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false, true]

abbrev stage4_3 : Fin 2 → Memref sig .tc .vmem S1x2048x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![16, 4, 4], ![false, false, false]⟩

abbrev pre5 : Pipeline.Prefetch sig := ⟨1, ![main_c_1.idx], fun | 0 => main_c_1.names | ⟨_ + 1, h⟩ => absurd h (Nat.not_lt.2 (Nat.le_add_left _ _)), fun | 0 => rfl | ⟨_ + 1, h⟩ => absurd h (Nat.not_lt.2 (Nat.le_add_left _ _))⟩

def k5_off1 (i : grid5.Coords) : Fin 2 → Nat :=
  let arg0 : BitVec 32 := BitVec.ofNat 32 (i 0).val
  let v0 : Index := Scalar.indexCast arg0
  let arg2 : BitVec 32 := BitVec.ofNat 32 (i 2).val
  let v1 : Index := Scalar.indexCast arg2
  ![v0.toNat, v1.toNat]
def cc5_transform_0 (k5_off1_inb : ∀ i : grid5.Coords, ∀ a, (k5_off1 i) a + S1x1.size a ≤ S16x4.size a) (numel1_S1x1 : S1x1.numel = 1) (pf : pre5.Contents (Elt F)) (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg2
  let v2 : BitVec 32 := pf.at 0 (Rect.unit (s := S16x4) ![v0.toNat, v1.toNat] S1x1.size (k5_off1_inb i)) numel1_S1x1
  let c0_i32 : BitVec 32 := 0#32
  let c0_i32_0 : BitVec 32 := 0#32
  ![v2.toNat, arg1.toNat, c0_i32.toNat]

def cc5_transform_1 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc5_transform_2 (i : grid5.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc5_transform_3 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage5_0 : Fin 2 → Memref sig .tc .vmem S1x2048x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true, true]

abbrev stage5_1 : Fin 2 → Memref sig .tc .vmem S1x1x256x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1x1x1x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false, true]

abbrev stage5_3 : Fin 2 → Memref sig .tc .vmem S1x2048x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

class Facts₀ : Prop where
  bcast_S_S1x256x256 : S_.BroadcastsInDim S1x256x256 (![] : Fin 0 → Fin S1x256x256.rank)
  concatenates_S60x256x256_S1x256x256_S61x256x256_d0 : Shape.Concatenates [S60x256x256, S1x256x256] S61x256x256 0
  bcast_S_S1x256 : S_.BroadcastsInDim S1x256 (![] : Fin 0 → Fin S1x256.rank)
  concatenates_S60x256_S1x256_S61x256_d0 : Shape.Concatenates [S60x256, S1x256] S61x256 0
  shapeCasts_S16x4_S64 : S16x4.ShapeCasts S64
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S64x256x256_0 : S64.BroadcastsInDim S64x256x256 (![0] : Fin 1 → Fin S64x256x256.rank)
  bcast_S_S64x256x256 : S_.BroadcastsInDim S64x256x256 (![] : Fin 0 → Fin S64x256x256.rank)
  shapeCasts_S64x256x256_S16x4x256x256 : S64x256x256.ShapeCasts S16x4x256x256
  bcast_S64_S64x256_0 : S64.BroadcastsInDim S64x256 (![0] : Fin 1 → Fin S64x256.rank)
  bcast_S_S64x256 : S_.BroadcastsInDim S64x256 (![] : Fin 0 → Fin S64x256.rank)
  shapeCasts_S64x256_S16x4x1x256 : S64x256.ShapeCasts S16x4x1x256
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1x1_S16x1_0_1 : S1x1.BroadcastsInDim S16x1 (![0, 1] : Fin 2 → Fin S16x1.rank)
  reducesTo_S16x1_S16_d1 : S16x1.ReducesTo [1] S16
  bcast_S16_S16x256x256_0 : S16.BroadcastsInDim S16x256x256 (![0] : Fin 1 → Fin S16x256x256.rank)
  bcast_S_S16x256x256 : S_.BroadcastsInDim S16x256x256 (![] : Fin 0 → Fin S16x256x256.rank)
  bcast_S16_S16x256_0 : S16.BroadcastsInDim S16x256 (![0] : Fin 1 → Fin S16x256.rank)
  bcast_S_S16x256 : S_.BroadcastsInDim S16x256 (![] : Fin 0 → Fin S16x256.rank)
  shapeCasts_S16x256_S16x1x256 : S16x256.ShapeCasts S16x1x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S1x256x256 : S1x256x256.ShapeCasts S1x256x256
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S1x1x256_S256 : S1x1x256.ShapeCasts S256
  shapeCasts_S256_S1x256 : S256.ShapeCasts S1x256
  broadcasts_S1x256_S2048x256 : S1x256.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  numel1_S1x1 : S1x1.numel = 1
  shapeCasts_S1x2048x256_S1x2048x256 : S1x2048x256.ShapeCasts S1x2048x256
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S1x1x256x256 : S1x1x256x256.ShapeCasts S1x1x256x256
  shapeCasts_S1x1x256x256_S256x256 : S1x1x256x256.ShapeCasts S256x256
  inb_S1x1x1x256_S1x1x1x256_0_0_0_0 : ∀ a, (![0, 0, 0, 0] : Fin 4 → Nat) a + S1x1x1x256.size a ≤ S1x1x1x256.size a
  h_S1x1x1x256 : 0 < S1x1x1x256.numel
  shapeCasts_S1x1x1x256_S1x1x1x256 : S1x1x1x256.ShapeCasts S1x1x1x256
  shapeCasts_S1x1x1x256_S256 : S1x1x1x256.ShapeCasts S256
  gather_S61x256x256_S64x1_S64x256x256_12_0_n_n_0_1_1256256_wf : GatherDims.WF S61x256x256 S64x1 S64x256x256 [1, 2] [0] [] [0] [] 1 ![1, 256, 256]
  gather_S61x256_S64x1_S64x256_1_0_n_n_0_1_1256_wf : GatherDims.WF S61x256 S64x1 S64x256 [1] [0] [] [0] [] 1 ![1, 256]
  gather_S60x256x256_S16x1_S16x256x256_12_0_n_n_0_1_1256256_wf : GatherDims.WF S60x256x256 S16x1 S16x256x256 [1, 2] [0] [] [0] [] 1 ![1, 256, 256]
  gather_S60x256_S16x1_S16x256_1_0_n_n_0_1_1256_wf : GatherDims.WF S60x256 S16x1 S16x256 [1] [0] [] [0] [] 1 ![1, 256]
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S16x256x256.size a
  hwx0_1 : ∀ i : grid0.Coords, EltTy.bits .f32 = 32 ∨ (Rect.block (s := S16x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S16x1x256.size a
  hwx0_2 : ∀ i : grid0.Coords, EltTy.bits .f32 = 32 ∨ (Rect.block (s := S16x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S16x8192x256.size a
  hwx0_3 : ∀ i : grid0.Coords, EltTy.bits .f32 = 32 ∨ (Rect.block (s := S16x8192x256) S1x2048x256.size (cc0_transform_3 i) (hinb0_3 i)).WholeWords (EltTy.packing .f32)
  hrank1 : 0 < grid1.rank
  k1_off1_inb : ∀ i : grid1.Coords, ∀ a, (k1_off1 i) a + S1x1.size a ≤ S16x4.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1x1 pf i = cc1_transform_0 k1_off1_inb numel1_S1x1 pf i'
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x256x256.size a ≤ S16x4x256x256.size a
  hwx1_1 : ∀ i : grid1.Coords, EltTy.bits .f32 = 32 ∨ (Rect.block (s := S16x4x256x256) S1x1x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1x256.size a ≤ S16x4x1x256.size a
  hwx1_2 : ∀ i : grid1.Coords, EltTy.bits .f32 = 32 ∨ (Rect.block (s := S16x4x1x256) S1x1x1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x256.size a ≤ S16x8192x256.size a
  hwx1_3 : ∀ i : grid1.Coords, EltTy.bits .f32 = 32 ∨ (Rect.block (s := S16x8192x256) S1x2048x256.size (cc1_transform_3 i) (hinb1_3 i)).WholeWords (EltTy.packing .f32)
  hrank2 : 0 < grid2.rank
  k2_off1_inb : ∀ i : grid2.Coords, ∀ a, (k2_off1 i) a + S1x1.size a ≤ S16x4.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1x1 pf i = cc2_transform_0 k2_off1_inb numel1_S1x1 pf i'
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x256x256.size a ≤ S16x4x256x256.size a
  hwx2_1 : ∀ i : grid2.Coords, EltTy.bits .f32 = 32 ∨ (Rect.block (s := S16x4x256x256) S1x1x256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1x256.size a ≤ S16x4x1x256.size a
  hwx2_2 : ∀ i : grid2.Coords, EltTy.bits .f32 = 32 ∨ (Rect.block (s := S16x4x1x256) S1x1x1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x256.size a ≤ S16x8192x256.size a
  hwx2_3 : ∀ i : grid2.Coords, EltTy.bits .f32 = 32 ∨ (Rect.block (s := S16x8192x256) S1x2048x256.size (cc2_transform_3 i) (hinb2_3 i)).WholeWords (EltTy.packing .f32)
  hrank3 : 0 < grid3.rank
  k3_off1_inb : ∀ i : grid3.Coords, ∀ a, (k3_off1 i) a + S1x1.size a ≤ S16x4.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1x1 pf i = cc3_transform_0 k3_off1_inb numel1_S1x1 pf i'
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x256x256.size a ≤ S16x4x256x256.size a
  hwx3_1 : ∀ i : grid3.Coords, EltTy.bits .f32 = 32 ∨ (Rect.block (s := S16x4x256x256) S1x1x256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x1x256.size a ≤ S16x4x1x256.size a
  hwx3_2 : ∀ i : grid3.Coords, EltTy.bits .f32 = 32 ∨ (Rect.block (s := S16x4x1x256) S1x1x1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2048x256.size a ≤ S16x8192x256.size a
  hwx3_3 : ∀ i : grid3.Coords, EltTy.bits .f32 = 32 ∨ (Rect.block (s := S16x8192x256) S1x2048x256.size (cc3_transform_3 i) (hinb3_3 i)).WholeWords (EltTy.packing .f32)
  hrank4 : 0 < grid4.rank
  k4_off1_inb : ∀ i : grid4.Coords, ∀ a, (k4_off1 i) a + S1x1.size a ≤ S16x4.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1x1 pf i = cc4_transform_0 k4_off1_inb numel1_S1x1 pf i'
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x256x256.size a ≤ S16x4x256x256.size a
  hwx4_1 : ∀ i : grid4.Coords, EltTy.bits .f32 = 32 ∨ (Rect.block (s := S16x4x256x256) S1x1x256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1x1x256.size a ≤ S16x4x1x256.size a
  hwx4_2 : ∀ i : grid4.Coords, EltTy.bits .f32 = 32 ∨ (Rect.block (s := S16x4x1x256) S1x1x1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x2048x256.size a ≤ S16x8192x256.size a
  hwx4_3 : ∀ i : grid4.Coords, EltTy.bits .f32 = 32 ∨ (Rect.block (s := S16x8192x256) S1x2048x256.size (cc4_transform_3 i) (hinb4_3 i)).WholeWords (EltTy.packing .f32)
  hrank5 : 0 < grid5.rank
  k5_off1_inb : ∀ i : grid5.Coords, ∀ a, (k5_off1 i) a + S1x1.size a ≤ S16x4.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1x1 pf i = cc5_transform_0 k5_off1_inb numel1_S1x1 pf i'
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1x1x256x256.size a ≤ S16x4x256x256.size a
  hwx5_1 : ∀ i : grid5.Coords, EltTy.bits .f32 = 32 ∨ (Rect.block (s := S16x4x256x256) S1x1x256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1x1x256.size a ≤ S16x4x1x256.size a
  hwx5_2 : ∀ i : grid5.Coords, EltTy.bits .f32 = 32 ∨ (Rect.block (s := S16x4x1x256) S1x1x1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1x2048x256.size a ≤ S16x8192x256.size a
  hwx5_3 : ∀ i : grid5.Coords, EltTy.bits .f32 = 32 ∨ (Rect.block (s := S16x8192x256) S1x2048x256.size (cc5_transform_3 i) (hinb5_3 i)).WholeWords (EltTy.packing .f32)

variable [Facts₀]

def gather_S61x256x256_S64x1_S64x256x256_12_0_n_n_0_1_1256256 : GatherDims S61x256x256 S64x1 S64x256x256 where
  offsetDims := [1, 2]
  collapsedSliceDims := [0]
  operandBatchingDims := []
  startIndicesBatchingDims := []
  startIndexMap := [0]
  indexVectorDim := 1
  sliceSizes := ![1, 256, 256]
  wf := gather_S61x256x256_S64x1_S64x256x256_12_0_n_n_0_1_1256256_wf
def gather_S61x256_S64x1_S64x256_1_0_n_n_0_1_1256 : GatherDims S61x256 S64x1 S64x256 where
  offsetDims := [1]
  collapsedSliceDims := [0]
  operandBatchingDims := []
  startIndicesBatchingDims := []
  startIndexMap := [0]
  indexVectorDim := 1
  sliceSizes := ![1, 256]
  wf := gather_S61x256_S64x1_S64x256_1_0_n_n_0_1_1256_wf
def gather_S60x256x256_S16x1_S16x256x256_12_0_n_n_0_1_1256256 : GatherDims S60x256x256 S16x1 S16x256x256 where
  offsetDims := [1, 2]
  collapsedSliceDims := [0]
  operandBatchingDims := []
  startIndicesBatchingDims := []
  startIndexMap := [0]
  indexVectorDim := 1
  sliceSizes := ![1, 256, 256]
  wf := gather_S60x256x256_S16x1_S16x256x256_12_0_n_n_0_1_1256256_wf
def gather_S60x256_S16x1_S16x256_1_0_n_n_0_1_1256 : GatherDims S60x256 S16x1 S16x256 where
  offsetDims := [1]
  collapsedSliceDims := [0]
  operandBatchingDims := []
  startIndicesBatchingDims := []
  startIndexMap := [0]
  indexVectorDim := 1
  sliceSizes := ![1, 256]
  wf := gather_S60x256_S16x1_S16x256_1_0_n_n_0_1_1256_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev spec1_0 : Pipeline.WinSpec sig grid1.rank :=
  Pipeline.WinSpec.ofSpec (Memref.whole main_v13) S1x2048x256.size reads1_0 false false 2 stage1_0 sem1_0 nbuf1_0 hstage1_0

abbrev spec1_1 : Pipeline.WinSpec sig grid1.rank :=
  Pipeline.WinSpec.ofSpec (Memref.whole main_v6) S1x1x256x256.size reads1_1 false false 2 stage1_1 sem1_1 nbuf1_1 hstage1_1

abbrev spec1_2 : Pipeline.WinSpec sig grid1.rank :=
  Pipeline.WinSpec.ofSpec (Memref.whole main_v9) S1x1x1x256.size reads1_2 false false 2 stage1_2 sem1_2 nbuf1_2 hstage1_2

abbrev spec1_3 : Pipeline.WinSpec sig grid1.rank :=
  Pipeline.WinSpec.ofSpec (Memref.whole main_v14) S1x2048x256.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1x1 pf | 1 => cc1_transform_1 | 2 => cc1_transform_2 | 3 => cc1_transform_3 | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 | 2 => hreads1_2 | 3 => hreads1_3 | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1x1 pf i a + 1) * S1x2048x256.size a ≤ S16x8192x256.size a), EltTy.bits .f32 = 32 ∨ (Rect.block (s := S16x8192x256) S1x2048x256.size (cc1_transform_0 k1_off1_inb numel1_S1x1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok i).elim fun h _ => h a | 1 => hinb1_1 | 2 => hinb1_2 | 3 => hinb1_3 | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok i).elim fun _ h => h | 1 => hwx1_1 | 2 => hwx1_2 | 3 => hwx1_3 | ⟨_ + 4, h⟩ => absurd h (Nat.not_lt.2 (Nat.le_add_left _ _))
abbrev spec2_0 : Pipeline.WinSpec sig grid2.rank :=
  Pipeline.WinSpec.ofSpec (Memref.whole main_v14) S1x2048x256.size reads2_0 false false 2 stage2_0 sem2_0 nbuf2_0 hstage2_0

abbrev spec2_1 : Pipeline.WinSpec sig grid2.rank :=
  Pipeline.WinSpec.ofSpec (Memref.whole main_v6) S1x1x256x256.size reads2_1 false false 2 stage2_1 sem2_1 nbuf2_1 hstage2_1

abbrev spec2_2 : Pipeline.WinSpec sig grid2.rank :=
  Pipeline.WinSpec.ofSpec (Memref.whole main_v9) S1x1x1x256.size reads2_2 false false 2 stage2_2 sem2_2 nbuf2_2 hstage2_2

abbrev spec2_3 : Pipeline.WinSpec sig grid2.rank :=
  Pipeline.WinSpec.ofSpec (Memref.whole main_v15) S1x2048x256.size reads2_3 true false 2 stage2_3 sem2_3 nbuf2_3 hstage2_3

abbrev spec2 : Fin 4 → Pipeline.WinSpec sig grid2.rank := fun | 0 => spec2_0 | 1 => spec2_1 | 2 => spec2_2 | 3 => spec2_3 | ⟨_ + 4, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | ⟨_ + 4, h⟩ => absurd h (Nat.not_lt.2 (Nat.le_add_left _ _))
abbrev ix2 (pf : pre2.Contents (Elt F)) : (w : Fin 4) → grid2.Coords → Fin (spec2 w).shape.rank → Nat := fun | 0 => cc2_transform_0 k2_off1_inb numel1_S1x1 pf | 1 => cc2_transform_1 | 2 => cc2_transform_2 | 3 => cc2_transform_3 | ⟨_ + 4, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 | 2 => hreads2_2 | 3 => hreads2_3 | ⟨_ + 4, h⟩ => absurd h (Nat.not_lt.2 (Nat.le_add_left _ _))
def ok2 (pf : pre2.Contents (Elt F)) : Prop :=
  (∀ i : grid2.Coords, ∃ h : (∀ a, (cc2_transform_0 k2_off1_inb numel1_S1x1 pf i a + 1) * S1x2048x256.size a ≤ S16x8192x256.size a), EltTy.bits .f32 = 32 ∨ (Rect.block (s := S16x8192x256) S1x2048x256.size (cc2_transform_0 k2_off1_inb numel1_S1x1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok i).elim fun h _ => h a | 1 => hinb2_1 | 2 => hinb2_2 | 3 => hinb2_3 | ⟨_ + 4, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok i).elim fun _ h => h | 1 => hwx2_1 | 2 => hwx2_2 | 3 => hwx2_3 | ⟨_ + 4, h⟩ => absurd h (Nat.not_lt.2 (Nat.le_add_left _ _))
abbrev spec3_0 : Pipeline.WinSpec sig grid3.rank :=
  Pipeline.WinSpec.ofSpec (Memref.whole main_v15) S1x2048x256.size reads3_0 false false 2 stage3_0 sem3_0 nbuf3_0 hstage3_0

abbrev spec3_1 : Pipeline.WinSpec sig grid3.rank :=
  Pipeline.WinSpec.ofSpec (Memref.whole main_v6) S1x1x256x256.size reads3_1 false false 2 stage3_1 sem3_1 nbuf3_1 hstage3_1

abbrev spec3_2 : Pipeline.WinSpec sig grid3.rank :=
  Pipeline.WinSpec.ofSpec (Memref.whole main_v9) S1x1x1x256.size reads3_2 false false 2 stage3_2 sem3_2 nbuf3_2 hstage3_2

abbrev spec3_3 : Pipeline.WinSpec sig grid3.rank :=
  Pipeline.WinSpec.ofSpec (Memref.whole main_v16) S1x2048x256.size reads3_3 true false 2 stage3_3 sem3_3 nbuf3_3 hstage3_3

abbrev spec3 : Fin 4 → Pipeline.WinSpec sig grid3.rank := fun | 0 => spec3_0 | 1 => spec3_1 | 2 => spec3_2 | 3 => spec3_3 | ⟨_ + 4, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | ⟨_ + 4, h⟩ => absurd h (Nat.not_lt.2 (Nat.le_add_left _ _))
abbrev ix3 (pf : pre3.Contents (Elt F)) : (w : Fin 4) → grid3.Coords → Fin (spec3 w).shape.rank → Nat := fun | 0 => cc3_transform_0 k3_off1_inb numel1_S1x1 pf | 1 => cc3_transform_1 | 2 => cc3_transform_2 | 3 => cc3_transform_3 | ⟨_ + 4, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 | 2 => hreads3_2 | 3 => hreads3_3 | ⟨_ + 4, h⟩ => absurd h (Nat.not_lt.2 (Nat.le_add_left _ _))
def ok3 (pf : pre3.Contents (Elt F)) : Prop :=
  (∀ i : grid3.Coords, ∃ h : (∀ a, (cc3_transform_0 k3_off1_inb numel1_S1x1 pf i a + 1) * S1x2048x256.size a ≤ S16x8192x256.size a), EltTy.bits .f32 = 32 ∨ (Rect.block (s := S16x8192x256) S1x2048x256.size (cc3_transform_0 k3_off1_inb numel1_S1x1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok i).elim fun h _ => h a | 1 => hinb3_1 | 2 => hinb3_2 | 3 => hinb3_3 | ⟨_ + 4, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok i).elim fun _ h => h | 1 => hwx3_1 | 2 => hwx3_2 | 3 => hwx3_3 | ⟨_ + 4, h⟩ => absurd h (Nat.not_lt.2 (Nat.le_add_left _ _))
abbrev spec4_0 : Pipeline.WinSpec sig grid4.rank :=
  Pipeline.WinSpec.ofSpec (Memref.whole main_v16) S1x2048x256.size reads4_0 false false 2 stage4_0 sem4_0 nbuf4_0 hstage4_0

abbrev spec4_1 : Pipeline.WinSpec sig grid4.rank :=
  Pipeline.WinSpec.ofSpec (Memref.whole main_v6) S1x1x256x256.size reads4_1 false false 2 stage4_1 sem4_1 nbuf4_1 hstage4_1

abbrev spec4_2 : Pipeline.WinSpec sig grid4.rank :=
  Pipeline.WinSpec.ofSpec (Memref.whole main_v9) S1x1x1x256.size reads4_2 false false 2 stage4_2 sem4_2 nbuf4_2 hstage4_2

abbrev spec4_3 : Pipeline.WinSpec sig grid4.rank :=
  Pipeline.WinSpec.ofSpec (Memref.whole main_v17) S1x2048x256.size reads4_3 true false 2 stage4_3 sem4_3 nbuf4_3 hstage4_3

abbrev spec4 : Fin 4 → Pipeline.WinSpec sig grid4.rank := fun | 0 => spec4_0 | 1 => spec4_1 | 2 => spec4_2 | 3 => spec4_3 | ⟨_ + 4, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | 3 => nbuf4_3 | ⟨_ + 4, h⟩ => absurd h (Nat.not_lt.2 (Nat.le_add_left _ _))
abbrev ix4 (pf : pre4.Contents (Elt F)) : (w : Fin 4) → grid4.Coords → Fin (spec4 w).shape.rank → Nat := fun | 0 => cc4_transform_0 k4_off1_inb numel1_S1x1 pf | 1 => cc4_transform_1 | 2 => cc4_transform_2 | 3 => cc4_transform_3 | ⟨_ + 4, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 | 2 => hreads4_2 | 3 => hreads4_3 | ⟨_ + 4, h⟩ => absurd h (Nat.not_lt.2 (Nat.le_add_left _ _))
def ok4 (pf : pre4.Contents (Elt F)) : Prop :=
  (∀ i : grid4.Coords, ∃ h : (∀ a, (cc4_transform_0 k4_off1_inb numel1_S1x1 pf i a + 1) * S1x2048x256.size a ≤ S16x8192x256.size a), EltTy.bits .f32 = 32 ∨ (Rect.block (s := S16x8192x256) S1x2048x256.size (cc4_transform_0 k4_off1_inb numel1_S1x1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok i).elim fun h _ => h a | 1 => hinb4_1 | 2 => hinb4_2 | 3 => hinb4_3 | ⟨_ + 4, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok i).elim fun _ h => h | 1 => hwx4_1 | 2 => hwx4_2 | 3 => hwx4_3 | ⟨_ + 4, h⟩ => absurd h (Nat.not_lt.2 (Nat.le_add_left _ _))
abbrev spec5_0 : Pipeline.WinSpec sig grid5.rank :=
  Pipeline.WinSpec.ofSpec (Memref.whole main_v17) S1x2048x256.size reads5_0 false false 2 stage5_0 sem5_0 nbuf5_0 hstage5_0

abbrev spec5_1 : Pipeline.WinSpec sig grid5.rank :=
  Pipeline.WinSpec.ofSpec (Memref.whole main_v6) S1x1x256x256.size reads5_1 false false 2 stage5_1 sem5_1 nbuf5_1 hstage5_1

abbrev spec5_2 : Pipeline.WinSpec sig grid5.rank :=
  Pipeline.WinSpec.ofSpec (Memref.whole main_v9) S1x1x1x256.size reads5_2 false false 2 stage5_2 sem5_2 nbuf5_2 hstage5_2

abbrev spec5_3 : Pipeline.WinSpec sig grid5.rank :=
  Pipeline.WinSpec.ofSpec (Memref.whole main_v18) S1x2048x256.size reads5_3 true false 2 stage5_3 sem5_3 nbuf5_3 hstage5_3

abbrev spec5 : Fin 4 → Pipeline.WinSpec sig grid5.rank := fun | 0 => spec5_0 | 1 => spec5_1 | 2 => spec5_2 | 3 => spec5_3 | ⟨_ + 4, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | 3 => nbuf5_3 | ⟨_ + 4, h⟩ => absurd h (Nat.not_lt.2 (Nat.le_add_left _ _))
abbrev ix5 (pf : pre5.Contents (Elt F)) : (w : Fin 4) → grid5.Coords → Fin (spec5 w).shape.rank → Nat := fun | 0 => cc5_transform_0 k5_off1_inb numel1_S1x1 pf | 1 => cc5_transform_1 | 2 => cc5_transform_2 | 3 => cc5_transform_3 | ⟨_ + 4, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 | 2 => hreads5_2 | 3 => hreads5_3 | ⟨_ + 4, h⟩ => absurd h (Nat.not_lt.2 (Nat.le_add_left _ _))
def ok5 (pf : pre5.Contents (Elt F)) : Prop :=
  (∀ i : grid5.Coords, ∃ h : (∀ a, (cc5_transform_0 k5_off1_inb numel1_S1x1 pf i a + 1) * S1x2048x256.size a ≤ S16x8192x256.size a), EltTy.bits .f32 = 32 ∨ (Rect.block (s := S16x8192x256) S1x2048x256.size (cc5_transform_0 k5_off1_inb numel1_S1x1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok i).elim fun h _ => h a | 1 => hinb5_1 | 2 => hinb5_2 | 3 => hinb5_3 | ⟨_ + 4, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok i).elim fun _ h => h | 1 => hwx5_1 | 2 => hwx5_2 | 3 => hwx5_3 | ⟨_ + 4, h⟩ => absurd h (Nat.not_lt.2 (Nat.le_add_left _ _))

class Facts : Prop extends Facts₀ where
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole

variable [Facts]
-- ==== ReferenceIdeal.lean ====
abbrev S8192x256 : Shape := ⟨2, ![8192, 256]⟩
abbrev S60x256x256 : Shape := ⟨3, ![60, 256, 256]⟩
abbrev S60x256 : Shape := ⟨2, ![60, 256]⟩
abbrev S16 : Shape := ⟨1, ![16]⟩
abbrev S60 : Shape := ⟨1, ![60]⟩
abbrev S_ : Shape := ⟨0, ![]⟩
abbrev S16x1 : Shape := ⟨2, ![16, 1]⟩
abbrev S16x256x256 : Shape := ⟨3, ![16, 256, 256]⟩
abbrev S16x256x8192 : Shape := ⟨3, ![16, 256, 8192]⟩
abbrev S16x8192x256 : Shape := ⟨3, ![16, 8192, 256]⟩
abbrev S16x256 : Shape := ⟨2, ![16, 256]⟩
abbrev S16x1x256 : Shape := ⟨3, ![16, 1, 256]⟩
abbrev S60x1 : Shape := ⟨2, ![60, 1]⟩
abbrev S60x8192x256 : Shape := ⟨3, ![60, 8192, 256]⟩
abbrev S60x1x256 : Shape := ⟨3, ![60, 1, 256]⟩

abbrev nBuf : Space → Nat
  | .hbm => 123
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S60x256x256, .f32⟩
  | .hbm, ⟨2, _⟩ => ⟨S60x256, .f32⟩
  | .hbm, ⟨3, _⟩ => ⟨S16, .i32⟩
  | .hbm, ⟨4, _⟩ => ⟨S16, .i1⟩
  | .hbm, ⟨5, _⟩ => ⟨S16, .i1⟩
  | .hbm, ⟨6, _⟩ => ⟨S16, .i32⟩
  | .hbm, ⟨7, _⟩ => ⟨S60, .i32⟩
  | .hbm, ⟨8, _⟩ => ⟨S60, .i1⟩
  | .hbm, ⟨9, _⟩ => ⟨S60, .i32⟩
  | .hbm, ⟨10, _⟩ => ⟨S60, .i1⟩
  | .hbm, ⟨11, _⟩ => ⟨S60, .i1⟩
  | .hbm, ⟨12, _⟩ => ⟨S60, .i1⟩
  | .hbm, ⟨13, _⟩ => ⟨S60, .i1⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S16, .i32⟩
  | .hbm, ⟨18, _⟩ => ⟨S16x1, .i32⟩
  | .hbm, ⟨19, _⟩ => ⟨S16x256x256, .f32⟩
  | .hbm, ⟨20, _⟩ => ⟨S16x256x8192, .f32⟩
  | .hbm, ⟨21, _⟩ => ⟨S16x8192x256, .f32⟩
  | .hbm, ⟨22, _⟩ => ⟨S_, .i32⟩
  | .hbm, ⟨23, _⟩ => ⟨S16, .i32⟩
  | .hbm, ⟨24, _⟩ => ⟨S16, .i32⟩
  | .hbm, ⟨25, _⟩ => ⟨S16, .i32⟩
  | .hbm, ⟨26, _⟩ => ⟨S16x1, .i32⟩
  | .hbm, ⟨27, _⟩ => ⟨S16x256, .f32⟩
  | .hbm, ⟨28, _⟩ => ⟨S16x1x256, .f32⟩
  | .hbm, ⟨29, _⟩ => ⟨S16x8192x256, .f32⟩
  | .hbm, ⟨30, _⟩ => ⟨S16x8192x256, .f32⟩
  | .hbm, ⟨31, _⟩ => ⟨S_, .f32⟩
  | .hbm, ⟨32, _⟩ => ⟨S16x8192x256, .f32⟩
  | .hbm, ⟨33, _⟩ => ⟨S16x1, .i32⟩
  | .hbm, ⟨34, _⟩ => ⟨S16x8192x256, .f32⟩
  | .hbm, ⟨35, _⟩ => ⟨S_, .f32⟩
  | .hbm, ⟨36, _⟩ => ⟨S16x8192x256, .f32⟩
  | .hbm, ⟨37, _⟩ => ⟨S16x8192x256, .f32⟩
  | .hbm, ⟨38, _⟩ => ⟨S_, .i32⟩
  | .hbm, ⟨39, _⟩ => ⟨S60, .i32⟩
  | .hbm, ⟨40, _⟩ => ⟨S60, .i32⟩
  | .hbm, ⟨41, _⟩ => ⟨S60, .i32⟩
  | .hbm, ⟨42, _⟩ => ⟨S60x1, .i32⟩
  | .hbm, ⟨43, _⟩ => ⟨S60x8192x256, .f32⟩
  | .hbm, ⟨44, _⟩ => ⟨S60x8192x256, .f32⟩
  | .hbm, ⟨45, _⟩ => ⟨S60x1x256, .f32⟩
  | .hbm, ⟨46, _⟩ => ⟨S60x8192x256, .f32⟩
  | .hbm, ⟨47, _⟩ => ⟨S60x8192x256, .f32⟩
  | .hbm, ⟨48, _⟩ => ⟨S_, .f32⟩
  | .hbm, ⟨49, _⟩ => ⟨S16x8192x256, .f32⟩
  | .hbm, ⟨50, _⟩ => ⟨S60x1, .i32⟩
  | .hbm, ⟨51, _⟩ => ⟨S16x8192x256, .f32⟩
  | .hbm, ⟨52, _⟩ => ⟨S_, .f32⟩
  | .hbm, ⟨53, _⟩ => ⟨S16x8192x256, .f32⟩
  | .hbm, ⟨54, _⟩ => ⟨S16x8192x256, .f32⟩
  | .hbm, ⟨55, _⟩ => ⟨S_, .i32⟩
  | .hbm, ⟨56, _⟩ => ⟨S60, .i32⟩
  | .hbm, ⟨57, _⟩ => ⟨S60, .i32⟩
  | .hbm, ⟨58, _⟩ => ⟨S60, .i32⟩
  | .hbm, ⟨59, _⟩ => ⟨S60x1, .i32⟩
  | .hbm, ⟨60, _⟩ => ⟨S60x8192x256, .f32⟩
  | .hbm, ⟨61, _⟩ => ⟨S60x8192x256, .f32⟩
  | .hbm, ⟨62, _⟩ => ⟨S60x1x256, .f32⟩
  | .hbm, ⟨63, _⟩ => ⟨S60x8192x256, .f32⟩
  | .hbm, ⟨64, _⟩ => ⟨S60x8192x256, .f32⟩
  | .hbm, ⟨65, _⟩ => ⟨S_, .f32⟩
  | .hbm, ⟨66, _⟩ => ⟨S16x8192x256, .f32⟩
  | .hbm, ⟨67, _⟩ => ⟨S60x1, .i32⟩
  | .hbm, ⟨68, _⟩ => ⟨S16x8192x256, .f32⟩
  | .hbm, ⟨69, _⟩ => ⟨S_, .f32⟩
  | .hbm, ⟨70, _⟩ => ⟨S16x8192x256, .f32⟩
  | .hbm, ⟨71, _⟩ => ⟨S16x8192x256, .f32⟩
  | .hbm, ⟨72, _⟩ => ⟨S_, .i32⟩
  | .hbm, ⟨73, _⟩ => ⟨S60, .i32⟩
  | .hbm, ⟨74, _⟩ => ⟨S60, .i32⟩
  | .hbm, ⟨75, _⟩ => ⟨S60, .i32⟩
  | .hbm, ⟨76, _⟩ => ⟨S60x1, .i32⟩
  | .hbm, ⟨77, _⟩ => ⟨S60x8192x256, .f32⟩
  | .hbm, ⟨78, _⟩ => ⟨S60x8192x256, .f32⟩
  | .hbm, ⟨79, _⟩ => ⟨S60x1x256, .f32⟩
  | .hbm, ⟨80, _⟩ => ⟨S60x8192x256, .f32⟩
  | .hbm, ⟨81, _⟩ => ⟨S60x8192x256, .f32⟩
  | .hbm, ⟨82, _⟩ => ⟨S_, .f32⟩
  | .hbm, ⟨83, _⟩ => ⟨S16x8192x256, .f32⟩
  | .hbm, ⟨84, _⟩ => ⟨S60x1, .i32⟩
  | .hbm, ⟨85, _⟩ => ⟨S16x8192x256, .f32⟩
  | .hbm, ⟨86, _⟩ => ⟨S_, .f32⟩
  | .hbm, ⟨87, _⟩ => ⟨S16x8192x256, .f32⟩
  | .hbm, ⟨88, _⟩ => ⟨S16x8192x256, .f32⟩
  | .hbm, ⟨89, _⟩ => ⟨S_, .i32⟩
  | .hbm, ⟨90, _⟩ => ⟨S60, .i32⟩
  | .hbm, ⟨91, _⟩ => ⟨S60, .i32⟩
  | .hbm, ⟨92, _⟩ => ⟨S60, .i32⟩
  | .hbm, ⟨93, _⟩ => ⟨S60x1, .i32⟩
  | .hbm, ⟨94, _⟩ => ⟨S60x8192x256, .f32⟩
  | .hbm, ⟨95, _⟩ => ⟨S60x8192x256, .f32⟩
  | .hbm, ⟨96, _⟩ => ⟨S60x1x256, .f32⟩
  | .hbm, ⟨97, _⟩ => ⟨S60x8192x256, .f32⟩
  | .hbm, ⟨98, _⟩ => ⟨S60x8192x256, .f32⟩
  | .hbm, ⟨99, _⟩ => ⟨S_, .f32⟩
  | .hbm, ⟨100, _⟩ => ⟨S16x8192x256, .f32⟩
  | .hbm, ⟨101, _⟩ => ⟨S60x1, .i32⟩
  | .hbm, ⟨102, _⟩ => ⟨S16x8192x256, .f32⟩
  | .hbm, ⟨103, _⟩ => ⟨S_, .f32⟩
  | .hbm, ⟨104, _⟩ => ⟨S16x8192x256, .f32⟩
  | .hbm, ⟨105, _⟩ => ⟨S16x8192x256, .f32⟩
  | .hbm, ⟨106, _⟩ => ⟨S_, .i32⟩
  | .hbm, ⟨107, _⟩ => ⟨S60, .i32⟩
  | .hbm, ⟨108, _⟩ => ⟨S60, .i32⟩
  | .hbm, ⟨109, _⟩ => ⟨S60, .i32⟩
  | .hbm, ⟨110, _⟩ => ⟨S60x1, .i32⟩
  | .hbm, ⟨111, _⟩ => ⟨S60x8192x256, .f32⟩
  | .hbm, ⟨112, _⟩ => ⟨S60x8192x256, .f32⟩
  | .hbm, ⟨113, _⟩ => ⟨S60x1x256, .f32⟩
  | .hbm, ⟨114, _⟩ => ⟨S60x8192x256, .f32⟩
  | .hbm, ⟨115, _⟩ => ⟨S60x8192x256, .f32⟩
  | .hbm, ⟨116, _⟩ => ⟨S_, .f32⟩
  | .hbm, ⟨117, _⟩ => ⟨S16x8192x256, .f32⟩
  | .hbm, ⟨118, _⟩ => ⟨S60x1, .i32⟩
  | .hbm, ⟨119, _⟩ => ⟨S16x8192x256, .f32⟩
  | .hbm, ⟨120, _⟩ => ⟨S_, .f32⟩
  | .hbm, ⟨121, _⟩ => ⟨S16x8192x256, .f32⟩
  | .hbm, ⟨122, _⟩ => ⟨S16x8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_c_8 : Ref sig .tc := ⟨.hbm, 12, rfl⟩
abbrev main_c_9 : Ref sig .tc := ⟨.hbm, 13, rfl⟩
abbrev main_c_10 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_11 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call0_cst : Ref sig .tc := ⟨.hbm, 35, rfl⟩
abbrev main_call0_v0 : Ref sig .tc := ⟨.hbm, 36, rfl⟩
abbrev main_v18 : Ref sig .tc := ⟨.hbm, 37, rfl⟩
abbrev main_c_12 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_13 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_cst : Ref sig .tc := ⟨.hbm, 52, rfl⟩
abbrev main_call1_v0 : Ref sig .tc := ⟨.hbm, 53, rfl⟩
abbrev main_v31 : Ref sig .tc := ⟨.hbm, 54, rfl⟩
abbrev main_c_14 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_15 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call2_cst : Ref sig .tc := ⟨.hbm, 69, rfl⟩
abbrev main_call2_v0 : Ref sig .tc := ⟨.hbm, 70, rfl⟩
abbrev main_v44 : Ref sig .tc := ⟨.hbm, 71, rfl⟩
abbrev main_c_16 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_17 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call3_cst : Ref sig .tc := ⟨.hbm, 86, rfl⟩
abbrev main_call3_v0 : Ref sig .tc := ⟨.hbm, 87, rfl⟩
abbrev main_v57 : Ref sig .tc := ⟨.hbm, 88, rfl⟩
abbrev main_c_18 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_19 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_call4_cst : Ref sig .tc := ⟨.hbm, 103, rfl⟩
abbrev main_call4_v0 : Ref sig .tc := ⟨.hbm, 104, rfl⟩
abbrev main_v70 : Ref sig .tc := ⟨.hbm, 105, rfl⟩
abbrev main_c_20 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_21 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_call5_cst : Ref sig .tc := ⟨.hbm, 120, rfl⟩
abbrev main_call5_v0 : Ref sig .tc := ⟨.hbm, 121, rfl⟩
abbrev main_v83 : Ref sig .tc := ⟨.hbm, 122, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  transposes_S16x256x8192_S16x8192x256_0_2_1 : S16x256x8192.Transposes [0, 2, 1] S16x8192x256
  bcast_S16x256_S16x1x256_0_2 : S16x256.BroadcastsInDim S16x1x256 (![0, 2] : Fin 2 → Fin S16x1x256.rank)
  bcast_S16x1x256_S16x8192x256_0_1_2 : S16x1x256.BroadcastsInDim S16x8192x256 (![0, 1, 2] : Fin 3 → Fin S16x8192x256.rank)
  bcast_S_S16x8192x256 : S_.BroadcastsInDim S16x8192x256 (![] : Fin 0 → Fin S16x8192x256.rank)
  bcast_S_S60 : S_.BroadcastsInDim S60 (![] : Fin 0 → Fin S60.rank)
  bcast_S60_S60x1_0 : S60.BroadcastsInDim S60x1 (![0] : Fin 1 → Fin S60x1.rank)
  bcast_S60x256_S60x1x256_0_2 : S60x256.BroadcastsInDim S60x1x256 (![0, 2] : Fin 2 → Fin S60x1x256.rank)
  bcast_S60x1x256_S60x8192x256_0_1_2 : S60x1x256.BroadcastsInDim S60x8192x256 (![0, 1, 2] : Fin 3 → Fin S60x8192x256.rank)
  gather_S60x256x256_S16x1_S16x256x256_12_0_n_n_0_1_1256256_wf : GatherDims.WF S60x256x256 S16x1 S16x256x256 [1, 2] [0] [] [0] [] 1 ![1, 256, 256]
  dot_S16x256x256_S8192x256_S16x256x8192_2_1_01_0_n_n_wf : DotDims.WF S16x256x256 S8192x256 S16x256x8192 [2] [1] [0, 1] [0] [] []
  gather_S60x256_S16x1_S16x256_1_0_n_n_0_1_1256_wf : GatherDims.WF S60x256 S16x1 S16x256 [1] [0] [] [0] [] 1 ![1, 256]
  scatter_S16x8192x256_S16x1_S16x8192x256_12_0_0_1_wf : ScatterDims.WF S16x8192x256 S16x1 S16x8192x256 [1, 2] [0] [0] 1
  gather_S16x8192x256_S60x1_S60x8192x256_12_0_n_n_0_1_18192256_wf : GatherDims.WF S16x8192x256 S60x1 S60x8192x256 [1, 2] [0] [] [0] [] 1 ![1, 8192, 256]
  dot_S60x8192x256_S60x256x256_S60x8192x256_2_2_1_1_0_0_wf : DotDims.WF S60x8192x256 S60x256x256 S60x8192x256 [2] [2] [1] [1] [0] [0]
  scatter_S16x8192x256_S60x1_S60x8192x256_12_0_0_1_wf : ScatterDims.WF S16x8192x256 S60x1 S60x8192x256 [1, 2] [0] [0] 1

variable [Facts₀]

def gather_S60x256x256_S16x1_S16x256x256_12_0_n_n_0_1_1256256 : GatherDims S60x256x256 S16x1 S16x256x256 where
  offsetDims := [1, 2]
  collapsedSliceDims := [0]
  operandBatchingDims := []
  startIndicesBatchingDims := []
  startIndexMap := [0]
  indexVectorDim := 1
  sliceSizes := ![1, 256, 256]
  wf := gather_S60x256x256_S16x1_S16x256x256_12_0_n_n_0_1_1256256_wf
def dot_S16x256x256_S8192x256_S16x256x8192_2_1_01_0_n_n : DotDims S16x256x256 S8192x256 S16x256x8192 where
  lhsContracting := [2]
  rhsContracting := [1]
  lhsNonContracting := [0, 1]
  rhsNonContracting := [0]
  lhsBatch := []
  rhsBatch := []
  wf := dot_S16x256x256_S8192x256_S16x256x8192_2_1_01_0_n_n_wf
def gather_S60x256_S16x1_S16x256_1_0_n_n_0_1_1256 : GatherDims S60x256 S16x1 S16x256 where
  offsetDims := [1]
  collapsedSliceDims := [0]
  operandBatchingDims := []
  startIndicesBatchingDims := []
  startIndexMap := [0]
  indexVectorDim := 1
  sliceSizes := ![1, 256]
  wf := gather_S60x256_S16x1_S16x256_1_0_n_n_0_1_1256_wf
def scatter_S16x8192x256_S16x1_S16x8192x256_12_0_0_1 : ScatterDims S16x8192x256 S16x1 S16x8192x256 where
  updateWindowDims := [1, 2]
  insertedWindowDims := [0]
  scatterDimsToOperandDims := [0]
  indexVectorDim := 1
  wf := scatter_S16x8192x256_S16x1_S16x8192x256_12_0_0_1_wf
def gather_S16x8192x256_S60x1_S60x8192x256_12_0_n_n_0_1_18192256 : GatherDims S16x8192x256 S60x1 S60x8192x256 where
  offsetDims := [1, 2]
  collapsedSliceDims := [0]
  operandBatchingDims := []
  startIndicesBatchingDims := []
  startIndexMap := [0]
  indexVectorDim := 1
  sliceSizes := ![1, 8192, 256]
  wf := gather_S16x8192x256_S60x1_S60x8192x256_12_0_n_n_0_1_18192256_wf
def dot_S60x8192x256_S60x256x256_S60x8192x256_2_2_1_1_0_0 : DotDims S60x8192x256 S60x256x256 S60x8192x256 where
  lhsContracting := [2]
  rhsContracting := [2]
  lhsNonContracting := [1]
  rhsNonContracting := [1]
  lhsBatch := [0]
  rhsBatch := [0]
  wf := dot_S60x8192x256_S60x256x256_S60x8192x256_2_2_1_1_0_0_wf
def scatter_S16x8192x256_S60x1_S60x8192x256_12_0_0_1 : ScatterDims S16x8192x256 S60x1 S60x8192x256 where
  updateWindowDims := [1, 2]
  insertedWindowDims := [0]
  scatterDimsToOperandDims := [0]
  indexVectorDim := 1
  wf := scatter_S16x8192x256_S60x1_S60x8192x256_12_0_0_1_wf

class Facts : Prop extends Facts₀ where

variable [Facts]
-- ==== Proof.K.R0.lean ====
import proofs.«167552_j64123861729349_1_alg».proof.Proof.Gen.Kernel.Launch
import proofs.«167552_j64123861729349_1_alg».proof.Proof.Gen.Kernel.Skeleton
import proofs.«167552_j64123861729349_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic
set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_in0 : Rect S2048x256 := Rect.unit (s := S2048x256) ![0, 0] S2048x256.size inb_S2048x256_S2048x256_0_0
abbrev r0_in1 : Rect S1x256x256 := Rect.unit (s := S1x256x256) ![0, 0, 0] S1x256x256.size inb_S1x256x256_S1x256x256_0_0_0
abbrev r0_in2 : Rect S1x1x256 := Rect.unit (s := S1x1x256) ![0, 0, 0] S1x1x256.size inb_S1x1x256_S1x1x256_0_0_0
abbrev r0_out : Rect S1x2048x256 := Rect.unit (s := S1x2048x256) ![0, 0, 0] S1x2048x256.size inb_S1x2048x256_S1x2048x256_0_0_0

theorem hz2 : (![0, 0] : Fin 2 → ℕ) = fun _ => 0 := by funext a; fin_cases a <;> rfl
theorem hz3 : (![0, 0, 0] : Fin 3 → ℕ) = fun _ => 0 := by funext a; fin_cases a <;> rfl

def out0_3 (x0 : Vec F S2048x256 .f32) (x1 : Vec F S1x256x256 .f32) (x2 : Vec F S1x1x256 .f32) : Vec F S1x2048x256 .f32 :=
  View.canon [⟨r0_out, k0_pay1 (View.ld x0 r0_in0) (View.ld x1 r0_in1) (View.ld x2 r0_in2)⟩]

theorem cover0_3 (p0 : Vec F S1x2048x256 .f32) (y : S1x2048x256.Idx) :
    ∃ pc ∈ ([⟨r0_out, p0⟩] : List (View.Piece (Elt F) S1x2048x256 .f32)), y ∈ pc.1.set :=
  ⟨_, List.mem_singleton_self _, View.mem_set_unit_zero (S := S1x2048x256) hz3 inb_S1x2048x256_S1x2048x256_0_0_0 y⟩

theorem out0_3_eq (x0 : Vec F S2048x256 .f32) (x1 : Vec F S1x256x256 .f32) (x2 : Vec F S1x1x256 .f32) :
    out0_3 x0 x1 x2 = k0_pay1 x0 x1 x2 := by
  unfold out0_3
  rw [View.canon_unit_zero (S := S1x2048x256) hz3, View.ld_unit_zero (S := S2048x256) hz2,
    View.ld_unit_zero (S := S1x256x256) hz3, View.ld_unit_zero (S := S1x1x256) hz3]

set_option maxHeartbeats 1000000 in

theorem sound_kernel0 (c : Dev nD) (E : Set ℕ) (i : grid0.Coords)
    (arg0 : Memref sig .tc .vmem S2048x256 .f32) (harg0 : arg0.IsWhole)
    (arg1 : Memref sig .tc .vmem S1x256x256 .f32) (harg1 : arg1.IsWhole)
    (arg2 : Memref sig .tc .vmem S1x1x256 .f32) (harg2 : arg2.IsWhole)
    (arg3 : Memref sig .tc .vmem S1x2048x256 .f32) (harg3 : arg3.IsWhole)
    (x0 : Vec F S2048x256 .f32) (x1 : Vec F S1x256x256 .f32) (x2 : Vec F S1x1x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__iter0_kernel i arg0 harg0 arg1 harg1 arg2 harg2 arg3 harg3) K := by
  simp only [cc0__iter0_kernel_eq_skeleton]; unfold cc0__iter0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Fr
end
-- ==== Proof.LibWholeStore.lean ====
import Idealize.ShloMosaic.Lib.Pipeline.Value

namespace Cert.LibWholeStore

open Idealize.ShloMosaic

theorem readCov_cons_whole {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

end Cert.LibWholeStore
-- ==== Proof.LibWholeRead.lean ====
import Idealize.ShloMosaic.Lib.Pipeline.Value

namespace Cert.LibWholeRead

open Idealize.ShloMosaic

theorem read_writes_cons_whole {Val : EltTy → Type} [∀ e, Nonempty (Val e)] {sig : RefSig} {κ : Kind} {sp : Space}
    {S : Shape} {e : EltTy} (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end Cert.LibWholeRead
-- ==== Proof.K.Body.lean ====
import proofs.«167552_j64123861729349_1_alg».proof.Proof.Gen.Kernel.Launch
import proofs.«167552_j64123861729349_1_alg».proof.Proof.Gen.Kernel.Skeleton
import proofs.«167552_j64123861729349_1_alg».proof.Proof.Gen.Kernel.Points
import Idealize.ShloMosaic.Lib.Pipeline.FrameBody
import Idealize.ShloMosaic.Lib.Ring
import Idealize.ShloMosaic.Lib.Tactic
import Idealize.ShloMosaic.Lib.WholeRead
import proofs.«167552_j64123861729349_1_alg».proof.Proof.LibWholeStore
import proofs.«167552_j64123861729349_1_alg».proof.Proof.LibWholeRead
set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

abbrev atFirst (i : grid1.Coords) : Prop := (Scalar.cmpi .ne (Scalar.extui (Scalar.cmpi .eq (BitVec.ofNat 32 (i 2).val) 0#32)) 0#32) = 1#1
abbrev atLast (i : grid1.Coords) : Prop := (Scalar.cmpi .ne (Scalar.extui (Scalar.cmpi .eq (BitVec.ofNat 32 (i 2).val) 3#32)) 0#32) = 1#1
abbrev tblRef : Memref sig .tc .smem S16x4 .i32 := Memref.whole main_c_1
abbrev tblRef_whole : tblRef.IsWhole := Memref.isWhole_whole _

theorem atFirst_iff : ∀ t : Fin grid1.N, atFirst (grid1.coords t) ↔ t.val % 4 = 0 := by decide +kernel
theorem atLast_iff : ∀ t : Fin grid1.N, atLast (grid1.coords t) ↔ t.val % 4 = 3 := by decide +kernel

variable (c : Dev nD) (i : grid1.Coords)
  (arg4 : Memref sig .tc .vmem S1x2048x256 .f32) (harg4 : arg4.IsWhole) (arg5 : Memref sig .tc .vmem S1x1x256x256 .f32) (harg5 : arg5.IsWhole)
  (arg6 : Memref sig .tc .vmem S1x1x1x256 .f32) (harg6 : arg6.IsWhole) (arg7 : Memref sig .tc .vmem S1x2048x256 .f32) (harg7 : arg7.IsWhole)
  (x0 : Vec F S1x2048x256 .f32) (x1 : Vec F S1x1x256x256 .f32) (x2 : Vec F S1x1x1x256 .f32)

/-- What one call of the body is shown to do: the three inputs come back as given and the output memref ends at the pieces `L3` written over some contents. -/
abbrev RunSpec (out : sProp 𝕄) (L3 : List (View.Piece (Elt F) S1x2048x256 .f32)) : Prop :=
  ∀ (E : Set ℕ) (K : PUnit → sProp 𝕄),
    iprop(owns (c : Thread nD τ) arg4 fullShare x0 ∗ owns (c : Thread nD τ) arg5 fullShare x1 ∗ owns (c : Thread nD τ) arg6 fullShare x2 ∗ out
        ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3)) -∗ K ⟨⟩))
      ⊢ wp frame (wpE (defs₀ (F := F)) Variants.none c none) E (cc1__iter_kernel i tblRef tblRef_whole arg4 harg4 arg5 harg5 arg6 harg6 arg7 harg7) K

set_option maxHeartbeats 1000000 in
noncomputable def runFirst (hc0 : atFirst i) (hc1 : ¬atLast i) :
    { L3 // RunSpec c i arg4 harg4 arg5 harg5 arg6 harg6 arg7 harg7 x0 x1 x2 iprop(∃ d, owns (c : Thread nD τ) arg7 fullShare d) L3 } := by
  refine ⟨?_, fun E K => ?run⟩
  case run =>
    simp only [cc1__iter_kernel_eq_skeleton]; unfold cc1__iter_kernel_skel
    unfold owns
    iintro ⟨⟨%f0, %hf0, H0⟩, ⟨%f1, %hf1, H1⟩, ⟨%f2, %hf2, H2⟩, ⟨%d3, %f3, -, H3⟩, Hk⟩
    obtain rfl := harg4.eq_unread hf0; obtain rfl := harg5.eq_unread hf1; obtain rfl := harg6.eq_unread hf2
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; iexact H3

set_option maxHeartbeats 1000000 in
noncomputable def runMid (hc0 : ¬atFirst i) (hc1 : ¬atLast i) (xo3 : Vec F S1x2048x256 .f32) :
    { L3 // RunSpec c i arg4 harg4 arg5 harg5 arg6 harg6 arg7 harg7 x0 x1 x2 (owns (c : Thread nD τ) arg7 fullShare xo3) L3 } := by
  refine ⟨?_, fun E K => ?run⟩
  case run =>
    simp only [cc1__iter_kernel_eq_skeleton]; unfold cc1__iter_kernel_skel
    unfold owns
    iintro ⟨⟨%f0, %hf0, H0⟩, ⟨%f1, %hf1, H1⟩, ⟨%f2, %hf2, H2⟩, ⟨%f3, %hf3, H3⟩, Hk⟩
    obtain rfl := harg4.eq_unread hf0; obtain rfl := harg5.eq_unread hf1; obtain rfl := harg6.eq_unread hf2; obtain rfl := harg7.eq_unread hf3
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; iexact H3

set_option maxHeartbeats 1000000 in
noncomputable def runLast (hc0 : ¬atFirst i) (hc1 : atLast i) (xo3 : Vec F S1x2048x256 .f32) :
    { L3 // RunSpec c i arg4 harg4 arg5 harg5 arg6 harg6 arg7 harg7 x0 x1 x2 (owns (c : Thread nD τ) arg7 fullShare xo3) L3 } := by
  refine ⟨?_, fun E K => ?run⟩
  case run =>
    simp only [cc1__iter_kernel_eq_skeleton]; unfold cc1__iter_kernel_skel
    unfold owns
    iintro ⟨⟨%f0, %hf0, H0⟩, ⟨%f1, %hf1, H1⟩, ⟨%f2, %hf2, H2⟩, ⟨%f3, %hf3, H3⟩, Hk⟩
    obtain rfl := harg4.eq_unread hf0; obtain rfl := harg5.eq_unread hf1; obtain rfl := harg6.eq_unread hf2; obtain rfl := harg7.eq_unread hf3
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; iexact H3

private theorem zeros3 : (![0, 0, 0] : Fin 3 → Nat) = fun _ => 0 := funext fun j => by fin_cases j <;> rfl
private theorem zeros4 : (![0, 0, 0, 0] : Fin 4 → Nat) = fun _ => 0 := funext fun j => by fin_cases j <;> rfl

theorem readMid (hc0 : ¬atFirst i) (hc1 : ¬atLast i) (xo3 : Vec F S1x2048x256 .f32) (f : arg7.view.ty.Contents (Elt F)) :
    arg7.view.read (Elt F) (arg7.view.writes (Elt F) f (runMid c i arg4 harg4 arg5 harg5 arg6 harg6 arg7 harg7 x0 x1 x2 hc0 hc1 xo3).1) = k1_pay2 x0 x1 x2 xo3 := by
  unfold runMid
  dsimp only
  rw [Cert.LibWholeRead.read_writes_cons_whole (S := S1x2048x256) _ _ zeros3]
  simp only [View.readAt_eq_ld, harg4.read_unread, harg5.read_unread, harg6.read_unread, harg7.read_unread,
    View.ld_unit_zero (S := S1x2048x256) zeros3, View.ld_unit_zero (S := S1x1x256x256) zeros4, View.ld_unit_zero (S := S1x1x1x256) zeros4]

theorem readFirst (hc0 : atFirst i) (hc1 : ¬atLast i) (f : arg7.view.ty.Contents (Elt F)) :
    arg7.view.read (Elt F) (arg7.view.writes (Elt F) f (runFirst c i arg4 harg4 arg5 harg5 arg6 harg6 arg7 harg7 x0 x1 x2 hc0 hc1).1) = k1_pay2 x0 x1 x2 k1_pay1 := by
  unfold runFirst
  dsimp only
  sl_unfold_run_names
  rw [Cert.LibWholeRead.read_writes_cons_whole (S := S1x2048x256) _ _ zeros3, View.readCov_unit_zero (S := S1x2048x256) _ zeros3]
  simp only [View.readAt_eq_ld, harg4.read_unread, harg5.read_unread, harg6.read_unread,
    View.ld_unit_zero (S := S1x2048x256) zeros3, View.ld_unit_zero (S := S1x1x256x256) zeros4, View.ld_unit_zero (S := S1x1x1x256) zeros4]

theorem readLast (hc0 : ¬atFirst i) (hc1 : atLast i) (xo3 : Vec F S1x2048x256 .f32) (f : arg7.view.ty.Contents (Elt F)) :
    arg7.view.read (Elt F) (arg7.view.writes (Elt F) f (runLast c i arg4 harg4 arg5 harg5 arg6 harg6 arg7 harg7 x0 x1 x2 hc0 hc1 xo3).1) = k1_pay3 (k1_pay2 x0 x1 x2 xo3) := by
  unfold runLast
  dsimp only
  sl_unfold_run_names
  rw [Cert.LibWholeRead.read_writes_cons_whole (S := S1x2048x256) _ _ zeros3, View.readCov_unit_zero (S := S1x2048x256) _ zeros3]
  simp only [View.readAt_eq_ld, harg4.read_unread, harg5.read_unread, harg6.read_unread, harg7.read_unread,
    View.ld_unit_zero (S := S1x2048x256) zeros3, View.ld_unit_zero (S := S1x1x256x256) zeros4, View.ld_unit_zero (S := S1x1x1x256) zeros4]

/-- One point's value of the output block over `prev`, what the point before left: the update of zero on a run's first point, its positive part on the last. -/
def stepOf (n : ℕ) (prev : Vec F S1x2048x256 .f32) : Vec F S1x2048x256 .f32 :=
  if n % 4 = 0 then k1_pay2 x0 x1 x2 k1_pay1 else if n % 4 = 3 then k1_pay3 (k1_pay2 x0 x1 x2 prev) else k1_pay2 x0 x1 x2 prev

/-- The body at point `t`, its three cases at once: the output block ends at `stepOf` of what it held (`prev`, off a run's first point). -/
theorem body_step {D : Type} (t : Fin grid1.N) (g : D → Vec F S1x2048x256 .f32) (prev : Vec F S1x2048x256 .f32)
    (hg : ¬t.val % 4 = 0 → ∀ d, g d = prev) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare (g d))
        ∗ (iprop(owns (c : Thread nD τ) arg4 fullShare x0 ∗ owns (c : Thread nD τ) arg5 fullShare x1 ∗ owns (c : Thread nD τ) arg6 fullShare x2 ∗ owns (c : Thread nD τ) arg7 fullShare (stepOf x0 x1 x2 t.val prev)) -∗ K ⟨⟩))
      ⊢ wp frame (wpE (defs₀ (F := F)) Variants.none c none) E (cc1__iter_kernel (grid1.coords t) tblRef tblRef_whole arg4 harg4 arg5 harg5 arg6 harg6 arg7 harg7) K := by
  unfold stepOf
  by_cases h0 : t.val % 4 = 0
  · rw [if_pos h0]
    iintro ⟨H0, H1, H2, ⟨%d3, H3⟩, Hk⟩
    iapply ((runFirst c (grid1.coords t) arg4 harg4 arg5 harg5 arg6 harg6 arg7 harg7 x0 x1 x2 ((atFirst_iff t).mpr h0) (fun h => by have := (atLast_iff t).mp h; omega)).2 E _)
    isplitl [H0]; · iexact H0
    isplitl [H1]; · iexact H1
    isplitl [H2]; · iexact H2
    isplitl [H3]; · iexists _; iexact H3
    iintro ⟨H0, H1, H2, ⟨%e3, H3⟩⟩
    iapply Hk
    isplitl [H0]; · iexact H0
    isplitl [H1]; · iexact H1
    isplitl [H2]; · iexact H2
    unfold owns; iexists _; isplitr
    swap; · iexact H3
    ipureintro; exact readFirst c _ _ _ _ _ _ _ _ _ _ _ _ _ _ _
  · rw [if_neg h0]
    simp only [hg h0]
    by_cases h3 : t.val % 4 = 3
    · rw [if_pos h3]
      iintro ⟨H0, H1, H2, ⟨%d3, H3⟩, Hk⟩
      iapply ((runLast c (grid1.coords t) arg4 harg4 arg5 harg5 arg6 harg6 arg7 harg7 x0 x1 x2 (fun h => h0 ((atFirst_iff t).mp h)) ((atLast_iff t).mpr h3) prev).2 E _)
      isplitl [H0]; · iexact H0
      isplitl [H1]; · iexact H1
      isplitl [H2]; · iexact H2
      isplitl [H3]; · iexact H3
      iintro ⟨H0, H1, H2, ⟨%e3, H3⟩⟩
      iapply Hk
      isplitl [H0]; · iexact H0
      isplitl [H1]; · iexact H1
      isplitl [H2]; · iexact H2
      unfold owns; iexists _; isplitr
      swap; · iexact H3
      ipureintro; exact readLast c _ _ _ _ _ _ _ _ _ _ _ _ _ _ _ _
    · rw [if_neg h3]
      iintro ⟨H0, H1, H2, ⟨%d3, H3⟩, Hk⟩
      iapply ((runMid c (grid1.coords t) arg4 harg4 arg5 harg5 arg6 harg6 arg7 harg7 x0 x1 x2 (fun h => h0 ((atFirst_iff t).mp h)) (fun h => h3 ((atLast_iff t).mp h)) prev).2 E _)
      isplitl [H0]; · iexact H0
      isplitl [H1]; · iexact H1
      isplitl [H2]; · iexact H2
      isplitl [H3]; · iexact H3
      iintro ⟨H0, H1, H2, ⟨%e3, H3⟩⟩
      iapply Hk
      isplitl [H0]; · iexact H0
      isplitl [H1]; · iexact H1
      isplitl [H2]; · iexact H2
      unfold owns; iexists _; isplitr
      swap; · iexact H3
      ipureintro; exact readMid c _ _ _ _ _ _ _ _ _ _ _ _ _ _ _ _

end Cert.Kernel.Fr
end
-- ==== Proof.K.R1.lean ====
import proofs.«167552_j64123861729349_1_alg».proof.Proof.K.Body
set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

theorem flush1_3 (a : (pcfg1 (F := F)).Adm) : ∀ t : Fin (cfg1 a).N, ((cfg1 a).win 3).flush t = true ↔ t.val % 4 = 3 :=
  (by decide +kernel : ∀ t : Fin grid1.N, Pipeline.Window.flushOf grid1 true cc1_transform_3 t = true ↔ t.val % 4 = 3)

variable (V : (c : Dev nD) → (b : Ref sig .tc) → Buf (Elt F) ((c : Thread nD τ).loc b))
variable (a : (pcfg1 (F := F)).Adm)

def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- What the output block holds after the body at point `n`: the step over what the point before left. -/
def outsAt1 (c : Dev nD) : (n : ℕ) → n < (cfg1 a).N → Vec F S1x2048x256 .f32
  | 0, hn => stepOf (iblk1 V a c 0 ⟨0, hn⟩) (iblk1 V a c 1 ⟨0, hn⟩) (iblk1 V a c 2 ⟨0, hn⟩) 0 k1_pay1
  | n + 1, hn => stepOf (iblk1 V a c 0 ⟨n + 1, hn⟩) (iblk1 V a c 1 ⟨n + 1, hn⟩) (iblk1 V a c 2 ⟨n + 1, hn⟩) (n + 1) (outsAt1 c n (Nat.lt_of_succ_lt hn))

theorem outsAt1_eq (c : Dev nD) (t : Fin (cfg1 a).N) :
    outsAt1 V a c t.val t.isLt = stepOf (iblk1 V a c 0 t) (iblk1 V a c 1 t) (iblk1 V a c 2 t) t.val (outsAt1 V a c (t.val - 1) (Nat.lt_of_le_of_lt (Nat.sub_le _ _) t.isLt)) := by
  obtain ⟨n, hn⟩ := t
  cases n with
  | zero => rfl
  | succ n => rfl

def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => outsAt1 V a c t.val t.isLt
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after (0 : Fin 4) t = iblk1 V a c 0 t := by dsimp only [dat1]; try rfl
theorem after1_1 (c : Dev nD) (t : Fin (cfg1 a).N) : (dat1 V a c).after (1 : Fin 4) t = iblk1 V a c 1 t := by dsimp only [dat1]; try rfl
theorem after1_2 (c : Dev nD) (t : Fin (cfg1 a).N) : (dat1 V a c).after (2 : Fin 4) t = iblk1 V a c 2 t := by dsimp only [dat1]; try rfl
theorem after1_3 (c : Dev nD) (t : Fin (cfg1 a).N) : (dat1 V a c).after (3 : Fin 4) t = outsAt1 V a c t.val t.isLt := by dsimp only [dat1]; try rfl

theorem before1_0 (c : Dev nD) (t : Fin (cfg1 a).N) (d) : (dat1 V a c).before (0 : Fin 4) t d = iblk1 V a c 0 t :=
  ((dat1 V a c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before (1 : Fin 4) t d = iblk1 V a c 1 t :=
  ((dat1 V a c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before (2 : Fin 4) t d = iblk1 V a c 2 t :=
  ((dat1 V a c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem before1_3_kept (c : Dev nD) (t : Fin (cfg1 a).N) (h0 : ¬t.val % 4 = 0) (d) :
    (dat1 V a c).before (3 : Fin 4) t d = outsAt1 V a c (t.val - 1) (Nat.lt_of_le_of_lt (Nat.sub_le _ _) t.isLt) := by
  rw [Dat.before_out_kept _ (3 : Fin 4) rfl t (by omega) (Bool.eq_false_iff.mpr fun h => by have := (flush1_3 a _).mp h; dsimp only at this; omega)
    (fun _ => rfl) (fun _ _ => rfl)]
  exact after1_3 V a c _

theorem body_obligation1 (c : Dev nD) : BodyObligation (dat1 (F := F) V a c) (defs₀ (F := F)) Variants.none () Set.univ := fun t => by
  rw [bigSep_W1, bigSep_W1]
  dsimp only
  simp only [before1_0, before1_1, before1_2]
  rw [show (dat1 V a c).Φ t.succ = (dat1 V a c).Φ t.castSucc from rfl,
    show (dat1 V a c).owesAt () t.succ = (dat1 V a c).owesAt () t.castSucc from rfl,
    after1_0, after1_1, after1_2, after1_3, outsAt1_eq V a c t]
  iintro ⟨HΦ, Ho, ⟨%d0, H0⟩, ⟨%d1, H1⟩, ⟨%d2, H2⟩, H3⟩
  iapply (body_step c _ (hstage1_0 _) _ (hstage1_1 _) _ (hstage1_2 _) _ (hstage1_3 _) (iblk1 V a c 0 t) (iblk1 V a c 1 t) (iblk1 V a c 2 t) t ((dat1 V a c).before (3 : Fin 4) t) _
    (fun h0 d => before1_3_kept V a c t h0 d) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Kernel.Fr
end
-- ==== Proof.K.R2.lean ====
import proofs.«167552_j64123861729349_1_alg».proof.Proof.K.Body
set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

theorem flush2_3 (a : (pcfg2 (F := F)).Adm) : ∀ t : Fin (cfg2 a).N, ((cfg2 a).win 3).flush t = true ↔ t.val % 4 = 3 :=
  (by decide +kernel : ∀ t : Fin grid2.N, Pipeline.Window.flushOf grid2 true cc2_transform_3 t = true ↔ t.val % 4 = 3)

variable (V : (c : Dev nD) → (b : Ref sig .tc) → Buf (Elt F) ((c : Thread nD τ).loc b))
variable (a : (pcfg2 (F := F)).Adm)

def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- What the output block holds after the body at point `n`: the step over what the point before left. -/
def outsAt2 (c : Dev nD) : (n : ℕ) → n < (cfg2 a).N → Vec F S1x2048x256 .f32
  | 0, hn => stepOf (iblk2 V a c 0 ⟨0, hn⟩) (iblk2 V a c 1 ⟨0, hn⟩) (iblk2 V a c 2 ⟨0, hn⟩) 0 k1_pay1
  | n + 1, hn => stepOf (iblk2 V a c 0 ⟨n + 1, hn⟩) (iblk2 V a c 1 ⟨n + 1, hn⟩) (iblk2 V a c 2 ⟨n + 1, hn⟩) (n + 1) (outsAt2 c n (Nat.lt_of_succ_lt hn))

theorem outsAt2_eq (c : Dev nD) (t : Fin (cfg2 a).N) :
    outsAt2 V a c t.val t.isLt = stepOf (iblk2 V a c 0 t) (iblk2 V a c 1 t) (iblk2 V a c 2 t) t.val (outsAt2 V a c (t.val - 1) (Nat.lt_of_le_of_lt (Nat.sub_le _ _) t.isLt)) := by
  obtain ⟨n, hn⟩ := t
  cases n with
  | zero => rfl
  | succ n => rfl

def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => iblk2 V a c 1 t
    | ⟨2, _⟩ => iblk2 V a c 2 t
    | ⟨3, _⟩ => outsAt2 V a c t.val t.isLt
  Φ _ := iprop(Pipeline.ΦA spec2 c ∗ Pipeline.prefHeld (Ix := Unit) (Name := ℕ) (U := UR sig nD τ) (Lvl := ℕ) pre2 c (fun _ => fullShare) a.1)
  q _ := fullShare
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after (0 : Fin 4) t = iblk2 V a c 0 t := by dsimp only [dat2]; try rfl
theorem after2_1 (c : Dev nD) (t : Fin (cfg2 a).N) : (dat2 V a c).after (1 : Fin 4) t = iblk2 V a c 1 t := by dsimp only [dat2]; try rfl
theorem after2_2 (c : Dev nD) (t : Fin (cfg2 a).N) : (dat2 V a c).after (2 : Fin 4) t = iblk2 V a c 2 t := by dsimp only [dat2]; try rfl
theorem after2_3 (c : Dev nD) (t : Fin (cfg2 a).N) : (dat2 V a c).after (3 : Fin 4) t = outsAt2 V a c t.val t.isLt := by dsimp only [dat2]; try rfl

theorem before2_0 (c : Dev nD) (t : Fin (cfg2 a).N) (d) : (dat2 V a c).before (0 : Fin 4) t d = iblk2 V a c 0 t :=
  ((dat2 V a c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin (cfg2 a).N) (d) : (dat2 V a c).before (1 : Fin 4) t d = iblk2 V a c 1 t :=
  ((dat2 V a c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin (cfg2 a).N) (d) : (dat2 V a c).before (2 : Fin 4) t d = iblk2 V a c 2 t :=
  ((dat2 V a c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

theorem before2_3_kept (c : Dev nD) (t : Fin (cfg2 a).N) (h0 : ¬t.val % 4 = 0) (d) :
    (dat2 V a c).before (3 : Fin 4) t d = outsAt2 V a c (t.val - 1) (Nat.lt_of_le_of_lt (Nat.sub_le _ _) t.isLt) := by
  rw [Dat.before_out_kept _ (3 : Fin 4) rfl t (by omega) (Bool.eq_false_iff.mpr fun h => by have := (flush2_3 a _).mp h; dsimp only at this; omega)
    (fun _ => rfl) (fun _ _ => rfl)]
  exact after2_3 V a c _

theorem body_obligation2 (c : Dev nD) : BodyObligation (dat2 (F := F) V a c) (defs₀ (F := F)) Variants.none () Set.univ := fun t => by
  rw [bigSep_W2, bigSep_W2]
  dsimp only
  simp only [before2_0, before2_1, before2_2]
  rw [show (dat2 V a c).Φ t.succ = (dat2 V a c).Φ t.castSucc from rfl,
    show (dat2 V a c).owesAt () t.succ = (dat2 V a c).owesAt () t.castSucc from rfl,
    after2_0, after2_1, after2_2, after2_3, outsAt2_eq V a c t]
  iintro ⟨HΦ, Ho, ⟨%d0, H0⟩, ⟨%d1, H1⟩, ⟨%d2, H2⟩, H3⟩
  iapply (body_step c _ (hstage2_0 _) _ (hstage2_1 _) _ (hstage2_2 _) _ (hstage2_3 _) (iblk2 V a c 0 t) (iblk2 V a c 1 t) (iblk2 V a c 2 t) t ((dat2 V a c).before (3 : Fin 4) t) _
    (fun h0 d => before2_3_kept V a c t h0 d) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Kernel.Fr
end
-- ==== Proof.K.R3.lean ====
import proofs.«167552_j64123861729349_1_alg».proof.Proof.K.Body
set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

theorem flush3_3 (a : (pcfg3 (F := F)).Adm) : ∀ t : Fin (cfg3 a).N, ((cfg3 a).win 3).flush t = true ↔ t.val % 4 = 3 :=
  (by decide +kernel : ∀ t : Fin grid3.N, Pipeline.Window.flushOf grid3 true cc3_transform_3 t = true ↔ t.val % 4 = 3)

variable (V : (c : Dev nD) → (b : Ref sig .tc) → Buf (Elt F) ((c : Thread nD τ).loc b))
variable (a : (pcfg3 (F := F)).Adm)

def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- What the output block holds after the body at point `n`: the step over what the point before left. -/
def outsAt3 (c : Dev nD) : (n : ℕ) → n < (cfg3 a).N → Vec F S1x2048x256 .f32
  | 0, hn => stepOf (iblk3 V a c 0 ⟨0, hn⟩) (iblk3 V a c 1 ⟨0, hn⟩) (iblk3 V a c 2 ⟨0, hn⟩) 0 k1_pay1
  | n + 1, hn => stepOf (iblk3 V a c 0 ⟨n + 1, hn⟩) (iblk3 V a c 1 ⟨n + 1, hn⟩) (iblk3 V a c 2 ⟨n + 1, hn⟩) (n + 1) (outsAt3 c n (Nat.lt_of_succ_lt hn))

theorem outsAt3_eq (c : Dev nD) (t : Fin (cfg3 a).N) :
    outsAt3 V a c t.val t.isLt = stepOf (iblk3 V a c 0 t) (iblk3 V a c 1 t) (iblk3 V a c 2 t) t.val (outsAt3 V a c (t.val - 1) (Nat.lt_of_le_of_lt (Nat.sub_le _ _) t.isLt)) := by
  obtain ⟨n, hn⟩ := t
  cases n with
  | zero => rfl
  | succ n => rfl

def dat3 (c : Dev nD) : Dat τ (Elt F) Unit ℕ (UR sig nD τ) ℕ (cfg3 a) c where
  A w := V c (Pipeline.arrRef spec3 w)
  after w t := match w with
    | ⟨0, _⟩ => iblk3 V a c 0 t
    | ⟨1, _⟩ => iblk3 V a c 1 t
    | ⟨2, _⟩ => iblk3 V a c 2 t
    | ⟨3, _⟩ => outsAt3 V a c t.val t.isLt
  Φ _ := iprop(Pipeline.ΦA spec3 c ∗ Pipeline.prefHeld (Ix := Unit) (Name := ℕ) (U := UR sig nD τ) (Lvl := ℕ) pre3 c (fun _ => fullShare) a.1)
  q _ := fullShare
  owed _ := 0

theorem A_eq3 (c : Dev nD) (w : Fin (cfg3 a).W) : (dat3 V a c).A w = V c (Pipeline.arrRef spec3 w) := by
  dsimp only [dat3]

theorem after3_0 (c : Dev nD) (t : Fin (cfg3 a).N) : (dat3 V a c).after (0 : Fin 4) t = iblk3 V a c 0 t := by dsimp only [dat3]; try rfl
theorem after3_1 (c : Dev nD) (t : Fin (cfg3 a).N) : (dat3 V a c).after (1 : Fin 4) t = iblk3 V a c 1 t := by dsimp only [dat3]; try rfl
theorem after3_2 (c : Dev nD) (t : Fin (cfg3 a).N) : (dat3 V a c).after (2 : Fin 4) t = iblk3 V a c 2 t := by dsimp only [dat3]; try rfl
theorem after3_3 (c : Dev nD) (t : Fin (cfg3 a).N) : (dat3 V a c).after (3 : Fin 4) t = outsAt3 V a c t.val t.isLt := by dsimp only [dat3]; try rfl

theorem before3_0 (c : Dev nD) (t : Fin (cfg3 a).N) (d) : (dat3 V a c).before (0 : Fin 4) t d = iblk3 V a c 0 t :=
  ((dat3 V a c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin (cfg3 a).N) (d) : (dat3 V a c).before (1 : Fin 4) t d = iblk3 V a c 1 t :=
  ((dat3 V a c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin (cfg3 a).N) (d) : (dat3 V a c).before (2 : Fin 4) t d = iblk3 V a c 2 t :=
  ((dat3 V a c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

theorem before3_3_kept (c : Dev nD) (t : Fin (cfg3 a).N) (h0 : ¬t.val % 4 = 0) (d) :
    (dat3 V a c).before (3 : Fin 4) t d = outsAt3 V a c (t.val - 1) (Nat.lt_of_le_of_lt (Nat.sub_le _ _) t.isLt) := by
  rw [Dat.before_out_kept _ (3 : Fin 4) rfl t (by omega) (Bool.eq_false_iff.mpr fun h => by have := (flush3_3 a _).mp h; dsimp only at this; omega)
    (fun _ => rfl) (fun _ _ => rfl)]
  exact after3_3 V a c _

theorem body_obligation3 (c : Dev nD) : BodyObligation (dat3 (F := F) V a c) (defs₀ (F := F)) Variants.none () Set.univ := fun t => by
  rw [bigSep_W3, bigSep_W3]
  dsimp only
  simp only [before3_0, before3_1, before3_2]
  rw [show (dat3 V a c).Φ t.succ = (dat3 V a c).Φ t.castSucc from rfl,
    show (dat3 V a c).owesAt () t.succ = (dat3 V a c).owesAt () t.castSucc from rfl,
    after3_0, after3_1, after3_2, after3_3, outsAt3_eq V a c t]
  iintro ⟨HΦ, Ho, ⟨%d0, H0⟩, ⟨%d1, H1⟩, ⟨%d2, H2⟩, H3⟩
  iapply (body_step c _ (hstage3_0 _) _ (hstage3_1 _) _ (hstage3_2 _) _ (hstage3_3 _) (iblk3 V a c 0 t) (iblk3 V a c 1 t) (iblk3 V a c 2 t) t ((dat3 V a c).before (3 : Fin 4) t) _
    (fun h0 d => before3_3_kept V a c t h0 d) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Kernel.Fr
end
-- ==== Proof.K.R4.lean ====
import proofs.«167552_j64123861729349_1_alg».proof.Proof.K.Body
set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

theorem flush4_3 (a : (pcfg4 (F := F)).Adm) : ∀ t : Fin (cfg4 a).N, ((cfg4 a).win 3).flush t = true ↔ t.val % 4 = 3 :=
  (by decide +kernel : ∀ t : Fin grid4.N, Pipeline.Window.flushOf grid4 true cc4_transform_3 t = true ↔ t.val % 4 = 3)

variable (V : (c : Dev nD) → (b : Ref sig .tc) → Buf (Elt F) ((c : Thread nD τ).loc b))
variable (a : (pcfg4 (F := F)).Adm)

def iblk4 (c : Dev nD) (w : Fin (cfg4 a).W) (t : Fin (cfg4 a).N) : (((cfg4 a).win w).xblock ((cfg4 a).grid.coords t)).Idx → Elt F ((cfg4 a).win w).elt :=
  (((cfg4 a).win w).blk t).view.read (Elt F) (V c (Pipeline.arrRef spec4 w))

/-- What the output block holds after the body at point `n`: the step over what the point before left. -/
def outsAt4 (c : Dev nD) : (n : ℕ) → n < (cfg4 a).N → Vec F S1x2048x256 .f32
  | 0, hn => stepOf (iblk4 V a c 0 ⟨0, hn⟩) (iblk4 V a c 1 ⟨0, hn⟩) (iblk4 V a c 2 ⟨0, hn⟩) 0 k1_pay1
  | n + 1, hn => stepOf (iblk4 V a c 0 ⟨n + 1, hn⟩) (iblk4 V a c 1 ⟨n + 1, hn⟩) (iblk4 V a c 2 ⟨n + 1, hn⟩) (n + 1) (outsAt4 c n (Nat.lt_of_succ_lt hn))

theorem outsAt4_eq (c : Dev nD) (t : Fin (cfg4 a).N) :
    outsAt4 V a c t.val t.isLt = stepOf (iblk4 V a c 0 t) (iblk4 V a c 1 t) (iblk4 V a c 2 t) t.val (outsAt4 V a c (t.val - 1) (Nat.lt_of_le_of_lt (Nat.sub_le _ _) t.isLt)) := by
  obtain ⟨n, hn⟩ := t
  cases n with
  | zero => rfl
  | succ n => rfl

def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => iblk4 V a c 2 t
    | ⟨3, _⟩ => outsAt4 V a c t.val t.isLt
  Φ _ := iprop(Pipeline.ΦA spec4 c ∗ Pipeline.prefHeld (Ix := Unit) (Name := ℕ) (U := UR sig nD τ) (Lvl := ℕ) pre4 c (fun _ => fullShare) a.1)
  q _ := fullShare
  owed _ := 0

theorem A_eq4 (c : Dev nD) (w : Fin (cfg4 a).W) : (dat4 V a c).A w = V c (Pipeline.arrRef spec4 w) := by
  dsimp only [dat4]

theorem after4_0 (c : Dev nD) (t : Fin (cfg4 a).N) : (dat4 V a c).after (0 : Fin 4) t = iblk4 V a c 0 t := by dsimp only [dat4]; try rfl
theorem after4_1 (c : Dev nD) (t : Fin (cfg4 a).N) : (dat4 V a c).after (1 : Fin 4) t = iblk4 V a c 1 t := by dsimp only [dat4]; try rfl
theorem after4_2 (c : Dev nD) (t : Fin (cfg4 a).N) : (dat4 V a c).after (2 : Fin 4) t = iblk4 V a c 2 t := by dsimp only [dat4]; try rfl
theorem after4_3 (c : Dev nD) (t : Fin (cfg4 a).N) : (dat4 V a c).after (3 : Fin 4) t = outsAt4 V a c t.val t.isLt := by dsimp only [dat4]; try rfl

theorem before4_0 (c : Dev nD) (t : Fin (cfg4 a).N) (d) : (dat4 V a c).before (0 : Fin 4) t d = iblk4 V a c 0 t :=
  ((dat4 V a c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin (cfg4 a).N) (d) : (dat4 V a c).before (1 : Fin 4) t d = iblk4 V a c 1 t :=
  ((dat4 V a c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin (cfg4 a).N) (d) : (dat4 V a c).before (2 : Fin 4) t d = iblk4 V a c 2 t :=
  ((dat4 V a c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

theorem before4_3_kept (c : Dev nD) (t : Fin (cfg4 a).N) (h0 : ¬t.val % 4 = 0) (d) :
    (dat4 V a c).before (3 : Fin 4) t d = outsAt4 V a c (t.val - 1) (Nat.lt_of_le_of_lt (Nat.sub_le _ _) t.isLt) := by
  rw [Dat.before_out_kept _ (3 : Fin 4) rfl t (by omega) (Bool.eq_false_iff.mpr fun h => by have := (flush4_3 a _).mp h; dsimp only at this; omega)
    (fun _ => rfl) (fun _ _ => rfl)]
  exact after4_3 V a c _

theorem body_obligation4 (c : Dev nD) : BodyObligation (dat4 (F := F) V a c) (defs₀ (F := F)) Variants.none () Set.univ := fun t => by
  rw [bigSep_W4, bigSep_W4]
  dsimp only
  simp only [before4_0, before4_1, before4_2]
  rw [show (dat4 V a c).Φ t.succ = (dat4 V a c).Φ t.castSucc from rfl,
    show (dat4 V a c).owesAt () t.succ = (dat4 V a c).owesAt () t.castSucc from rfl,
    after4_0, after4_1, after4_2, after4_3, outsAt4_eq V a c t]
  iintro ⟨HΦ, Ho, ⟨%d0, H0⟩, ⟨%d1, H1⟩, ⟨%d2, H2⟩, H3⟩
  iapply (body_step c _ (hstage4_0 _) _ (hstage4_1 _) _ (hstage4_2 _) _ (hstage4_3 _) (iblk4 V a c 0 t) (iblk4 V a c 1 t) (iblk4 V a c 2 t) t ((dat4 V a c).before (3 : Fin 4) t) _
    (fun h0 d => before4_3_kept V a c t h0 d) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Kernel.Fr
end
-- ==== Proof.K.R5.lean ====
import proofs.«167552_j64123861729349_1_alg».proof.Proof.K.Body
set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

theorem flush5_3 (a : (pcfg5 (F := F)).Adm) : ∀ t : Fin (cfg5 a).N, ((cfg5 a).win 3).flush t = true ↔ t.val % 4 = 3 :=
  (by decide +kernel : ∀ t : Fin grid5.N, Pipeline.Window.flushOf grid5 true cc5_transform_3 t = true ↔ t.val % 4 = 3)

variable (V : (c : Dev nD) → (b : Ref sig .tc) → Buf (Elt F) ((c : Thread nD τ).loc b))
variable (a : (pcfg5 (F := F)).Adm)

def iblk5 (c : Dev nD) (w : Fin (cfg5 a).W) (t : Fin (cfg5 a).N) : (((cfg5 a).win w).xblock ((cfg5 a).grid.coords t)).Idx → Elt F ((cfg5 a).win w).elt :=
  (((cfg5 a).win w).blk t).view.read (Elt F) (V c (Pipeline.arrRef spec5 w))

/-- What the output block holds after the body at point `n`: the step over what the point before left. -/
def outsAt5 (c : Dev nD) : (n : ℕ) → n < (cfg5 a).N → Vec F S1x2048x256 .f32
  | 0, hn => stepOf (iblk5 V a c 0 ⟨0, hn⟩) (iblk5 V a c 1 ⟨0, hn⟩) (iblk5 V a c 2 ⟨0, hn⟩) 0 k1_pay1
  | n + 1, hn => stepOf (iblk5 V a c 0 ⟨n + 1, hn⟩) (iblk5 V a c 1 ⟨n + 1, hn⟩) (iblk5 V a c 2 ⟨n + 1, hn⟩) (n + 1) (outsAt5 c n (Nat.lt_of_succ_lt hn))

theorem outsAt5_eq (c : Dev nD) (t : Fin (cfg5 a).N) :
    outsAt5 V a c t.val t.isLt = stepOf (iblk5 V a c 0 t) (iblk5 V a c 1 t) (iblk5 V a c 2 t) t.val (outsAt5 V a c (t.val - 1) (Nat.lt_of_le_of_lt (Nat.sub_le _ _) t.isLt)) := by
  obtain ⟨n, hn⟩ := t
  cases n with
  | zero => rfl
  | succ n => rfl

def dat5 (c : Dev nD) : Dat τ (Elt F) Unit ℕ (UR sig nD τ) ℕ (cfg5 a) c where
  A w := V c (Pipeline.arrRef spec5 w)
  after w t := match w with
    | ⟨0, _⟩ => iblk5 V a c 0 t
    | ⟨1, _⟩ => iblk5 V a c 1 t
    | ⟨2, _⟩ => iblk5 V a c 2 t
    | ⟨3, _⟩ => outsAt5 V a c t.val t.isLt
  Φ _ := iprop(Pipeline.ΦA spec5 c ∗ Pipeline.prefHeld (Ix := Unit) (Name := ℕ) (U := UR sig nD τ) (Lvl := ℕ) pre5 c (fun _ => fullShare) a.1)
  q _ := fullShare
  owed _ := 0

theorem A_eq5 (c : Dev nD) (w : Fin (cfg5 a).W) : (dat5 V a c).A w = V c (Pipeline.arrRef spec5 w) := by
  dsimp only [dat5]

theorem after5_0 (c : Dev nD) (t : Fin (cfg5 a).N) : (dat5 V a c).after (0 : Fin 4) t = iblk5 V a c 0 t := by dsimp only [dat5]; try rfl
theorem after5_1 (c : Dev nD) (t : Fin (cfg5 a).N) : (dat5 V a c).after (1 : Fin 4) t = iblk5 V a c 1 t := by dsimp only [dat5]; try rfl
theorem after5_2 (c : Dev nD) (t : Fin (cfg5 a).N) : (dat5 V a c).after (2 : Fin 4) t = iblk5 V a c 2 t := by dsimp only [dat5]; try rfl
theorem after5_3 (c : Dev nD) (t : Fin (cfg5 a).N) : (dat5 V a c).after (3 : Fin 4) t = outsAt5 V a c t.val t.isLt := by dsimp only [dat5]; try rfl

theorem before5_0 (c : Dev nD) (t : Fin (cfg5 a).N) (d) : (dat5 V a c).before (0 : Fin 4) t d = iblk5 V a c 0 t :=
  ((dat5 V a c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin (cfg5 a).N) (d) : (dat5 V a c).before (1 : Fin 4) t d = iblk5 V a c 1 t :=
  ((dat5 V a c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin (cfg5 a).N) (d) : (dat5 V a c).before (2 : Fin 4) t d = iblk5 V a c 2 t :=
  ((dat5 V a c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)

theorem before5_3_kept (c : Dev nD) (t : Fin (cfg5 a).N) (h0 : ¬t.val % 4 = 0) (d) :
    (dat5 V a c).before (3 : Fin 4) t d = outsAt5 V a c (t.val - 1) (Nat.lt_of_le_of_lt (Nat.sub_le _ _) t.isLt) := by
  rw [Dat.before_out_kept _ (3 : Fin 4) rfl t (by omega) (Bool.eq_false_iff.mpr fun h => by have := (flush5_3 a _).mp h; dsimp only at this; omega)
    (fun _ => rfl) (fun _ _ => rfl)]
  exact after5_3 V a c _

theorem body_obligation5 (c : Dev nD) : BodyObligation (dat5 (F := F) V a c) (defs₀ (F := F)) Variants.none () Set.univ := fun t => by
  rw [bigSep_W5, bigSep_W5]
  dsimp only
  simp only [before5_0, before5_1, before5_2]
  rw [show (dat5 V a c).Φ t.succ = (dat5 V a c).Φ t.castSucc from rfl,
    show (dat5 V a c).owesAt () t.succ = (dat5 V a c).owesAt () t.castSucc from rfl,
    after5_0, after5_1, after5_2, after5_3, outsAt5_eq V a c t]
  iintro ⟨HΦ, Ho, ⟨%d0, H0⟩, ⟨%d1, H1⟩, ⟨%d2, H2⟩, H3⟩
  iapply (body_step c _ (hstage5_0 _) _ (hstage5_1 _) _ (hstage5_2 _) _ (hstage5_3 _) (iblk5 V a c 0 t) (iblk5 V a c 1 t) (iblk5 V a c 2 t) t ((dat5 V a c).before (3 : Fin 4) t) _
    (fun h0 d => before5_3_kept V a c t h0 d) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Kernel.Fr
end
-- ==== Proof.K.Tbl.lean ====
import proofs.«167552_j64123861729349_1_alg».proof.Proof.Gen.Kernel.Regions
import Idealize.ShloMosaic.Lib.StableHlo.Run
set_option maxRecDepth 16384
noncomputable section

namespace Cert.Kernel.Fr
open Idealize.ShloMosaic Idealize.ShloMosaic.TcCoe
open Idealize.ShloMosaic.StableHlo
open Cert.Kernel Cert.Kernel.Gen
variable {F : FTy → Type} [FloatOps F]
variable (m : (ℓ : Loc nD τ sig) → Buf (Elt F) ℓ)

theorem V8_main_c_1 (c : Dev nD) : V8 m c main_c_1 = fun idx => lit2 (S16x4.rowMajor idx) := by
  rw [V8_of m c main_c_1 (by decide), V7_of m c main_c_1 (by decide), V6_of m c main_c_1 (by decide),
    V5_of m c main_c_1 (by decide), V4_of m c main_c_1 (by decide), V3_of m c main_c_1 (by decide),
    V2_of m c main_c_1 (by decide)]
  show after hostOps0 (V0 m c) main_c_1 = _
  after_results
  rfl

theorem V8_main_arg0 (c : Dev nD) : V8 m c main_arg0 = m ((c : Thread nD τ).loc main_arg0) := by
  rw [V8_of m c main_arg0 (by decide), V7_of m c main_arg0 (by decide), V6_of m c main_arg0 (by decide),
    V5_of m c main_arg0 (by decide), V4_of m c main_arg0 (by decide), V3_of m c main_arg0 (by decide),
    V2_of m c main_arg0 (by decide), V1_of m c main_arg0 (by decide)]

end Cert.Kernel.Fr

end
-- ==== Proof.K.Segs.lean ====
import proofs.«167552_j64123861729349_1_alg».proof.Proof.Gen.Kernel.Launch
import proofs.«167552_j64123861729349_1_alg».proof.Proof.Gen.Kernel.Skeleton
import proofs.«167552_j64123861729349_1_alg».proof.Proof.Gen.Kernel.Points
import proofs.«167552_j64123861729349_1_alg».proof.Proof.Gen.Kernel.Regions
import proofs.«167552_j64123861729349_1_alg».proof.Proof.K.R0
import proofs.«167552_j64123861729349_1_alg».proof.Proof.K.R1
import proofs.«167552_j64123861729349_1_alg».proof.Proof.K.R2
import proofs.«167552_j64123861729349_1_alg».proof.Proof.K.R3
import proofs.«167552_j64123861729349_1_alg».proof.Proof.K.R4
import proofs.«167552_j64123861729349_1_alg».proof.Proof.K.R5
import proofs.«167552_j64123861729349_1_alg».proof.Proof.K.Tbl
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ

def tblC : pre1.Contents (Elt F) := fun | ⟨0, _⟩ => fun idx => lit2 (S16x4.rowMajor idx)

theorem lit2_lt : ∀ j : Fin 64, (lit2 j).toNat < 16 := by decide
theorem lit2_blk (j : Fin 64) : ((lit2 j).toNat + 1) * 1 ≤ 16 := by have := lit2_lt j; omega

/-- Each table word is below 16, so a one-column block starting there fits the 16 columns; `ok2` … `ok5` are this same proposition. -/
theorem ok_tblC : ok1 (F := F) tblC := by
  unfold ok1
  intro i
  have r1 : (i 1).val < 4 := (i 1).isLt
  refine ⟨fun a => ?_, .inl rfl⟩
  match a with
  | ⟨0, _⟩ =>
    show ((lit2 _).toNat + 1) * 1 ≤ 16
    exact lit2_blk _
  | ⟨1, _⟩ =>
    show ((BitVec.ofNat 32 (i 1).val).toNat + 1) * 2048 ≤ 8192
    rw [BitVec.toNat_ofNat]
    have := Nat.mod_le (i 1).val (2 ^ 32)
    omega
  | ⟨2, _⟩ => show ((0#32).toNat + 1) * 256 ≤ 256; decide

def adm : (p : Fin 6) → (pcfgs (F := F) p).Adm
  | ⟨0, _⟩ => cfg0.toPCfg_adm
  | ⟨1, _⟩ => ⟨tblC, ok_tblC⟩
  | ⟨2, _⟩ => ⟨tblC, ok_tblC⟩
  | ⟨3, _⟩ => ⟨tblC, ok_tblC⟩
  | ⟨4, _⟩ => ⟨tblC, ok_tblC⟩
  | ⟨5, _⟩ => ⟨tblC, ok_tblC⟩
abbrev adm1 : (pcfg1 (F := F)).Adm := ⟨tblC, ok_tblC⟩
abbrev adm2 : (pcfg2 (F := F)).Adm := ⟨tblC, ok_tblC⟩
abbrev adm3 : (pcfg3 (F := F)).Adm := ⟨tblC, ok_tblC⟩
abbrev adm4 : (pcfg4 (F := F)).Adm := ⟨tblC, ok_tblC⟩
abbrev adm5 : (pcfg5 (F := F)).Adm := ⟨tblC, ok_tblC⟩

variable (m : (ℓ : Loc nD τ sig) → Buf (Elt F) ℓ) (ρ : Dev nD → PrngReg)

/-! Region `k` is entered at `Ve k` and left at `W (k+9)`: the entry valuation updated at the region's output array. -/

abbrev Ve0 : (c : Dev nD) → (b : Ref sig .tc) → Buf (Elt F) ((c : Thread nD τ).loc b) := fun c b => V8 m c b
def W9 (c : Dev nD) : Valuation τ sig (Elt F) :=
  Function.update (V8 m c) main_v13 ((dat0 (Ve0 m) c).arrAt 3 cfg0.N)
abbrev Ve1 : (c : Dev nD) → (b : Ref sig .tc) → Buf (Elt F) ((c : Thread nD τ).loc b) := fun c b => W9 m c b
def W10 (c : Dev nD) : Valuation τ sig (Elt F) :=
  Function.update (W9 m c) main_v14 ((dat1 (Ve1 m) adm1 c).arrAt 3 (cfg1 (adm1 (F := F))).N)
abbrev Ve2 : (c : Dev nD) → (b : Ref sig .tc) → Buf (Elt F) ((c : Thread nD τ).loc b) := fun c b => W10 m c b
def W11 (c : Dev nD) : Valuation τ sig (Elt F) :=
  Function.update (W10 m c) main_v15 ((dat2 (Ve2 m) adm2 c).arrAt 3 (cfg2 (adm2 (F := F))).N)
abbrev Ve3 : (c : Dev nD) → (b : Ref sig .tc) → Buf (Elt F) ((c : Thread nD τ).loc b) := fun c b => W11 m c b
def W12 (c : Dev nD) : Valuation τ sig (Elt F) :=
  Function.update (W11 m c) main_v16 ((dat3 (Ve3 m) adm3 c).arrAt 3 (cfg3 (adm3 (F := F))).N)
abbrev Ve4 : (c : Dev nD) → (b : Ref sig .tc) → Buf (Elt F) ((c : Thread nD τ).loc b) := fun c b => W12 m c b
def W13 (c : Dev nD) : Valuation τ sig (Elt F) :=
  Function.update (W12 m c) main_v17 ((dat4 (Ve4 m) adm4 c).arrAt 3 (cfg4 (adm4 (F := F))).N)
abbrev Ve5 : (c : Dev nD) → (b : Ref sig .tc) → Buf (Elt F) ((c : Thread nD τ).loc b) := fun c b => W13 m c b
def W14 (c : Dev nD) : Valuation τ sig (Elt F) :=
  Function.update (W13 m c) main_v18 ((dat5 (Ve5 m) adm5 c).arrAt 3 (cfg5 (adm5 (F := F))).N)

def outs : Outs (F := F) := fun _ r c => W14 m c r

/-- An update at one array leaves every other array as it was. -/
theorem W_of {V : Valuation τ sig (Elt F)} {r₀ r : Ref sig .tc} {x} (h : r ≠ r₀) : Function.update V r₀ x r = V r :=
  Function.update_of_ne (StableHlo.devRef_ne_of_ne h) _ _

theorem outs_9 (c : Dev nD) : outs m 9 main_v13 c = (dat0 (Ve0 m) c).arrAt 3 cfg0.N :=
  show W14 m c main_v13 = _ from (W_of (by decide)).trans <| (W_of (by decide)).trans <| (W_of (by decide)).trans <| (W_of (by decide)).trans <| (W_of (by decide)).trans <| Function.update_self ..
theorem outs_10 (c : Dev nD) : outs m 10 main_v14 c = (dat1 (Ve1 m) adm1 c).arrAt 3 (cfg1 (adm1 (F := F))).N :=
  show W14 m c main_v14 = _ from (W_of (by decide)).trans <| (W_of (by decide)).trans <| (W_of (by decide)).trans <| (W_of (by decide)).trans <| Function.update_self ..
theorem outs_11 (c : Dev nD) : outs m 11 main_v15 c = (dat2 (Ve2 m) adm2 c).arrAt 3 (cfg2 (adm2 (F := F))).N :=
  show W14 m c main_v15 = _ from (W_of (by decide)).trans <| (W_of (by decide)).trans <| (W_of (by decide)).trans <| Function.update_self ..
theorem outs_12 (c : Dev nD) : outs m 12 main_v16 c = (dat3 (Ve3 m) adm3 c).arrAt 3 (cfg3 (adm3 (F := F))).N :=
  show W14 m c main_v16 = _ from (W_of (by decide)).trans <| (W_of (by decide)).trans <| Function.update_self ..
theorem outs_13 (c : Dev nD) : outs m 13 main_v17 c = (dat4 (Ve4 m) adm4 c).arrAt 3 (cfg4 (adm4 (F := F))).N :=
  show W14 m c main_v17 = _ from (W_of (by decide)).trans <| Function.update_self ..
theorem outs_14 (c : Dev nD) : outs m 14 main_v18 c = (dat5 (Ve5 m) adm5 c).arrAt 3 (cfg5 (adm5 (F := F))).N :=
  show W14 m c main_v18 = _ from Function.update_self ..

theorem V9_eq (c : Dev nD) : V9 m (outs m) c = W9 m c := by
  show Function.update (V8 m c) _ (outs m 9 main_v13 c) = _
  rw [outs_9]; rfl
theorem V10_eq (c : Dev nD) : V10 m (outs m) c = W10 m c := by
  show Function.update (V9 m (outs m) c) _ (outs m 10 main_v14 c) = _
  rw [V9_eq, outs_10]; rfl
theorem V11_eq (c : Dev nD) : V11 m (outs m) c = W11 m c := by
  show Function.update (V10 m (outs m) c) _ (outs m 11 main_v15 c) = _
  rw [V10_eq, outs_11]; rfl
theorem V12_eq (c : Dev nD) : V12 m (outs m) c = W12 m c := by
  show Function.update (V11 m (outs m) c) _ (outs m 12 main_v16 c) = _
  rw [V11_eq, outs_12]; rfl
theorem V13_eq (c : Dev nD) : V13 m (outs m) c = W13 m c := by
  show Function.update (V12 m (outs m) c) _ (outs m 13 main_v17 c) = _
  rw [V12_eq, outs_13]; rfl
theorem V14_eq (c : Dev nD) : V14 m (outs m) c = W14 m c := by
  show Function.update (V13 m (outs m) c) _ (outs m 14 main_v18 c) = _
  rw [V13_eq, outs_14]; rfl

theorem Ve0_arg0 (c : Dev nD) : Ve0 m c main_arg0 = m ((c : Thread nD τ).loc main_arg0) := V8_main_arg0 m c
theorem Ve0_v10 (c : Dev nD) : Ve0 m c main_v10 = V8 m c main_v10 := rfl
theorem Ve0_v12 (c : Dev nD) : Ve0 m c main_v12 = V8 m c main_v12 := rfl
theorem Ve1_in (c : Dev nD) : Ve1 m c main_v13 = (dat0 (Ve0 m) c).arrAt 3 cfg0.N := Function.update_self ..
theorem Ve1_v6 (c : Dev nD) : Ve1 m c main_v6 = V8 m c main_v6 := W_of (by decide)
theorem Ve1_v9 (c : Dev nD) : Ve1 m c main_v9 = V8 m c main_v9 := W_of (by decide)
theorem Ve1_tbl (c : Dev nD) : Ve1 m c main_c_1 = fun idx => lit2 (S16x4.rowMajor idx) := (W_of (by decide)).trans (V8_main_c_1 m c)
theorem Ve2_in (c : Dev nD) : Ve2 m c main_v14 = (dat1 (Ve1 m) adm1 c).arrAt 3 (cfg1 (adm1 (F := F))).N := Function.update_self ..
theorem Ve2_v6 (c : Dev nD) : Ve2 m c main_v6 = V8 m c main_v6 := (W_of (by decide)).trans (Ve1_v6 m c)
theorem Ve2_v9 (c : Dev nD) : Ve2 m c main_v9 = V8 m c main_v9 := (W_of (by decide)).trans (Ve1_v9 m c)
theorem Ve2_tbl (c : Dev nD) : Ve2 m c main_c_1 = fun idx => lit2 (S16x4.rowMajor idx) := (W_of (by decide)).trans (Ve1_tbl m c)
theorem Ve3_in (c : Dev nD) : Ve3 m c main_v15 = (dat2 (Ve2 m) adm2 c).arrAt 3 (cfg2 (adm2 (F := F))).N := Function.update_self ..
theorem Ve3_v6 (c : Dev nD) : Ve3 m c main_v6 = V8 m c main_v6 := (W_of (by decide)).trans (Ve2_v6 m c)
theorem Ve3_v9 (c : Dev nD) : Ve3 m c main_v9 = V8 m c main_v9 := (W_of (by decide)).trans (Ve2_v9 m c)
theorem Ve3_tbl (c : Dev nD) : Ve3 m c main_c_1 = fun idx => lit2 (S16x4.rowMajor idx) := (W_of (by decide)).trans (Ve2_tbl m c)
theorem Ve4_in (c : Dev nD) : Ve4 m c main_v16 = (dat3 (Ve3 m) adm3 c).arrAt 3 (cfg3 (adm3 (F := F))).N := Function.update_self ..
theorem Ve4_v6 (c : Dev nD) : Ve4 m c main_v6 = V8 m c main_v6 := (W_of (by decide)).trans (Ve3_v6 m c)
theorem Ve4_v9 (c : Dev nD) : Ve4 m c main_v9 = V8 m c main_v9 := (W_of (by decide)).trans (Ve3_v9 m c)
theorem Ve4_tbl (c : Dev nD) : Ve4 m c main_c_1 = fun idx => lit2 (S16x4.rowMajor idx) := (W_of (by decide)).trans (Ve3_tbl m c)
theorem Ve5_in (c : Dev nD) : Ve5 m c main_v17 = (dat4 (Ve4 m) adm4 c).arrAt 3 (cfg4 (adm4 (F := F))).N := Function.update_self ..
theorem Ve5_v6 (c : Dev nD) : Ve5 m c main_v6 = V8 m c main_v6 := (W_of (by decide)).trans (Ve4_v6 m c)
theorem Ve5_v9 (c : Dev nD) : Ve5 m c main_v9 = V8 m c main_v9 := (W_of (by decide)).trans (Ve4_v9 m c)
theorem Ve5_tbl (c : Dev nD) : Ve5 m c main_c_1 = fun idx => lit2 (S16x4.rowMajor idx) := (W_of (by decide)).trans (Ve4_tbl m c)

theorem W14_main_v18 (c : Dev nD) : W14 m c main_v18 = (dat5 (Ve5 m) adm5 c).arrAt 3 (cfg5 (adm5 (F := F))).N := Function.update_self ..
theorem W14_main_arg0 (c : Dev nD) : W14 m c main_arg0 = m ((c : Thread nD τ).loc main_arg0) :=
  (congrFun (V14_eq m c) _).symm.trans (V14_main_arg0 m (outs m) c)
theorem W14_main_arg1 (c : Dev nD) : W14 m c main_arg1 = m ((c : Thread nD τ).loc main_arg1) :=
  (congrFun (V14_eq m c) _).symm.trans (V14_main_arg1 m (outs m) c)
theorem W14_main_arg2 (c : Dev nD) : W14 m c main_arg2 = m ((c : Thread nD τ).loc main_arg2) :=
  (congrFun (V14_eq m c) _).symm.trans (V14_main_arg2 m (outs m) c)

/-- The six regions' proof data, region `k` at `Ve k`. -/
def pdats : (p : Fin 6) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) adm1 c
  | ⟨2, _⟩ => fun c => dat2 (Ve2 m) adm2 c
  | ⟨3, _⟩ => fun c => dat3 (Ve3 m) adm3 c
  | ⟨4, _⟩ => fun c => dat4 (Ve4 m) adm4 c
  | ⟨5, _⟩ => fun c => dat5 (Ve5 m) adm5 c
abbrev 𝒱₀ : Variants := Variants.none
abbrev L : GSem nD τ sig → Finset Unit := fun _ => ∅
abbrev lv : GSem nD τ sig → Unit → ℕ := fun _ _ => 0
/-- The part of the thread state no region changes. -/
abbrev R (c : Dev nD) : sProp 𝕄 := iprop((∃ r, prngReg c r) ∗ ∃ W, owes (c : Thread nD τ) (0 : CellTallies nD τ sig Unit) W)

section Region
variable (p : Fin 6) (lf : Pipeline.PLaunchFacts (nD := nD) (τ := τ) (pcfgs (F := F)) p)
  (Vi Vo : Dev nD → Valuation τ sig (Elt F))
  (htbl : ∀ c k, Vi c ((pcfgs (F := F) p).pre.ref k) = (adm (F := F) p).1 k)

include lf htbl in
/-- Among the buffers that are no array of region `p`, its tables hold their admitted words (`htbl`); split them off. -/
theorem restSplit (c : Dev nD) :
    (Pipeline.unscopedRest (Ix := Unit) (Name := ℕ) (U := UR sig nD τ) (Lvl := ℕ) (Pipeline.pin (pcfgs (F := F)) adm p).spec c (fun b => Vi c b) : sProp 𝕄)
      = iprop(Pipeline.prefHeld (Ix := Unit) (Name := ℕ) (U := UR sig nD τ) (Lvl := ℕ) (pcfgs (F := F) p).pre c (fun _ => fullShare) (adm p).1
          ∗ Pipeline.unscopedRestP (Ix := Unit) (Name := ℕ) (U := UR sig nD τ) (Lvl := ℕ) (pcfgs (F := F) p).pre (Pipeline.pin (pcfgs (F := F)) adm p).spec c (fun b => Vi c b)) := by
  rw [← funext (htbl c)]; exact Pipeline.unscopedRest_split lf.pre c _

variable (w₀ : Fin (Pipeline.pin (pcfgs (F := F)) adm p).W)
  (hw : ∀ w, w ≠ w₀ → ((Pipeline.pin (pcfgs (F := F)) adm p).win w).isOut = false)
  (hA : ∀ c w, (pdats m p c).A w = Vi c (Pipeline.arrRef (Pipeline.pin (pcfgs (F := F)) adm p).spec w))
  (hVo : ∀ c, Vo c = Function.update (Vi c) (Pipeline.arrRef (Pipeline.pin (pcfgs (F := F)) adm p).spec w₀) ((pdats m p c).arrAt w₀ (Pipeline.pin (pcfgs (F := F)) adm p).N))

include lf hw hA hVo in
/-- By cases on `w = w₀`: `Vo` at the updated array, or at an array the update leaves alone (the arrays are distinct). -/
theorem hFOf (c : Dev nD) (w : Fin (Pipeline.pin (pcfgs (F := F)) adm p).W) :
    (pdats m p c).arrAt w (Pipeline.pin (pcfgs (F := F)) adm p).N = Vo c (Pipeline.arrRef (Pipeline.pin (pcfgs (F := F)) adm p).spec w) := by
  rw [hVo c]
  by_cases h : w = w₀
  · subst h; rw [Function.update_self]
  · rw [Function.update_of_ne (StableHlo.devRef_ne_of_ne fun e => h (lf.win.arr_inj e))]
    exact ((pdats m p c).arrAt_in w (hw w h) _).trans (hA c w)

include hVo in
theorem hrestOf (c : Dev nD) (b : Ref sig .tc) (hb : b ∉ Finset.univ.image (Pipeline.arrRef (Pipeline.pin (pcfgs (F := F)) adm p).spec)) : Vo c b = Vi c b := by
  rw [hVo c]
  exact Function.update_of_ne (StableHlo.devRef_ne_of_ne fun e => hb (Finset.mem_image.mpr ⟨w₀, Finset.mem_univ _, e.symm⟩)) _ _

variable
  (hbody : ∀ c, BodyObligation (pdats m p c) (defs₀ (F := F)) Variants.none () Set.univ)
  (hq : ∀ c w, (pdats m p c).q w = fullShare)
  (howed : ∀ c t, (pdats m p c).owed t = 0)
  (hrec : ∀ c t, (pdats m p c).recorded t = Set.univ)
  (hΦ : ∀ c t, (pdats m p c).Φ t ⊣⊢ iprop(Pipeline.ΦA (Pipeline.pin (pcfgs (F := F)) adm p).spec c
    ∗ Pipeline.prefHeld (Ix := Unit) (Name := ℕ) (U := UR sig nD τ) (Lvl := ℕ) (pcfgs (F := F) p).pre c (fun _ => fullShare) (adm p).1))

/-- Region `p` as a step from the valuation `Vi` to `Vo`: its arrays and tables are split out of `Vi` and put back at `Vo`. -/
def regOf : Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop((∃ r, prngReg c r) ∗ Pipeline.prefHeld (Ix := Unit) (Name := ℕ) (U := UR sig nD τ) (Lvl := ℕ) (pcfgs (F := F) p).pre c (fun _ => fullShare) (adm p).1)
  Z c := Pipeline.unscopedRestP (Ix := Unit) (Name := ℕ) (U := UR sig nD τ) (Lvl := ℕ) (pcfgs (F := F) p).pre (Pipeline.pin (pcfgs (F := F)) adm p).spec c (fun b => Vi c b)
  hentry c := by
    rw [Pipeline.ownSems0_none]
    have hsplit := Pipeline.arrays_of_unscopedBufs (p := p) (pcfgs (F := F)) adm (pdats m) lf.win lf.arr_whole c
      ((pdats m p c).share_full (hq c)) (fun b => Vi c b) (hA c)
    rw [Pipeline.unscopedBufs_held, restSplit p lf Vi htbl c] at hsplit
    iintro ⟨⟨Hub, Hp, HO⟩, -, -⟩
    ihave H := hsplit $$ Hub
    icases H with ⟨Ha, Htb, Hrest⟩
    imodintro
    isplitl [Ha]; · iexact Ha
    isplitl [Htb]; · iexact Htb
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    refine .trans ?_ (hΦ c 0).mpr
    unfold Pipeline.ΦA
    iintro ⟨Hp, Htb, Hr⟩
    isplitl [Hr Hp]
    · isplitl [Hr]; · iexact Hr
      iexact Hp
    iexact Htb
  hout c := by
    rw [Pipeline.ownSems0_none]
    refine (hΦ c _).mp.trans ?_
    unfold Pipeline.ΦA
    iintro ⟨⟨Hr, Hp⟩, Htb⟩
    isplitl [Hp Htb]
    · isplitl [Hp]; · iexact Hp
      iexact Htb
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vi c b) (fun b => Vo c b) ((pdats m p c).arrAt · (Pipeline.pin (pcfgs (F := F)) adm p).N) (hFOf m p lf Vi Vo w₀ hw hA hVo c) (hrestOf m p Vi Vo w₀ hVo c)
    rw [Pipeline.unscopedBufs_held, restSplit p lf Vi htbl c] at hjoin
    iintro ⟨Ha, HO, ⟨Hp, Htb⟩, Hrest⟩
    imodintro
    isplitl [Ha Hrest Htb]
    · iapply hjoin
      isplitl [Ha]; · iexact Ha
      isplitl [Htb]; · iexact Htb
      iexact Hrest
    isplitl [Hp]; · iexact Hp
    unfold Pipeline.Dat.owesAt Pipeline.owesWithin
    rw [howed c]
    icases HO with ⟨%W, -, HO⟩; iexists W; iexact HO
end Region

/-! The six regions: region 0 has no table, so its invariant is the general one with an empty table part. -/

set_option backward.isDefEq.respectTransparency.types false in
def reg0 : Pipeline.RegionSeg (pcfgs (F := F)) adm (pdats m) () defs₀ 𝒱₀ L lv 0 :=
  regOf m 0 launch0 (V8 m) (W9 m) (fun _ k => k.elim0) 3 (show ∀ w : Fin 4, w ≠ 3 → (spec0 w).isOut = false by decide)
    (fun _ _ => rfl) (fun _ => rfl) (fun c => body_obligation0 (Ve0 m) c) (fun _ _ => rfl) (fun _ _ => rfl) (fun _ _ => rfl) (fun c _ => by unfold Pipeline.prefHeld; rw [show (Finset.univ : Finset (Fin 0)) = ∅ from rfl, BI.bigSep_empty]; exact sep_emp.symm)

set_option backward.isDefEq.respectTransparency.types false in
def reg1 : Pipeline.RegionSeg (pcfgs (F := F)) adm (pdats m) () defs₀ 𝒱₀ L lv 1 :=
  regOf m 1 launch1 (W9 m) (W10 m) (fun c => fun | ⟨0, _⟩ => Ve1_tbl m c) 3 (show ∀ w : Fin 4, w ≠ 3 → (spec1 w).isOut = false by decide)
    (fun _ _ => rfl) (fun _ => rfl) (fun c => body_obligation1 (Ve1 m) adm1 c) (fun _ _ => rfl) (fun _ _ => rfl) (fun _ _ => rfl) (fun _ _ => ⟨.rfl, .rfl⟩)

set_option backward.isDefEq.respectTransparency.types false in
def reg2 : Pipeline.RegionSeg (pcfgs (F := F)) adm (pdats m) () defs₀ 𝒱₀ L lv 2 :=
  regOf m 2 launch2 (W10 m) (W11 m) (fun c => fun | ⟨0, _⟩ => Ve2_tbl m c) 3 (show ∀ w : Fin 4, w ≠ 3 → (spec2 w).isOut = false by decide)
    (fun _ _ => rfl) (fun _ => rfl) (fun c => body_obligation2 (Ve2 m) adm2 c) (fun _ _ => rfl) (fun _ _ => rfl) (fun _ _ => rfl) (fun _ _ => ⟨.rfl, .rfl⟩)

set_option backward.isDefEq.respectTransparency.types false in
def reg3 : Pipeline.RegionSeg (pcfgs (F := F)) adm (pdats m) () defs₀ 𝒱₀ L lv 3 :=
  regOf m 3 launch3 (W11 m) (W12 m) (fun c => fun | ⟨0, _⟩ => Ve3_tbl m c) 3 (show ∀ w : Fin 4, w ≠ 3 → (spec3 w).isOut = false by decide)
    (fun _ _ => rfl) (fun _ => rfl) (fun c => body_obligation3 (Ve3 m) adm3 c) (fun _ _ => rfl) (fun _ _ => rfl) (fun _ _ => rfl) (fun _ _ => ⟨.rfl, .rfl⟩)

set_option backward.isDefEq.respectTransparency.types false in
def reg4 : Pipeline.RegionSeg (pcfgs (F := F)) adm (pdats m) () defs₀ 𝒱₀ L lv 4 :=
  regOf m 4 launch4 (W12 m) (W13 m) (fun c => fun | ⟨0, _⟩ => Ve4_tbl m c) 3 (show ∀ w : Fin 4, w ≠ 3 → (spec4 w).isOut = false by decide)
    (fun _ _ => rfl) (fun _ => rfl) (fun c => body_obligation4 (Ve4 m) adm4 c) (fun _ _ => rfl) (fun _ _ => rfl) (fun _ _ => rfl) (fun _ _ => ⟨.rfl, .rfl⟩)

set_option backward.isDefEq.respectTransparency.types false in
def reg5 : Pipeline.RegionSeg (pcfgs (F := F)) adm (pdats m) () defs₀ 𝒱₀ L lv 5 :=
  regOf m 5 launch5 (W13 m) (W14 m) (fun c => fun | ⟨0, _⟩ => Ve5_tbl m c) 3 (show ∀ w : Fin 4, w ≠ 3 → (spec5 w).isOut = false by decide)
    (fun _ _ => rfl) (fun _ => rfl) (fun c => body_obligation5 (Ve5 m) adm5 c) (fun _ _ => rfl) (fun _ _ => rfl) (fun _ _ => rfl) (fun _ _ => ⟨.rfl, .rfl⟩)

abbrev u₀ : UR sig nD τ := (initOf (Pipeline.cells (Pipeline.pin (pcfgs (F := F)) adm) (cellOf_inj adm)) (Pipeline.launchToks (Pipeline.pin (pcfgs (F := F)) adm) (cellOf_inj adm)))

/-- Every fair run of @main terminates with the three arguments unchanged: the conditional frame at the six region records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m (EP := emb₁) (ι := ()) (𝒱₀ := 𝒱₀) (L := L) (lv := lv) (hL := fun _ _ => rfl) (ρ := ρ) (outs := outs m) (a := adm) (pdats := pdats m)
    (O₀ := 0) (G := fun _ => iprop(emp)) (u₀ := u₀)
    (hu₀ := by
      iintro Hu; imodintro
      isplitl [Hu]
      · iapply (show (ownU (u₀ (F := F)) : sProp 𝕄) ⊢ BI.own (emb₁ (u₀ (F := F))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE6 := fun c => by iintro ⟨-, HO⟩; iexact HO)
    (R0 := reg0 m) (hpre0 := fun c => by exact .rfl) (hpost0 := fun c => by rw [V9_eq m c]; exact .rfl)
    (R1 := reg1 m) (hpre1 := fun c => by rw [V9_eq m c]; exact .rfl) (hpost1 := fun c => by rw [V10_eq m c]; exact .rfl)
    (R2 := reg2 m) (hpre2 := fun c => by rw [V10_eq m c]; exact .rfl) (hpost2 := fun c => by rw [V11_eq m c]; exact .rfl)
    (R3 := reg3 m) (hpre3 := fun c => by rw [V11_eq m c]; exact .rfl) (hpost3 := fun c => by rw [V12_eq m c]; exact .rfl)
    (R4 := reg4 m) (hpre4 := fun c => by rw [V12_eq m c]; exact .rfl) (hpost4 := fun c => by rw [V13_eq m c]; exact .rfl)
    (R5 := reg5 m) (hpre5 := fun c => by rw [V13_eq m c]; exact .rfl) (hpost5 := fun c => by rw [V14_eq m c]; exact .rfl)

/-- info: 'Cert.Kernel.Fr.frame' depends on axioms: [propext, Classical.choice, Quot.sound] -/
#guard_msgs in #print axioms frame

end Cert.Kernel.Fr
end
-- ==== Proof.KI.R0.lean ====
import proofs.«167552_j64123861729349_1_alg».proof.Proof.Gen.KernelIdeal.Launch
import proofs.«167552_j64123861729349_1_alg».proof.Proof.Gen.KernelIdeal.Skeleton
import proofs.«167552_j64123861729349_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_in0 : Rect S2048x256 := Rect.unit (s := S2048x256) ![0, 0] S2048x256.size inb_S2048x256_S2048x256_0_0
abbrev r0_in1 : Rect S1x256x256 := Rect.unit (s := S1x256x256) ![0, 0, 0] S1x256x256.size inb_S1x256x256_S1x256x256_0_0_0
abbrev r0_in2 : Rect S1x1x256 := Rect.unit (s := S1x1x256) ![0, 0, 0] S1x1x256.size inb_S1x1x256_S1x1x256_0_0_0
abbrev r0_out : Rect S1x2048x256 := Rect.unit (s := S1x2048x256) ![0, 0, 0] S1x2048x256.size inb_S1x2048x256_S1x2048x256_0_0_0

theorem hz2 : (![0, 0] : Fin 2 → ℕ) = fun _ => 0 := by funext a; fin_cases a <;> rfl
theorem hz3 : (![0, 0, 0] : Fin 3 → ℕ) = fun _ => 0 := by funext a; fin_cases a <;> rfl

def out0_3 (x0 : Vec F S2048x256 .f32) (x1 : Vec F S1x256x256 .f32) (x2 : Vec F S1x1x256 .f32) : Vec F S1x2048x256 .f32 :=
  View.canon [⟨r0_out, k0_pay1 (View.ld x0 r0_in0) (View.ld x1 r0_in1) (View.ld x2 r0_in2)⟩]

theorem cover0_3 (p0 : Vec F S1x2048x256 .f32) (y : S1x2048x256.Idx) :
    ∃ pc ∈ ([⟨r0_out, p0⟩] : List (View.Piece (Elt F) S1x2048x256 .f32)), y ∈ pc.1.set :=
  ⟨_, List.mem_singleton_self _, View.mem_set_unit_zero (S := S1x2048x256) hz3 inb_S1x2048x256_S1x2048x256_0_0_0 y⟩

theorem out0_3_eq (x0 : Vec F S2048x256 .f32) (x1 : Vec F S1x256x256 .f32) (x2 : Vec F S1x1x256 .f32) :
    out0_3 x0 x1 x2 = k0_pay1 x0 x1 x2 := by
  unfold out0_3
  rw [View.canon_unit_zero (S := S1x2048x256) hz3, View.ld_unit_zero (S := S2048x256) hz2,
    View.ld_unit_zero (S := S1x256x256) hz3, View.ld_unit_zero (S := S1x1x256) hz3]

set_option maxHeartbeats 1000000 in

theorem sound_kernel0 (c : Dev nD) (E : Set ℕ) (i : grid0.Coords)
    (arg0 : Memref sig .tc .vmem S2048x256 .f32) (harg0 : arg0.IsWhole)
    (arg1 : Memref sig .tc .vmem S1x256x256 .f32) (harg1 : arg1.IsWhole)
    (arg2 : Memref sig .tc .vmem S1x1x256 .f32) (harg2 : arg2.IsWhole)
    (arg3 : Memref sig .tc .vmem S1x2048x256 .f32) (harg3 : arg3.IsWhole)
    (x0 : Vec F S2048x256 .f32) (x1 : Vec F S1x256x256 .f32) (x2 : Vec F S1x1x256 .f32) (K : PUnit → sProp 𝕄) :
    iprop(owns (c : Thread nD τ) arg0 fullShare x0 ∗ owns (c : Thread nD τ) arg1 fullShare x1
        ∗ owns (c : Thread nD τ) arg2 fullShare x2 ∗ (∃ d, owns (c : Thread nD τ) arg3 fullShare d)
        ∗ (iprop(owns (c : Thread nD τ) arg0 fullShare x0 ∗ owns (c : Thread nD τ) arg1 fullShare x1
            ∗ owns (c : Thread nD τ) arg2 fullShare x2 ∗ owns (c : Thread nD τ) arg3 fullShare (out0_3 x0 x1 x2)) -∗ K ⟨⟩))
      ⊢ wp frame (wpE (defs₀ (F := F)) Variants.none c none) E (cc0__iter0_kernel i arg0 harg0 arg1 harg1 arg2 harg2 arg3 harg3) K := by
  simp only [cc0__iter0_kernel_eq_skeleton]; unfold cc0__iter0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr
end
-- ==== Proof.KI.Body.lean ====
import proofs.«167552_j64123861729349_1_alg».proof.Proof.Gen.KernelIdeal.Launch
import proofs.«167552_j64123861729349_1_alg».proof.Proof.Gen.KernelIdeal.Skeleton
import proofs.«167552_j64123861729349_1_alg».proof.Proof.Gen.KernelIdeal.Points
import Idealize.ShloMosaic.Lib.Pipeline.FrameBody
import Idealize.ShloMosaic.Lib.Ring
import Idealize.ShloMosaic.Lib.Tactic
import Idealize.ShloMosaic.Lib.WholeRead
import proofs.«167552_j64123861729349_1_alg».proof.Proof.LibWholeStore
import proofs.«167552_j64123861729349_1_alg».proof.Proof.LibWholeRead
set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

abbrev atFirst (i : grid1.Coords) : Prop := (Scalar.cmpi .ne (Scalar.extui (Scalar.cmpi .eq (BitVec.ofNat 32 (i 2).val) 0#32)) 0#32) = 1#1
abbrev atLast (i : grid1.Coords) : Prop := (Scalar.cmpi .ne (Scalar.extui (Scalar.cmpi .eq (BitVec.ofNat 32 (i 2).val) 3#32)) 0#32) = 1#1
abbrev tblRef : Memref sig .tc .smem S16x4 .i32 := Memref.whole main_c_1
abbrev tblRef_whole : tblRef.IsWhole := Memref.isWhole_whole _

theorem atFirst_iff : ∀ t : Fin grid1.N, atFirst (grid1.coords t) ↔ t.val % 4 = 0 := by decide +kernel
theorem atLast_iff : ∀ t : Fin grid1.N, atLast (grid1.coords t) ↔ t.val % 4 = 3 := by decide +kernel

variable (c : Dev nD) (i : grid1.Coords)
  (arg4 : Memref sig .tc .vmem S1x2048x256 .f32) (harg4 : arg4.IsWhole) (arg5 : Memref sig .tc .vmem S1x1x256x256 .f32) (harg5 : arg5.IsWhole)
  (arg6 : Memref sig .tc .vmem S1x1x1x256 .f32) (harg6 : arg6.IsWhole) (arg7 : Memref sig .tc .vmem S1x2048x256 .f32) (harg7 : arg7.IsWhole)
  (x0 : Vec F S1x2048x256 .f32) (x1 : Vec F S1x1x256x256 .f32) (x2 : Vec F S1x1x1x256 .f32)

/-- What one call of the body is shown to do: the three inputs come back as given and the output memref ends at the pieces `L3` written over some contents. -/
abbrev RunSpec (out : sProp 𝕄) (L3 : List (View.Piece (Elt F) S1x2048x256 .f32)) : Prop :=
  ∀ (E : Set ℕ) (K : PUnit → sProp 𝕄),
    iprop(owns (c : Thread nD τ) arg4 fullShare x0 ∗ owns (c : Thread nD τ) arg5 fullShare x1 ∗ owns (c : Thread nD τ) arg6 fullShare x2 ∗ out
        ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3)) -∗ K ⟨⟩))
      ⊢ wp frame (wpE (defs₀ (F := F)) Variants.none c none) E (cc1__iter_kernel i tblRef tblRef_whole arg4 harg4 arg5 harg5 arg6 harg6 arg7 harg7) K

set_option maxHeartbeats 1000000 in
noncomputable def runFirst (hc0 : atFirst i) (hc1 : ¬atLast i) :
    { L3 // RunSpec c i arg4 harg4 arg5 harg5 arg6 harg6 arg7 harg7 x0 x1 x2 iprop(∃ d, owns (c : Thread nD τ) arg7 fullShare d) L3 } := by
  refine ⟨?_, fun E K => ?run⟩
  case run =>
    simp only [cc1__iter_kernel_eq_skeleton]; unfold cc1__iter_kernel_skel
    unfold owns
    iintro ⟨⟨%f0, %hf0, H0⟩, ⟨%f1, %hf1, H1⟩, ⟨%f2, %hf2, H2⟩, ⟨%d3, %f3, -, H3⟩, Hk⟩
    obtain rfl := harg4.eq_unread hf0; obtain rfl := harg5.eq_unread hf1; obtain rfl := harg6.eq_unread hf2
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; iexact H3

set_option maxHeartbeats 1000000 in
noncomputable def runMid (hc0 : ¬atFirst i) (hc1 : ¬atLast i) (xo3 : Vec F S1x2048x256 .f32) :
    { L3 // RunSpec c i arg4 harg4 arg5 harg5 arg6 harg6 arg7 harg7 x0 x1 x2 (owns (c : Thread nD τ) arg7 fullShare xo3) L3 } := by
  refine ⟨?_, fun E K => ?run⟩
  case run =>
    simp only [cc1__iter_kernel_eq_skeleton]; unfold cc1__iter_kernel_skel
    unfold owns
    iintro ⟨⟨%f0, %hf0, H0⟩, ⟨%f1, %hf1, H1⟩, ⟨%f2, %hf2, H2⟩, ⟨%f3, %hf3, H3⟩, Hk⟩
    obtain rfl := harg4.eq_unread hf0; obtain rfl := harg5.eq_unread hf1; obtain rfl := harg6.eq_unread hf2; obtain rfl := harg7.eq_unread hf3
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; iexact H3

set_option maxHeartbeats 1000000 in
noncomputable def runLast (hc0 : ¬atFirst i) (hc1 : atLast i) (xo3 : Vec F S1x2048x256 .f32) :
    { L3 // RunSpec c i arg4 harg4 arg5 harg5 arg6 harg6 arg7 harg7 x0 x1 x2 (owns (c : Thread nD τ) arg7 fullShare xo3) L3 } := by
  refine ⟨?_, fun E K => ?run⟩
  case run =>
    simp only [cc1__iter_kernel_eq_skeleton]; unfold cc1__iter_kernel_skel
    unfold owns
    iintro ⟨⟨%f0, %hf0, H0⟩, ⟨%f1, %hf1, H1⟩, ⟨%f2, %hf2, H2⟩, ⟨%f3, %hf3, H3⟩, Hk⟩
    obtain rfl := harg4.eq_unread hf0; obtain rfl := harg5.eq_unread hf1; obtain rfl := harg6.eq_unread hf2; obtain rfl := harg7.eq_unread hf3
    sl_exec (disch := first | exact hc0 | exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; iexact H3

private theorem zeros3 : (![0, 0, 0] : Fin 3 → Nat) = fun _ => 0 := funext fun j => by fin_cases j <;> rfl
private theorem zeros4 : (![0, 0, 0, 0] : Fin 4 → Nat) = fun _ => 0 := funext fun j => by fin_cases j <;> rfl

theorem readMid (hc0 : ¬atFirst i) (hc1 : ¬atLast i) (xo3 : Vec F S1x2048x256 .f32) (f : arg7.view.ty.Contents (Elt F)) :
    arg7.view.read (Elt F) (arg7.view.writes (Elt F) f (runMid c i arg4 harg4 arg5 harg5 arg6 harg6 arg7 harg7 x0 x1 x2 hc0 hc1 xo3).1) = k1_pay2 x0 x1 x2 xo3 := by
  unfold runMid
  dsimp only
  rw [Cert.LibWholeRead.read_writes_cons_whole (S := S1x2048x256) _ _ zeros3]
  simp only [View.readAt_eq_ld, harg4.read_unread, harg5.read_unread, harg6.read_unread, harg7.read_unread,
    View.ld_unit_zero (S := S1x2048x256) zeros3, View.ld_unit_zero (S := S1x1x256x256) zeros4, View.ld_unit_zero (S := S1x1x1x256) zeros4]

theorem readFirst (hc0 : atFirst i) (hc1 : ¬atLast i) (f : arg7.view.ty.Contents (Elt F)) :
    arg7.view.read (Elt F) (arg7.view.writes (Elt F) f (runFirst c i arg4 harg4 arg5 harg5 arg6 harg6 arg7 harg7 x0 x1 x2 hc0 hc1).1) = k1_pay2 x0 x1 x2 k1_pay1 := by
  unfold runFirst
  dsimp only
  sl_unfold_run_names
  rw [Cert.LibWholeRead.read_writes_cons_whole (S := S1x2048x256) _ _ zeros3, View.readCov_unit_zero (S := S1x2048x256) _ zeros3]
  simp only [View.readAt_eq_ld, harg4.read_unread, harg5.read_unread, harg6.read_unread,
    View.ld_unit_zero (S := S1x2048x256) zeros3, View.ld_unit_zero (S := S1x1x256x256) zeros4, View.ld_unit_zero (S := S1x1x1x256) zeros4]

theorem readLast (hc0 : ¬atFirst i) (hc1 : atLast i) (xo3 : Vec F S1x2048x256 .f32) (f : arg7.view.ty.Contents (Elt F)) :
    arg7.view.read (Elt F) (arg7.view.writes (Elt F) f (runLast c i arg4 harg4 arg5 harg5 arg6 harg6 arg7 harg7 x0 x1 x2 hc0 hc1 xo3).1) = k1_pay3 (k1_pay2 x0 x1 x2 xo3) := by
  unfold runLast
  dsimp only
  sl_unfold_run_names
  rw [Cert.LibWholeRead.read_writes_cons_whole (S := S1x2048x256) _ _ zeros3, View.readCov_unit_zero (S := S1x2048x256) _ zeros3]
  simp only [View.readAt_eq_ld, harg4.read_unread, harg5.read_unread, harg6.read_unread, harg7.read_unread,
    View.ld_unit_zero (S := S1x2048x256) zeros3, View.ld_unit_zero (S := S1x1x256x256) zeros4, View.ld_unit_zero (S := S1x1x1x256) zeros4]

/-- One point's value of the output block over `prev`, what the point before left: the update of zero on a run's first point, its positive part on the last. -/
def stepOf (n : ℕ) (prev : Vec F S1x2048x256 .f32) : Vec F S1x2048x256 .f32 :=
  if n % 4 = 0 then k1_pay2 x0 x1 x2 k1_pay1 else if n % 4 = 3 then k1_pay3 (k1_pay2 x0 x1 x2 prev) else k1_pay2 x0 x1 x2 prev

/-- The body at point `t`, its three cases at once: the output block ends at `stepOf` of what it held (`prev`, off a run's first point). -/
theorem body_step {D : Type} (t : Fin grid1.N) (g : D → Vec F S1x2048x256 .f32) (prev : Vec F S1x2048x256 .f32)
    (hg : ¬t.val % 4 = 0 → ∀ d, g d = prev) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare (g d))
        ∗ (iprop(owns (c : Thread nD τ) arg4 fullShare x0 ∗ owns (c : Thread nD τ) arg5 fullShare x1 ∗ owns (c : Thread nD τ) arg6 fullShare x2 ∗ owns (c : Thread nD τ) arg7 fullShare (stepOf x0 x1 x2 t.val prev)) -∗ K ⟨⟩))
      ⊢ wp frame (wpE (defs₀ (F := F)) Variants.none c none) E (cc1__iter_kernel (grid1.coords t) tblRef tblRef_whole arg4 harg4 arg5 harg5 arg6 harg6 arg7 harg7) K := by
  unfold stepOf
  by_cases h0 : t.val % 4 = 0
  · rw [if_pos h0]
    iintro ⟨H0, H1, H2, ⟨%d3, H3⟩, Hk⟩
    iapply ((runFirst c (grid1.coords t) arg4 harg4 arg5 harg5 arg6 harg6 arg7 harg7 x0 x1 x2 ((atFirst_iff t).mpr h0) (fun h => by have := (atLast_iff t).mp h; omega)).2 E _)
    isplitl [H0]; · iexact H0
    isplitl [H1]; · iexact H1
    isplitl [H2]; · iexact H2
    isplitl [H3]; · iexists _; iexact H3
    iintro ⟨H0, H1, H2, ⟨%e3, H3⟩⟩
    iapply Hk
    isplitl [H0]; · iexact H0
    isplitl [H1]; · iexact H1
    isplitl [H2]; · iexact H2
    unfold owns; iexists _; isplitr
    swap; · iexact H3
    ipureintro; exact readFirst c _ _ _ _ _ _ _ _ _ _ _ _ _ _ _
  · rw [if_neg h0]
    simp only [hg h0]
    by_cases h3 : t.val % 4 = 3
    · rw [if_pos h3]
      iintro ⟨H0, H1, H2, ⟨%d3, H3⟩, Hk⟩
      iapply ((runLast c (grid1.coords t) arg4 harg4 arg5 harg5 arg6 harg6 arg7 harg7 x0 x1 x2 (fun h => h0 ((atFirst_iff t).mp h)) ((atLast_iff t).mpr h3) prev).2 E _)
      isplitl [H0]; · iexact H0
      isplitl [H1]; · iexact H1
      isplitl [H2]; · iexact H2
      isplitl [H3]; · iexact H3
      iintro ⟨H0, H1, H2, ⟨%e3, H3⟩⟩
      iapply Hk
      isplitl [H0]; · iexact H0
      isplitl [H1]; · iexact H1
      isplitl [H2]; · iexact H2
      unfold owns; iexists _; isplitr
      swap; · iexact H3
      ipureintro; exact readLast c _ _ _ _ _ _ _ _ _ _ _ _ _ _ _ _
    · rw [if_neg h3]
      iintro ⟨H0, H1, H2, ⟨%d3, H3⟩, Hk⟩
      iapply ((runMid c (grid1.coords t) arg4 harg4 arg5 harg5 arg6 harg6 arg7 harg7 x0 x1 x2 (fun h => h0 ((atFirst_iff t).mp h)) (fun h => h3 ((atLast_iff t).mp h)) prev).2 E _)
      isplitl [H0]; · iexact H0
      isplitl [H1]; · iexact H1
      isplitl [H2]; · iexact H2
      isplitl [H3]; · iexact H3
      iintro ⟨H0, H1, H2, ⟨%e3, H3⟩⟩
      iapply Hk
      isplitl [H0]; · iexact H0
      isplitl [H1]; · iexact H1
      isplitl [H2]; · iexact H2
      unfold owns; iexists _; isplitr
      swap; · iexact H3
      ipureintro; exact readMid c _ _ _ _ _ _ _ _ _ _ _ _ _ _ _ _

end Cert.KernelIdeal.Fr
end
-- ==== Proof.KI.R1.lean ====
import proofs.«167552_j64123861729349_1_alg».proof.Proof.KI.Body
set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

theorem flush1_3 (a : (pcfg1 (F := F)).Adm) : ∀ t : Fin (cfg1 a).N, ((cfg1 a).win 3).flush t = true ↔ t.val % 4 = 3 :=
  (by decide +kernel : ∀ t : Fin grid1.N, Pipeline.Window.flushOf grid1 true cc1_transform_3 t = true ↔ t.val % 4 = 3)

variable (V : (c : Dev nD) → (b : Ref sig .tc) → Buf (Elt F) ((c : Thread nD τ).loc b))
variable (a : (pcfg1 (F := F)).Adm)

def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- What the output block holds after the body at point `n`: the step over what the point before left. -/
def outsAt1 (c : Dev nD) : (n : ℕ) → n < (cfg1 a).N → Vec F S1x2048x256 .f32
  | 0, hn => stepOf (iblk1 V a c 0 ⟨0, hn⟩) (iblk1 V a c 1 ⟨0, hn⟩) (iblk1 V a c 2 ⟨0, hn⟩) 0 k1_pay1
  | n + 1, hn => stepOf (iblk1 V a c 0 ⟨n + 1, hn⟩) (iblk1 V a c 1 ⟨n + 1, hn⟩) (iblk1 V a c 2 ⟨n + 1, hn⟩) (n + 1) (outsAt1 c n (Nat.lt_of_succ_lt hn))

theorem outsAt1_eq (c : Dev nD) (t : Fin (cfg1 a).N) :
    outsAt1 V a c t.val t.isLt = stepOf (iblk1 V a c 0 t) (iblk1 V a c 1 t) (iblk1 V a c 2 t) t.val (outsAt1 V a c (t.val - 1) (Nat.lt_of_le_of_lt (Nat.sub_le _ _) t.isLt)) := by
  obtain ⟨n, hn⟩ := t
  cases n with
  | zero => rfl
  | succ n => rfl

def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => outsAt1 V a c t.val t.isLt
  Φ _ := iprop(Pipeline.ΦA spec1 c ∗ Pipeline.prefHeld (Ix := Unit) (Name := ℕ) (U := UR sig nD τ) (Lvl := ℕ) pre1 c (fun _ => fullShare) a.1)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after (0 : Fin 4) t = iblk1 V a c 0 t := by dsimp only [dat1]; try rfl
theorem after1_1 (c : Dev nD) (t : Fin (cfg1 a).N) : (dat1 V a c).after (1 : Fin 4) t = iblk1 V a c 1 t := by dsimp only [dat1]; try rfl
theorem after1_2 (c : Dev nD) (t : Fin (cfg1 a).N) : (dat1 V a c).after (2 : Fin 4) t = iblk1 V a c 2 t := by dsimp only [dat1]; try rfl
theorem after1_3 (c : Dev nD) (t : Fin (cfg1 a).N) : (dat1 V a c).after (3 : Fin 4) t = outsAt1 V a c t.val t.isLt := by dsimp only [dat1]; try rfl

theorem before1_0 (c : Dev nD) (t : Fin (cfg1 a).N) (d) : (dat1 V a c).before (0 : Fin 4) t d = iblk1 V a c 0 t :=
  ((dat1 V a c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before (1 : Fin 4) t d = iblk1 V a c 1 t :=
  ((dat1 V a c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before (2 : Fin 4) t d = iblk1 V a c 2 t :=
  ((dat1 V a c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem before1_3_kept (c : Dev nD) (t : Fin (cfg1 a).N) (h0 : ¬t.val % 4 = 0) (d) :
    (dat1 V a c).before (3 : Fin 4) t d = outsAt1 V a c (t.val - 1) (Nat.lt_of_le_of_lt (Nat.sub_le _ _) t.isLt) := by
  rw [Dat.before_out_kept _ (3 : Fin 4) rfl t (by omega) (Bool.eq_false_iff.mpr fun h => by have := (flush1_3 a _).mp h; dsimp only at this; omega)
    (fun _ => rfl) (fun _ _ => rfl)]
  exact after1_3 V a c _

theorem body_obligation1 (c : Dev nD) : BodyObligation (dat1 (F := F) V a c) (defs₀ (F := F)) Variants.none () Set.univ := fun t => by
  rw [bigSep_W1, bigSep_W1]
  dsimp only
  simp only [before1_0, before1_1, before1_2]
  rw [show (dat1 V a c).Φ t.succ = (dat1 V a c).Φ t.castSucc from rfl,
    show (dat1 V a c).owesAt () t.succ = (dat1 V a c).owesAt () t.castSucc from rfl,
    after1_0, after1_1, after1_2, after1_3, outsAt1_eq V a c t]
  iintro ⟨HΦ, Ho, ⟨%d0, H0⟩, ⟨%d1, H1⟩, ⟨%d2, H2⟩, H3⟩
  iapply (body_step c _ (hstage1_0 _) _ (hstage1_1 _) _ (hstage1_2 _) _ (hstage1_3 _) (iblk1 V a c 0 t) (iblk1 V a c 1 t) (iblk1 V a c 2 t) t ((dat1 V a c).before (3 : Fin 4) t) _
    (fun h0 d => before1_3_kept V a c t h0 d) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Fr
end
-- ==== Proof.KI.R2.lean ====
import proofs.«167552_j64123861729349_1_alg».proof.Proof.KI.Body
set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

theorem flush2_3 (a : (pcfg2 (F := F)).Adm) : ∀ t : Fin (cfg2 a).N, ((cfg2 a).win 3).flush t = true ↔ t.val % 4 = 3 :=
  (by decide +kernel : ∀ t : Fin grid2.N, Pipeline.Window.flushOf grid2 true cc2_transform_3 t = true ↔ t.val % 4 = 3)

variable (V : (c : Dev nD) → (b : Ref sig .tc) → Buf (Elt F) ((c : Thread nD τ).loc b))
variable (a : (pcfg2 (F := F)).Adm)

def iblk2 (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- What the output block holds after the body at point `n`: the step over what the point before left. -/
def outsAt2 (c : Dev nD) : (n : ℕ) → n < (cfg2 a).N → Vec F S1x2048x256 .f32
  | 0, hn => stepOf (iblk2 V a c 0 ⟨0, hn⟩) (iblk2 V a c 1 ⟨0, hn⟩) (iblk2 V a c 2 ⟨0, hn⟩) 0 k1_pay1
  | n + 1, hn => stepOf (iblk2 V a c 0 ⟨n + 1, hn⟩) (iblk2 V a c 1 ⟨n + 1, hn⟩) (iblk2 V a c 2 ⟨n + 1, hn⟩) (n + 1) (outsAt2 c n (Nat.lt_of_succ_lt hn))

theorem outsAt2_eq (c : Dev nD) (t : Fin (cfg2 a).N) :
    outsAt2 V a c t.val t.isLt = stepOf (iblk2 V a c 0 t) (iblk2 V a c 1 t) (iblk2 V a c 2 t) t.val (outsAt2 V a c (t.val - 1) (Nat.lt_of_le_of_lt (Nat.sub_le _ _) t.isLt)) := by
  obtain ⟨n, hn⟩ := t
  cases n with
  | zero => rfl
  | succ n => rfl

def dat2 (c : Dev nD) : Dat τ (Elt F) Unit ℕ (UR sig nD τ) ℕ (cfg2 a) c where
  A w := V c (Pipeline.arrRef spec2 w)
  after w t := match w with
    | ⟨0, _⟩ => iblk2 V a c 0 t
    | ⟨1, _⟩ => iblk2 V a c 1 t
    | ⟨2, _⟩ => iblk2 V a c 2 t
    | ⟨3, _⟩ => outsAt2 V a c t.val t.isLt
  Φ _ := iprop(Pipeline.ΦA spec2 c ∗ Pipeline.prefHeld (Ix := Unit) (Name := ℕ) (U := UR sig nD τ) (Lvl := ℕ) pre2 c (fun _ => fullShare) a.1)
  q _ := fullShare
  owed _ := 0

theorem A_eq2 (c : Dev nD) (w : Fin (cfg2 a).W) : (dat2 V a c).A w = V c (Pipeline.arrRef spec2 w) := by
  dsimp only [dat2]

theorem after2_0 (c : Dev nD) (t : Fin (cfg2 a).N) : (dat2 V a c).after (0 : Fin 4) t = iblk2 V a c 0 t := by dsimp only [dat2]; try rfl
theorem after2_1 (c : Dev nD) (t : Fin (cfg2 a).N) : (dat2 V a c).after (1 : Fin 4) t = iblk2 V a c 1 t := by dsimp only [dat2]; try rfl
theorem after2_2 (c : Dev nD) (t : Fin (cfg2 a).N) : (dat2 V a c).after (2 : Fin 4) t = iblk2 V a c 2 t := by dsimp only [dat2]; try rfl
theorem after2_3 (c : Dev nD) (t : Fin (cfg2 a).N) : (dat2 V a c).after (3 : Fin 4) t = outsAt2 V a c t.val t.isLt := by dsimp only [dat2]; try rfl

theorem before2_0 (c : Dev nD) (t : Fin (cfg2 a).N) (d) : (dat2 V a c).before (0 : Fin 4) t d = iblk2 V a c 0 t :=
  ((dat2 V a c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin (cfg2 a).N) (d) : (dat2 V a c).before (1 : Fin 4) t d = iblk2 V a c 1 t :=
  ((dat2 V a c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin (cfg2 a).N) (d) : (dat2 V a c).before (2 : Fin 4) t d = iblk2 V a c 2 t :=
  ((dat2 V a c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

theorem before2_3_kept (c : Dev nD) (t : Fin (cfg2 a).N) (h0 : ¬t.val % 4 = 0) (d) :
    (dat2 V a c).before (3 : Fin 4) t d = outsAt2 V a c (t.val - 1) (Nat.lt_of_le_of_lt (Nat.sub_le _ _) t.isLt) := by
  rw [Dat.before_out_kept _ (3 : Fin 4) rfl t (by omega) (Bool.eq_false_iff.mpr fun h => by have := (flush2_3 a _).mp h; dsimp only at this; omega)
    (fun _ => rfl) (fun _ _ => rfl)]
  exact after2_3 V a c _

theorem body_obligation2 (c : Dev nD) : BodyObligation (dat2 (F := F) V a c) (defs₀ (F := F)) Variants.none () Set.univ := fun t => by
  rw [bigSep_W2, bigSep_W2]
  dsimp only
  simp only [before2_0, before2_1, before2_2]
  rw [show (dat2 V a c).Φ t.succ = (dat2 V a c).Φ t.castSucc from rfl,
    show (dat2 V a c).owesAt () t.succ = (dat2 V a c).owesAt () t.castSucc from rfl,
    after2_0, after2_1, after2_2, after2_3, outsAt2_eq V a c t]
  iintro ⟨HΦ, Ho, ⟨%d0, H0⟩, ⟨%d1, H1⟩, ⟨%d2, H2⟩, H3⟩
  iapply (body_step c _ (hstage2_0 _) _ (hstage2_1 _) _ (hstage2_2 _) _ (hstage2_3 _) (iblk2 V a c 0 t) (iblk2 V a c 1 t) (iblk2 V a c 2 t) t ((dat2 V a c).before (3 : Fin 4) t) _
    (fun h0 d => before2_3_kept V a c t h0 d) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Fr
end
-- ==== Proof.KI.R3.lean ====
import proofs.«167552_j64123861729349_1_alg».proof.Proof.KI.Body
set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

theorem flush3_3 (a : (pcfg3 (F := F)).Adm) : ∀ t : Fin (cfg3 a).N, ((cfg3 a).win 3).flush t = true ↔ t.val % 4 = 3 :=
  (by decide +kernel : ∀ t : Fin grid3.N, Pipeline.Window.flushOf grid3 true cc3_transform_3 t = true ↔ t.val % 4 = 3)

variable (V : (c : Dev nD) → (b : Ref sig .tc) → Buf (Elt F) ((c : Thread nD τ).loc b))
variable (a : (pcfg3 (F := F)).Adm)

def iblk3 (c : Dev nD) (w : Fin (cfg3 a).W) (t : Fin (cfg3 a).N) : (((cfg3 a).win w).xblock ((cfg3 a).grid.coords t)).Idx → Elt F ((cfg3 a).win w).elt :=
  (((cfg3 a).win w).blk t).view.read (Elt F) (V c (Pipeline.arrRef spec3 w))

/-- What the output block holds after the body at point `n`: the step over what the point before left. -/
def outsAt3 (c : Dev nD) : (n : ℕ) → n < (cfg3 a).N → Vec F S1x2048x256 .f32
  | 0, hn => stepOf (iblk3 V a c 0 ⟨0, hn⟩) (iblk3 V a c 1 ⟨0, hn⟩) (iblk3 V a c 2 ⟨0, hn⟩) 0 k1_pay1
  | n + 1, hn => stepOf (iblk3 V a c 0 ⟨n + 1, hn⟩) (iblk3 V a c 1 ⟨n + 1, hn⟩) (iblk3 V a c 2 ⟨n + 1, hn⟩) (n + 1) (outsAt3 c n (Nat.lt_of_succ_lt hn))

theorem outsAt3_eq (c : Dev nD) (t : Fin (cfg3 a).N) :
    outsAt3 V a c t.val t.isLt = stepOf (iblk3 V a c 0 t) (iblk3 V a c 1 t) (iblk3 V a c 2 t) t.val (outsAt3 V a c (t.val - 1) (Nat.lt_of_le_of_lt (Nat.sub_le _ _) t.isLt)) := by
  obtain ⟨n, hn⟩ := t
  cases n with
  | zero => rfl
  | succ n => rfl

def dat3 (c : Dev nD) : Dat τ (Elt F) Unit ℕ (UR sig nD τ) ℕ (cfg3 a) c where
  A w := V c (Pipeline.arrRef spec3 w)
  after w t := match w with
    | ⟨0, _⟩ => iblk3 V a c 0 t
    | ⟨1, _⟩ => iblk3 V a c 1 t
    | ⟨2, _⟩ => iblk3 V a c 2 t
    | ⟨3, _⟩ => outsAt3 V a c t.val t.isLt
  Φ _ := iprop(Pipeline.ΦA spec3 c ∗ Pipeline.prefHeld (Ix := Unit) (Name := ℕ) (U := UR sig nD τ) (Lvl := ℕ) pre3 c (fun _ => fullShare) a.1)
  q _ := fullShare
  owed _ := 0

theorem A_eq3 (c : Dev nD) (w : Fin (cfg3 a).W) : (dat3 V a c).A w = V c (Pipeline.arrRef spec3 w) := by
  dsimp only [dat3]

theorem after3_0 (c : Dev nD) (t : Fin (cfg3 a).N) : (dat3 V a c).after (0 : Fin 4) t = iblk3 V a c 0 t := by dsimp only [dat3]; try rfl
theorem after3_1 (c : Dev nD) (t : Fin (cfg3 a).N) : (dat3 V a c).after (1 : Fin 4) t = iblk3 V a c 1 t := by dsimp only [dat3]; try rfl
theorem after3_2 (c : Dev nD) (t : Fin (cfg3 a).N) : (dat3 V a c).after (2 : Fin 4) t = iblk3 V a c 2 t := by dsimp only [dat3]; try rfl
theorem after3_3 (c : Dev nD) (t : Fin (cfg3 a).N) : (dat3 V a c).after (3 : Fin 4) t = outsAt3 V a c t.val t.isLt := by dsimp only [dat3]; try rfl

theorem before3_0 (c : Dev nD) (t : Fin (cfg3 a).N) (d) : (dat3 V a c).before (0 : Fin 4) t d = iblk3 V a c 0 t :=
  ((dat3 V a c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin (cfg3 a).N) (d) : (dat3 V a c).before (1 : Fin 4) t d = iblk3 V a c 1 t :=
  ((dat3 V a c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin (cfg3 a).N) (d) : (dat3 V a c).before (2 : Fin 4) t d = iblk3 V a c 2 t :=
  ((dat3 V a c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

theorem before3_3_kept (c : Dev nD) (t : Fin (cfg3 a).N) (h0 : ¬t.val % 4 = 0) (d) :
    (dat3 V a c).before (3 : Fin 4) t d = outsAt3 V a c (t.val - 1) (Nat.lt_of_le_of_lt (Nat.sub_le _ _) t.isLt) := by
  rw [Dat.before_out_kept _ (3 : Fin 4) rfl t (by omega) (Bool.eq_false_iff.mpr fun h => by have := (flush3_3 a _).mp h; dsimp only at this; omega)
    (fun _ => rfl) (fun _ _ => rfl)]
  exact after3_3 V a c _

theorem body_obligation3 (c : Dev nD) : BodyObligation (dat3 (F := F) V a c) (defs₀ (F := F)) Variants.none () Set.univ := fun t => by
  rw [bigSep_W3, bigSep_W3]
  dsimp only
  simp only [before3_0, before3_1, before3_2]
  rw [show (dat3 V a c).Φ t.succ = (dat3 V a c).Φ t.castSucc from rfl,
    show (dat3 V a c).owesAt () t.succ = (dat3 V a c).owesAt () t.castSucc from rfl,
    after3_0, after3_1, after3_2, after3_3, outsAt3_eq V a c t]
  iintro ⟨HΦ, Ho, ⟨%d0, H0⟩, ⟨%d1, H1⟩, ⟨%d2, H2⟩, H3⟩
  iapply (body_step c _ (hstage3_0 _) _ (hstage3_1 _) _ (hstage3_2 _) _ (hstage3_3 _) (iblk3 V a c 0 t) (iblk3 V a c 1 t) (iblk3 V a c 2 t) t ((dat3 V a c).before (3 : Fin 4) t) _
    (fun h0 d => before3_3_kept V a c t h0 d) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Fr
end
-- ==== Proof.KI.R4.lean ====
import proofs.«167552_j64123861729349_1_alg».proof.Proof.KI.Body
set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

theorem flush4_3 (a : (pcfg4 (F := F)).Adm) : ∀ t : Fin (cfg4 a).N, ((cfg4 a).win 3).flush t = true ↔ t.val % 4 = 3 :=
  (by decide +kernel : ∀ t : Fin grid4.N, Pipeline.Window.flushOf grid4 true cc4_transform_3 t = true ↔ t.val % 4 = 3)

variable (V : (c : Dev nD) → (b : Ref sig .tc) → Buf (Elt F) ((c : Thread nD τ).loc b))
variable (a : (pcfg4 (F := F)).Adm)

def iblk4 (c : Dev nD) (w : Fin (cfg4 a).W) (t : Fin (cfg4 a).N) : (((cfg4 a).win w).xblock ((cfg4 a).grid.coords t)).Idx → Elt F ((cfg4 a).win w).elt :=
  (((cfg4 a).win w).blk t).view.read (Elt F) (V c (Pipeline.arrRef spec4 w))

/-- What the output block holds after the body at point `n`: the step over what the point before left. -/
def outsAt4 (c : Dev nD) : (n : ℕ) → n < (cfg4 a).N → Vec F S1x2048x256 .f32
  | 0, hn => stepOf (iblk4 V a c 0 ⟨0, hn⟩) (iblk4 V a c 1 ⟨0, hn⟩) (iblk4 V a c 2 ⟨0, hn⟩) 0 k1_pay1
  | n + 1, hn => stepOf (iblk4 V a c 0 ⟨n + 1, hn⟩) (iblk4 V a c 1 ⟨n + 1, hn⟩) (iblk4 V a c 2 ⟨n + 1, hn⟩) (n + 1) (outsAt4 c n (Nat.lt_of_succ_lt hn))

theorem outsAt4_eq (c : Dev nD) (t : Fin (cfg4 a).N) :
    outsAt4 V a c t.val t.isLt = stepOf (iblk4 V a c 0 t) (iblk4 V a c 1 t) (iblk4 V a c 2 t) t.val (outsAt4 V a c (t.val - 1) (Nat.lt_of_le_of_lt (Nat.sub_le _ _) t.isLt)) := by
  obtain ⟨n, hn⟩ := t
  cases n with
  | zero => rfl
  | succ n => rfl

def dat4 (c : Dev nD) : Dat τ (Elt F) Unit ℕ (UR sig nD τ) ℕ (cfg4 a) c where
  A w := V c (Pipeline.arrRef spec4 w)
  after w t := match w with
    | ⟨0, _⟩ => iblk4 V a c 0 t
    | ⟨1, _⟩ => iblk4 V a c 1 t
    | ⟨2, _⟩ => iblk4 V a c 2 t
    | ⟨3, _⟩ => outsAt4 V a c t.val t.isLt
  Φ _ := iprop(Pipeline.ΦA spec4 c ∗ Pipeline.prefHeld (Ix := Unit) (Name := ℕ) (U := UR sig nD τ) (Lvl := ℕ) pre4 c (fun _ => fullShare) a.1)
  q _ := fullShare
  owed _ := 0

theorem A_eq4 (c : Dev nD) (w : Fin (cfg4 a).W) : (dat4 V a c).A w = V c (Pipeline.arrRef spec4 w) := by
  dsimp only [dat4]

theorem after4_0 (c : Dev nD) (t : Fin (cfg4 a).N) : (dat4 V a c).after (0 : Fin 4) t = iblk4 V a c 0 t := by dsimp only [dat4]; try rfl
theorem after4_1 (c : Dev nD) (t : Fin (cfg4 a).N) : (dat4 V a c).after (1 : Fin 4) t = iblk4 V a c 1 t := by dsimp only [dat4]; try rfl
theorem after4_2 (c : Dev nD) (t : Fin (cfg4 a).N) : (dat4 V a c).after (2 : Fin 4) t = iblk4 V a c 2 t := by dsimp only [dat4]; try rfl
theorem after4_3 (c : Dev nD) (t : Fin (cfg4 a).N) : (dat4 V a c).after (3 : Fin 4) t = outsAt4 V a c t.val t.isLt := by dsimp only [dat4]; try rfl

theorem before4_0 (c : Dev nD) (t : Fin (cfg4 a).N) (d) : (dat4 V a c).before (0 : Fin 4) t d = iblk4 V a c 0 t :=
  ((dat4 V a c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin (cfg4 a).N) (d) : (dat4 V a c).before (1 : Fin 4) t d = iblk4 V a c 1 t :=
  ((dat4 V a c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin (cfg4 a).N) (d) : (dat4 V a c).before (2 : Fin 4) t d = iblk4 V a c 2 t :=
  ((dat4 V a c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

theorem before4_3_kept (c : Dev nD) (t : Fin (cfg4 a).N) (h0 : ¬t.val % 4 = 0) (d) :
    (dat4 V a c).before (3 : Fin 4) t d = outsAt4 V a c (t.val - 1) (Nat.lt_of_le_of_lt (Nat.sub_le _ _) t.isLt) := by
  rw [Dat.before_out_kept _ (3 : Fin 4) rfl t (by omega) (Bool.eq_false_iff.mpr fun h => by have := (flush4_3 a _).mp h; dsimp only at this; omega)
    (fun _ => rfl) (fun _ _ => rfl)]
  exact after4_3 V a c _

theorem body_obligation4 (c : Dev nD) : BodyObligation (dat4 (F := F) V a c) (defs₀ (F := F)) Variants.none () Set.univ := fun t => by
  rw [bigSep_W4, bigSep_W4]
  dsimp only
  simp only [before4_0, before4_1, before4_2]
  rw [show (dat4 V a c).Φ t.succ = (dat4 V a c).Φ t.castSucc from rfl,
    show (dat4 V a c).owesAt () t.succ = (dat4 V a c).owesAt () t.castSucc from rfl,
    after4_0, after4_1, after4_2, after4_3, outsAt4_eq V a c t]
  iintro ⟨HΦ, Ho, ⟨%d0, H0⟩, ⟨%d1, H1⟩, ⟨%d2, H2⟩, H3⟩
  iapply (body_step c _ (hstage4_0 _) _ (hstage4_1 _) _ (hstage4_2 _) _ (hstage4_3 _) (iblk4 V a c 0 t) (iblk4 V a c 1 t) (iblk4 V a c 2 t) t ((dat4 V a c).before (3 : Fin 4) t) _
    (fun h0 d => before4_3_kept V a c t h0 d) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Fr
end
-- ==== Proof.KI.R5.lean ====
import proofs.«167552_j64123861729349_1_alg».proof.Proof.KI.Body
set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

theorem flush5_3 (a : (pcfg5 (F := F)).Adm) : ∀ t : Fin (cfg5 a).N, ((cfg5 a).win 3).flush t = true ↔ t.val % 4 = 3 :=
  (by decide +kernel : ∀ t : Fin grid5.N, Pipeline.Window.flushOf grid5 true cc5_transform_3 t = true ↔ t.val % 4 = 3)

variable (V : (c : Dev nD) → (b : Ref sig .tc) → Buf (Elt F) ((c : Thread nD τ).loc b))
variable (a : (pcfg5 (F := F)).Adm)

def iblk5 (c : Dev nD) (w : Fin (cfg5 a).W) (t : Fin (cfg5 a).N) : (((cfg5 a).win w).xblock ((cfg5 a).grid.coords t)).Idx → Elt F ((cfg5 a).win w).elt :=
  (((cfg5 a).win w).blk t).view.read (Elt F) (V c (Pipeline.arrRef spec5 w))

/-- What the output block holds after the body at point `n`: the step over what the point before left. -/
def outsAt5 (c : Dev nD) : (n : ℕ) → n < (cfg5 a).N → Vec F S1x2048x256 .f32
  | 0, hn => stepOf (iblk5 V a c 0 ⟨0, hn⟩) (iblk5 V a c 1 ⟨0, hn⟩) (iblk5 V a c 2 ⟨0, hn⟩) 0 k1_pay1
  | n + 1, hn => stepOf (iblk5 V a c 0 ⟨n + 1, hn⟩) (iblk5 V a c 1 ⟨n + 1, hn⟩) (iblk5 V a c 2 ⟨n + 1, hn⟩) (n + 1) (outsAt5 c n (Nat.lt_of_succ_lt hn))

theorem outsAt5_eq (c : Dev nD) (t : Fin (cfg5 a).N) :
    outsAt5 V a c t.val t.isLt = stepOf (iblk5 V a c 0 t) (iblk5 V a c 1 t) (iblk5 V a c 2 t) t.val (outsAt5 V a c (t.val - 1) (Nat.lt_of_le_of_lt (Nat.sub_le _ _) t.isLt)) := by
  obtain ⟨n, hn⟩ := t
  cases n with
  | zero => rfl
  | succ n => rfl

def dat5 (c : Dev nD) : Dat τ (Elt F) Unit ℕ (UR sig nD τ) ℕ (cfg5 a) c where
  A w := V c (Pipeline.arrRef spec5 w)
  after w t := match w with
    | ⟨0, _⟩ => iblk5 V a c 0 t
    | ⟨1, _⟩ => iblk5 V a c 1 t
    | ⟨2, _⟩ => iblk5 V a c 2 t
    | ⟨3, _⟩ => outsAt5 V a c t.val t.isLt
  Φ _ := iprop(Pipeline.ΦA spec5 c ∗ Pipeline.prefHeld (Ix := Unit) (Name := ℕ) (U := UR sig nD τ) (Lvl := ℕ) pre5 c (fun _ => fullShare) a.1)
  q _ := fullShare
  owed _ := 0

theorem A_eq5 (c : Dev nD) (w : Fin (cfg5 a).W) : (dat5 V a c).A w = V c (Pipeline.arrRef spec5 w) := by
  dsimp only [dat5]

theorem after5_0 (c : Dev nD) (t : Fin (cfg5 a).N) : (dat5 V a c).after (0 : Fin 4) t = iblk5 V a c 0 t := by dsimp only [dat5]; try rfl
theorem after5_1 (c : Dev nD) (t : Fin (cfg5 a).N) : (dat5 V a c).after (1 : Fin 4) t = iblk5 V a c 1 t := by dsimp only [dat5]; try rfl
theorem after5_2 (c : Dev nD) (t : Fin (cfg5 a).N) : (dat5 V a c).after (2 : Fin 4) t = iblk5 V a c 2 t := by dsimp only [dat5]; try rfl
theorem after5_3 (c : Dev nD) (t : Fin (cfg5 a).N) : (dat5 V a c).after (3 : Fin 4) t = outsAt5 V a c t.val t.isLt := by dsimp only [dat5]; try rfl

theorem before5_0 (c : Dev nD) (t : Fin (cfg5 a).N) (d) : (dat5 V a c).before (0 : Fin 4) t d = iblk5 V a c 0 t :=
  ((dat5 V a c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin (cfg5 a).N) (d) : (dat5 V a c).before (1 : Fin 4) t d = iblk5 V a c 1 t :=
  ((dat5 V a c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin (cfg5 a).N) (d) : (dat5 V a c).before (2 : Fin 4) t d = iblk5 V a c 2 t :=
  ((dat5 V a c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)

theorem before5_3_kept (c : Dev nD) (t : Fin (cfg5 a).N) (h0 : ¬t.val % 4 = 0) (d) :
    (dat5 V a c).before (3 : Fin 4) t d = outsAt5 V a c (t.val - 1) (Nat.lt_of_le_of_lt (Nat.sub_le _ _) t.isLt) := by
  rw [Dat.before_out_kept _ (3 : Fin 4) rfl t (by omega) (Bool.eq_false_iff.mpr fun h => by have := (flush5_3 a _).mp h; dsimp only at this; omega)
    (fun _ => rfl) (fun _ _ => rfl)]
  exact after5_3 V a c _

theorem body_obligation5 (c : Dev nD) : BodyObligation (dat5 (F := F) V a c) (defs₀ (F := F)) Variants.none () Set.univ := fun t => by
  rw [bigSep_W5, bigSep_W5]
  dsimp only
  simp only [before5_0, before5_1, before5_2]
  rw [show (dat5 V a c).Φ t.succ = (dat5 V a c).Φ t.castSucc from rfl,
    show (dat5 V a c).owesAt () t.succ = (dat5 V a c).owesAt () t.castSucc from rfl,
    after5_0, after5_1, after5_2, after5_3, outsAt5_eq V a c t]
  iintro ⟨HΦ, Ho, ⟨%d0, H0⟩, ⟨%d1, H1⟩, ⟨%d2, H2⟩, H3⟩
  iapply (body_step c _ (hstage5_0 _) _ (hstage5_1 _) _ (hstage5_2 _) _ (hstage5_3 _) (iblk5 V a c 0 t) (iblk5 V a c 1 t) (iblk5 V a c 2 t) t ((dat5 V a c).before (3 : Fin 4) t) _
    (fun h0 d => before5_3_kept V a c t h0 d) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.KernelIdeal.Fr
end
-- ==== Proof.KI.Tbl.lean ====
import proofs.«167552_j64123861729349_1_alg».proof.Proof.Gen.KernelIdeal.Regions
import Idealize.ShloMosaic.Lib.StableHlo.Run
set_option maxRecDepth 16384
noncomputable section

namespace Cert.KernelIdeal.Fr
open Idealize.ShloMosaic Idealize.ShloMosaic.TcCoe
open Idealize.ShloMosaic.StableHlo
open Cert.KernelIdeal Cert.KernelIdeal.Gen
variable {F : FTy → Type} [FloatOps F]
variable (m : (ℓ : Loc nD τ sig) → Buf (Elt F) ℓ)

theorem V8_main_c_1 (c : Dev nD) : V8 m c main_c_1 = fun idx => lit2 (S16x4.rowMajor idx) := by
  rw [V8_of m c main_c_1 (by decide), V7_of m c main_c_1 (by decide), V6_of m c main_c_1 (by decide),
    V5_of m c main_c_1 (by decide), V4_of m c main_c_1 (by decide), V3_of m c main_c_1 (by decide),
    V2_of m c main_c_1 (by decide)]
  show after hostOps0 (V0 m c) main_c_1 = _
  after_results
  rfl

theorem V8_main_arg0 (c : Dev nD) : V8 m c main_arg0 = m ((c : Thread nD τ).loc main_arg0) := by
  rw [V8_of m c main_arg0 (by decide), V7_of m c main_arg0 (by decide), V6_of m c main_arg0 (by decide),
    V5_of m c main_arg0 (by decide), V4_of m c main_arg0 (by decide), V3_of m c main_arg0 (by decide),
    V2_of m c main_arg0 (by decide), V1_of m c main_arg0 (by decide)]

end Cert.KernelIdeal.Fr

end
-- ==== Proof.KI.Segs.lean ====
import proofs.«167552_j64123861729349_1_alg».proof.Proof.Gen.KernelIdeal.Launch
import proofs.«167552_j64123861729349_1_alg».proof.Proof.Gen.KernelIdeal.Skeleton
import proofs.«167552_j64123861729349_1_alg».proof.Proof.Gen.KernelIdeal.Points
import proofs.«167552_j64123861729349_1_alg».proof.Proof.Gen.KernelIdeal.Regions
import proofs.«167552_j64123861729349_1_alg».proof.Proof.KI.R0
import proofs.«167552_j64123861729349_1_alg».proof.Proof.KI.R1
import proofs.«167552_j64123861729349_1_alg».proof.Proof.KI.R2
import proofs.«167552_j64123861729349_1_alg».proof.Proof.KI.R3
import proofs.«167552_j64123861729349_1_alg».proof.Proof.KI.R4
import proofs.«167552_j64123861729349_1_alg».proof.Proof.KI.R5
import proofs.«167552_j64123861729349_1_alg».proof.Proof.KI.Tbl
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ

def tblC : pre1.Contents (Elt F) := fun | ⟨0, _⟩ => fun idx => lit2 (S16x4.rowMajor idx)

theorem lit2_lt : ∀ j : Fin 64, (lit2 j).toNat < 16 := by decide
theorem lit2_blk (j : Fin 64) : ((lit2 j).toNat + 1) * 1 ≤ 16 := by have := lit2_lt j; omega

/-- Each table word is below 16, so a one-column block starting there fits the 16 columns; `ok2` … `ok5` are this same proposition. -/
theorem ok_tblC : ok1 (F := F) tblC := by
  unfold ok1
  intro i
  have r1 : (i 1).val < 4 := (i 1).isLt
  refine ⟨fun a => ?_, .inl rfl⟩
  match a with
  | ⟨0, _⟩ =>
    show ((lit2 _).toNat + 1) * 1 ≤ 16
    exact lit2_blk _
  | ⟨1, _⟩ =>
    show ((BitVec.ofNat 32 (i 1).val).toNat + 1) * 2048 ≤ 8192
    rw [BitVec.toNat_ofNat]
    have := Nat.mod_le (i 1).val (2 ^ 32)
    omega
  | ⟨2, _⟩ => show ((0#32).toNat + 1) * 256 ≤ 256; decide

def adm : (p : Fin 6) → (pcfgs (F := F) p).Adm
  | ⟨0, _⟩ => cfg0.toPCfg_adm
  | ⟨1, _⟩ => ⟨tblC, ok_tblC⟩
  | ⟨2, _⟩ => ⟨tblC, ok_tblC⟩
  | ⟨3, _⟩ => ⟨tblC, ok_tblC⟩
  | ⟨4, _⟩ => ⟨tblC, ok_tblC⟩
  | ⟨5, _⟩ => ⟨tblC, ok_tblC⟩
abbrev adm1 : (pcfg1 (F := F)).Adm := ⟨tblC, ok_tblC⟩
abbrev adm2 : (pcfg2 (F := F)).Adm := ⟨tblC, ok_tblC⟩
abbrev adm3 : (pcfg3 (F := F)).Adm := ⟨tblC, ok_tblC⟩
abbrev adm4 : (pcfg4 (F := F)).Adm := ⟨tblC, ok_tblC⟩
abbrev adm5 : (pcfg5 (F := F)).Adm := ⟨tblC, ok_tblC⟩

variable (m : (ℓ : Loc nD τ sig) → Buf (Elt F) ℓ) (ρ : Dev nD → PrngReg)

/-! Region `k` is entered at `Ve k` and left at `W (k+9)`: the entry valuation updated at the region's output array. -/

abbrev Ve0 : (c : Dev nD) → (b : Ref sig .tc) → Buf (Elt F) ((c : Thread nD τ).loc b) := fun c b => V8 m c b
def W9 (c : Dev nD) : Valuation τ sig (Elt F) :=
  Function.update (V8 m c) main_v13 ((dat0 (Ve0 m) c).arrAt 3 cfg0.N)
abbrev Ve1 : (c : Dev nD) → (b : Ref sig .tc) → Buf (Elt F) ((c : Thread nD τ).loc b) := fun c b => W9 m c b
def W10 (c : Dev nD) : Valuation τ sig (Elt F) :=
  Function.update (W9 m c) main_v14 ((dat1 (Ve1 m) adm1 c).arrAt 3 (cfg1 (adm1 (F := F))).N)
abbrev Ve2 : (c : Dev nD) → (b : Ref sig .tc) → Buf (Elt F) ((c : Thread nD τ).loc b) := fun c b => W10 m c b
def W11 (c : Dev nD) : Valuation τ sig (Elt F) :=
  Function.update (W10 m c) main_v15 ((dat2 (Ve2 m) adm2 c).arrAt 3 (cfg2 (adm2 (F := F))).N)
abbrev Ve3 : (c : Dev nD) → (b : Ref sig .tc) → Buf (Elt F) ((c : Thread nD τ).loc b) := fun c b => W11 m c b
def W12 (c : Dev nD) : Valuation τ sig (Elt F) :=
  Function.update (W11 m c) main_v16 ((dat3 (Ve3 m) adm3 c).arrAt 3 (cfg3 (adm3 (F := F))).N)
abbrev Ve4 : (c : Dev nD) → (b : Ref sig .tc) → Buf (Elt F) ((c : Thread nD τ).loc b) := fun c b => W12 m c b
def W13 (c : Dev nD) : Valuation τ sig (Elt F) :=
  Function.update (W12 m c) main_v17 ((dat4 (Ve4 m) adm4 c).arrAt 3 (cfg4 (adm4 (F := F))).N)
abbrev Ve5 : (c : Dev nD) → (b : Ref sig .tc) → Buf (Elt F) ((c : Thread nD τ).loc b) := fun c b => W13 m c b
def W14 (c : Dev nD) : Valuation τ sig (Elt F) :=
  Function.update (W13 m c) main_v18 ((dat5 (Ve5 m) adm5 c).arrAt 3 (cfg5 (adm5 (F := F))).N)

def outs : Outs (F := F) := fun _ r c => W14 m c r

/-- An update at one array leaves every other array as it was. -/
theorem W_of {V : Valuation τ sig (Elt F)} {r₀ r : Ref sig .tc} {x} (h : r ≠ r₀) : Function.update V r₀ x r = V r :=
  Function.update_of_ne (StableHlo.devRef_ne_of_ne h) _ _

theorem outs_9 (c : Dev nD) : outs m 9 main_v13 c = (dat0 (Ve0 m) c).arrAt 3 cfg0.N :=
  show W14 m c main_v13 = _ from (W_of (by decide)).trans <| (W_of (by decide)).trans <| (W_of (by decide)).trans <| (W_of (by decide)).trans <| (W_of (by decide)).trans <| Function.update_self ..
theorem outs_10 (c : Dev nD) : outs m 10 main_v14 c = (dat1 (Ve1 m) adm1 c).arrAt 3 (cfg1 (adm1 (F := F))).N :=
  show W14 m c main_v14 = _ from (W_of (by decide)).trans <| (W_of (by decide)).trans <| (W_of (by decide)).trans <| (W_of (by decide)).trans <| Function.update_self ..
theorem outs_11 (c : Dev nD) : outs m 11 main_v15 c = (dat2 (Ve2 m) adm2 c).arrAt 3 (cfg2 (adm2 (F := F))).N :=
  show W14 m c main_v15 = _ from (W_of (by decide)).trans <| (W_of (by decide)).trans <| (W_of (by decide)).trans <| Function.update_self ..
theorem outs_12 (c : Dev nD) : outs m 12 main_v16 c = (dat3 (Ve3 m) adm3 c).arrAt 3 (cfg3 (adm3 (F := F))).N :=
  show W14 m c main_v16 = _ from (W_of (by decide)).trans <| (W_of (by decide)).trans <| Function.update_self ..
theorem outs_13 (c : Dev nD) : outs m 13 main_v17 c = (dat4 (Ve4 m) adm4 c).arrAt 3 (cfg4 (adm4 (F := F))).N :=
  show W14 m c main_v17 = _ from (W_of (by decide)).trans <| Function.update_self ..
theorem outs_14 (c : Dev nD) : outs m 14 main_v18 c = (dat5 (Ve5 m) adm5 c).arrAt 3 (cfg5 (adm5 (F := F))).N :=
  show W14 m c main_v18 = _ from Function.update_self ..

theorem V9_eq (c : Dev nD) : V9 m (outs m) c = W9 m c := by
  show Function.update (V8 m c) _ (outs m 9 main_v13 c) = _
  rw [outs_9]; rfl
theorem V10_eq (c : Dev nD) : V10 m (outs m) c = W10 m c := by
  show Function.update (V9 m (outs m) c) _ (outs m 10 main_v14 c) = _
  rw [V9_eq, outs_10]; rfl
theorem V11_eq (c : Dev nD) : V11 m (outs m) c = W11 m c := by
  show Function.update (V10 m (outs m) c) _ (outs m 11 main_v15 c) = _
  rw [V10_eq, outs_11]; rfl
theorem V12_eq (c : Dev nD) : V12 m (outs m) c = W12 m c := by
  show Function.update (V11 m (outs m) c) _ (outs m 12 main_v16 c) = _
  rw [V11_eq, outs_12]; rfl
theorem V13_eq (c : Dev nD) : V13 m (outs m) c = W13 m c := by
  show Function.update (V12 m (outs m) c) _ (outs m 13 main_v17 c) = _
  rw [V12_eq, outs_13]; rfl
theorem V14_eq (c : Dev nD) : V14 m (outs m) c = W14 m c := by
  show Function.update (V13 m (outs m) c) _ (outs m 14 main_v18 c) = _
  rw [V13_eq, outs_14]; rfl

theorem Ve0_arg0 (c : Dev nD) : Ve0 m c main_arg0 = m ((c : Thread nD τ).loc main_arg0) := V8_main_arg0 m c
theorem Ve0_v10 (c : Dev nD) : Ve0 m c main_v10 = V8 m c main_v10 := rfl
theorem Ve0_v12 (c : Dev nD) : Ve0 m c main_v12 = V8 m c main_v12 := rfl
theorem Ve1_in (c : Dev nD) : Ve1 m c main_v13 = (dat0 (Ve0 m) c).arrAt 3 cfg0.N := Function.update_self ..
theorem Ve1_v6 (c : Dev nD) : Ve1 m c main_v6 = V8 m c main_v6 := W_of (by decide)
theorem Ve1_v9 (c : Dev nD) : Ve1 m c main_v9 = V8 m c main_v9 := W_of (by decide)
theorem Ve1_tbl (c : Dev nD) : Ve1 m c main_c_1 = fun idx => lit2 (S16x4.rowMajor idx) := (W_of (by decide)).trans (V8_main_c_1 m c)
theorem Ve2_in (c : Dev nD) : Ve2 m c main_v14 = (dat1 (Ve1 m) adm1 c).arrAt 3 (cfg1 (adm1 (F := F))).N := Function.update_self ..
theorem Ve2_v6 (c : Dev nD) : Ve2 m c main_v6 = V8 m c main_v6 := (W_of (by decide)).trans (Ve1_v6 m c)
theorem Ve2_v9 (c : Dev nD) : Ve2 m c main_v9 = V8 m c main_v9 := (W_of (by decide)).trans (Ve1_v9 m c)
theorem Ve2_tbl (c : Dev nD) : Ve2 m c main_c_1 = fun idx => lit2 (S16x4.rowMajor idx) := (W_of (by decide)).trans (Ve1_tbl m c)
theorem Ve3_in (c : Dev nD) : Ve3 m c main_v15 = (dat2 (Ve2 m) adm2 c).arrAt 3 (cfg2 (adm2 (F := F))).N := Function.update_self ..
theorem Ve3_v6 (c : Dev nD) : Ve3 m c main_v6 = V8 m c main_v6 := (W_of (by decide)).trans (Ve2_v6 m c)
theorem Ve3_v9 (c : Dev nD) : Ve3 m c main_v9 = V8 m c main_v9 := (W_of (by decide)).trans (Ve2_v9 m c)
theorem Ve3_tbl (c : Dev nD) : Ve3 m c main_c_1 = fun idx => lit2 (S16x4.rowMajor idx) := (W_of (by decide)).trans (Ve2_tbl m c)
theorem Ve4_in (c : Dev nD) : Ve4 m c main_v16 = (dat3 (Ve3 m) adm3 c).arrAt 3 (cfg3 (adm3 (F := F))).N := Function.update_self ..
theorem Ve4_v6 (c : Dev nD) : Ve4 m c main_v6 = V8 m c main_v6 := (W_of (by decide)).trans (Ve3_v6 m c)
theorem Ve4_v9 (c : Dev nD) : Ve4 m c main_v9 = V8 m c main_v9 := (W_of (by decide)).trans (Ve3_v9 m c)
theorem Ve4_tbl (c : Dev nD) : Ve4 m c main_c_1 = fun idx => lit2 (S16x4.rowMajor idx) := (W_of (by decide)).trans (Ve3_tbl m c)
theorem Ve5_in (c : Dev nD) : Ve5 m c main_v17 = (dat4 (Ve4 m) adm4 c).arrAt 3 (cfg4 (adm4 (F := F))).N := Function.update_self ..
theorem Ve5_v6 (c : Dev nD) : Ve5 m c main_v6 = V8 m c main_v6 := (W_of (by decide)).trans (Ve4_v6 m c)
theorem Ve5_v9 (c : Dev nD) : Ve5 m c main_v9 = V8 m c main_v9 := (W_of (by decide)).trans (Ve4_v9 m c)
theorem Ve5_tbl (c : Dev nD) : Ve5 m c main_c_1 = fun idx => lit2 (S16x4.rowMajor idx) := (W_of (by decide)).trans (Ve4_tbl m c)

theorem W14_main_v18 (c : Dev nD) : W14 m c main_v18 = (dat5 (Ve5 m) adm5 c).arrAt 3 (cfg5 (adm5 (F := F))).N := Function.update_self ..
theorem W14_main_arg0 (c : Dev nD) : W14 m c main_arg0 = m ((c : Thread nD τ).loc main_arg0) :=
  (congrFun (V14_eq m c) _).symm.trans (V14_main_arg0 m (outs m) c)
theorem W14_main_arg1 (c : Dev nD) : W14 m c main_arg1 = m ((c : Thread nD τ).loc main_arg1) :=
  (congrFun (V14_eq m c) _).symm.trans (V14_main_arg1 m (outs m) c)
theorem W14_main_arg2 (c : Dev nD) : W14 m c main_arg2 = m ((c : Thread nD τ).loc main_arg2) :=
  (congrFun (V14_eq m c) _).symm.trans (V14_main_arg2 m (outs m) c)

/-- The six regions' proof data, region `k` at `Ve k`. -/
def pdats : (p : Fin 6) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) adm1 c
  | ⟨2, _⟩ => fun c => dat2 (Ve2 m) adm2 c
  | ⟨3, _⟩ => fun c => dat3 (Ve3 m) adm3 c
  | ⟨4, _⟩ => fun c => dat4 (Ve4 m) adm4 c
  | ⟨5, _⟩ => fun c => dat5 (Ve5 m) adm5 c
abbrev 𝒱₀ : Variants := Variants.none
abbrev L : GSem nD τ sig → Finset Unit := fun _ => ∅
abbrev lv : GSem nD τ sig → Unit → ℕ := fun _ _ => 0
/-- The part of the thread state no region changes. -/
abbrev R (c : Dev nD) : sProp 𝕄 := iprop((∃ r, prngReg c r) ∗ ∃ W, owes (c : Thread nD τ) (0 : CellTallies nD τ sig Unit) W)

section Region
variable (p : Fin 6) (lf : Pipeline.PLaunchFacts (nD := nD) (τ := τ) (pcfgs (F := F)) p)
  (Vi Vo : Dev nD → Valuation τ sig (Elt F))
  (htbl : ∀ c k, Vi c ((pcfgs (F := F) p).pre.ref k) = (adm (F := F) p).1 k)

include lf htbl in
/-- Among the buffers that are no array of region `p`, its tables hold their admitted words (`htbl`); split them off. -/
theorem restSplit (c : Dev nD) :
    (Pipeline.unscopedRest (Ix := Unit) (Name := ℕ) (U := UR sig nD τ) (Lvl := ℕ) (Pipeline.pin (pcfgs (F := F)) adm p).spec c (fun b => Vi c b) : sProp 𝕄)
      = iprop(Pipeline.prefHeld (Ix := Unit) (Name := ℕ) (U := UR sig nD τ) (Lvl := ℕ) (pcfgs (F := F) p).pre c (fun _ => fullShare) (adm p).1
          ∗ Pipeline.unscopedRestP (Ix := Unit) (Name := ℕ) (U := UR sig nD τ) (Lvl := ℕ) (pcfgs (F := F) p).pre (Pipeline.pin (pcfgs (F := F)) adm p).spec c (fun b => Vi c b)) := by
  rw [← funext (htbl c)]; exact Pipeline.unscopedRest_split lf.pre c _

variable (w₀ : Fin (Pipeline.pin (pcfgs (F := F)) adm p).W)
  (hw : ∀ w, w ≠ w₀ → ((Pipeline.pin (pcfgs (F := F)) adm p).win w).isOut = false)
  (hA : ∀ c w, (pdats m p c).A w = Vi c (Pipeline.arrRef (Pipeline.pin (pcfgs (F := F)) adm p).spec w))
  (hVo : ∀ c, Vo c = Function.update (Vi c) (Pipeline.arrRef (Pipeline.pin (pcfgs (F := F)) adm p).spec w₀) ((pdats m p c).arrAt w₀ (Pipeline.pin (pcfgs (F := F)) adm p).N))

include lf hw hA hVo in
/-- By cases on `w = w₀`: `Vo` at the updated array, or at an array the update leaves alone (the arrays are distinct). -/
theorem hFOf (c : Dev nD) (w : Fin (Pipeline.pin (pcfgs (F := F)) adm p).W) :
    (pdats m p c).arrAt w (Pipeline.pin (pcfgs (F := F)) adm p).N = Vo c (Pipeline.arrRef (Pipeline.pin (pcfgs (F := F)) adm p).spec w) := by
  rw [hVo c]
  by_cases h : w = w₀
  · subst h; rw [Function.update_self]
  · rw [Function.update_of_ne (StableHlo.devRef_ne_of_ne fun e => h (lf.win.arr_inj e))]
    exact ((pdats m p c).arrAt_in w (hw w h) _).trans (hA c w)

include hVo in
theorem hrestOf (c : Dev nD) (b : Ref sig .tc) (hb : b ∉ Finset.univ.image (Pipeline.arrRef (Pipeline.pin (pcfgs (F := F)) adm p).spec)) : Vo c b = Vi c b := by
  rw [hVo c]
  exact Function.update_of_ne (StableHlo.devRef_ne_of_ne fun e => hb (Finset.mem_image.mpr ⟨w₀, Finset.mem_univ _, e.symm⟩)) _ _

variable
  (hbody : ∀ c, BodyObligation (pdats m p c) (defs₀ (F := F)) Variants.none () Set.univ)
  (hq : ∀ c w, (pdats m p c).q w = fullShare)
  (howed : ∀ c t, (pdats m p c).owed t = 0)
  (hrec : ∀ c t, (pdats m p c).recorded t = Set.univ)
  (hΦ : ∀ c t, (pdats m p c).Φ t ⊣⊢ iprop(Pipeline.ΦA (Pipeline.pin (pcfgs (F := F)) adm p).spec c
    ∗ Pipeline.prefHeld (Ix := Unit) (Name := ℕ) (U := UR sig nD τ) (Lvl := ℕ) (pcfgs (F := F) p).pre c (fun _ => fullShare) (adm p).1))

/-- Region `p` as a step from the valuation `Vi` to `Vo`: its arrays and tables are split out of `Vi` and put back at `Vo`. -/
def regOf : Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ R c)
  post c := iprop(StableHlo.held (c : Thread nD τ) (Pipeline.ucRefs τ sig) (Vo c) ∗ R c)
  X c := iprop(∃ r, prngReg c r)
  Y c := iprop((∃ r, prngReg c r) ∗ Pipeline.prefHeld (Ix := Unit) (Name := ℕ) (U := UR sig nD τ) (Lvl := ℕ) (pcfgs (F := F) p).pre c (fun _ => fullShare) (adm p).1)
  Z c := Pipeline.unscopedRestP (Ix := Unit) (Name := ℕ) (U := UR sig nD τ) (Lvl := ℕ) (pcfgs (F := F) p).pre (Pipeline.pin (pcfgs (F := F)) adm p).spec c (fun b => Vi c b)
  hentry c := by
    rw [Pipeline.ownSems0_none]
    have hsplit := Pipeline.arrays_of_unscopedBufs (p := p) (pcfgs (F := F)) adm (pdats m) lf.win lf.arr_whole c
      ((pdats m p c).share_full (hq c)) (fun b => Vi c b) (hA c)
    rw [Pipeline.unscopedBufs_held, restSplit p lf Vi htbl c] at hsplit
    iintro ⟨⟨Hub, Hp, HO⟩, -, -⟩
    ihave H := hsplit $$ Hub
    icases H with ⟨Ha, Htb, Hrest⟩
    imodintro
    isplitl [Ha]; · iexact Ha
    isplitl [Htb]; · iexact Htb
    isplitl [HO]
    · unfold Pipeline.Dat.owesAt Pipeline.owesWithin Pipeline.Dat.bound
      rw [howed c, hrec c]
      icases HO with ⟨%W, HO⟩; iexists W; isplitr; · ipureintro; exact fun _ _ => Or.inl trivial
      iexact HO
    isplitl [Hp]; · iexact Hp
    iexact Hrest
  hin c := by
    refine .trans ?_ (hΦ c 0).mpr
    unfold Pipeline.ΦA
    iintro ⟨Hp, Htb, Hr⟩
    isplitl [Hr Hp]
    · isplitl [Hr]; · iexact Hr
      iexact Hp
    iexact Htb
  hout c := by
    rw [Pipeline.ownSems0_none]
    refine (hΦ c _).mp.trans ?_
    unfold Pipeline.ΦA
    iintro ⟨⟨Hr, Hp⟩, Htb⟩
    isplitl [Hp Htb]
    · isplitl [Hp]; · iexact Hp
      iexact Htb
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Vi c b) (fun b => Vo c b) ((pdats m p c).arrAt · (Pipeline.pin (pcfgs (F := F)) adm p).N) (hFOf m p lf Vi Vo w₀ hw hA hVo c) (hrestOf m p Vi Vo w₀ hVo c)
    rw [Pipeline.unscopedBufs_held, restSplit p lf Vi htbl c] at hjoin
    iintro ⟨Ha, HO, ⟨Hp, Htb⟩, Hrest⟩
    imodintro
    isplitl [Ha Hrest Htb]
    · iapply hjoin
      isplitl [Ha]; · iexact Ha
      isplitl [Htb]; · iexact Htb
      iexact Hrest
    isplitl [Hp]; · iexact Hp
    unfold Pipeline.Dat.owesAt Pipeline.owesWithin
    rw [howed c]
    icases HO with ⟨%W, -, HO⟩; iexists W; iexact HO
end Region

/-! The six regions: region 0 has no table, so its invariant is the general one with an empty table part. -/

set_option backward.isDefEq.respectTransparency.types false in
def reg0 : Pipeline.RegionSeg (pcfgs (F := F)) adm (pdats m) () defs₀ 𝒱₀ L lv 0 :=
  regOf m 0 launch0 (V8 m) (W9 m) (fun _ k => k.elim0) 3 (show ∀ w : Fin 4, w ≠ 3 → (spec0 w).isOut = false by decide)
    (fun _ _ => rfl) (fun _ => rfl) (fun c => body_obligation0 (Ve0 m) c) (fun _ _ => rfl) (fun _ _ => rfl) (fun _ _ => rfl) (fun c _ => by unfold Pipeline.prefHeld; rw [show (Finset.univ : Finset (Fin 0)) = ∅ from rfl, BI.bigSep_empty]; exact sep_emp.symm)

set_option backward.isDefEq.respectTransparency.types false in
def reg1 : Pipeline.RegionSeg (pcfgs (F := F)) adm (pdats m) () defs₀ 𝒱₀ L lv 1 :=
  regOf m 1 launch1 (W9 m) (W10 m) (fun c => fun | ⟨0, _⟩ => Ve1_tbl m c) 3 (show ∀ w : Fin 4, w ≠ 3 → (spec1 w).isOut = false by decide)
    (fun _ _ => rfl) (fun _ => rfl) (fun c => body_obligation1 (Ve1 m) adm1 c) (fun _ _ => rfl) (fun _ _ => rfl) (fun _ _ => rfl) (fun _ _ => ⟨.rfl, .rfl⟩)

set_option backward.isDefEq.respectTransparency.types false in
def reg2 : Pipeline.RegionSeg (pcfgs (F := F)) adm (pdats m) () defs₀ 𝒱₀ L lv 2 :=
  regOf m 2 launch2 (W10 m) (W11 m) (fun c => fun | ⟨0, _⟩ => Ve2_tbl m c) 3 (show ∀ w : Fin 4, w ≠ 3 → (spec2 w).isOut = false by decide)
    (fun _ _ => rfl) (fun _ => rfl) (fun c => body_obligation2 (Ve2 m) adm2 c) (fun _ _ => rfl) (fun _ _ => rfl) (fun _ _ => rfl) (fun _ _ => ⟨.rfl, .rfl⟩)

set_option backward.isDefEq.respectTransparency.types false in
def reg3 : Pipeline.RegionSeg (pcfgs (F := F)) adm (pdats m) () defs₀ 𝒱₀ L lv 3 :=
  regOf m 3 launch3 (W11 m) (W12 m) (fun c => fun | ⟨0, _⟩ => Ve3_tbl m c) 3 (show ∀ w : Fin 4, w ≠ 3 → (spec3 w).isOut = false by decide)
    (fun _ _ => rfl) (fun _ => rfl) (fun c => body_obligation3 (Ve3 m) adm3 c) (fun _ _ => rfl) (fun _ _ => rfl) (fun _ _ => rfl) (fun _ _ => ⟨.rfl, .rfl⟩)

set_option backward.isDefEq.respectTransparency.types false in
def reg4 : Pipeline.RegionSeg (pcfgs (F := F)) adm (pdats m) () defs₀ 𝒱₀ L lv 4 :=
  regOf m 4 launch4 (W12 m) (W13 m) (fun c => fun | ⟨0, _⟩ => Ve4_tbl m c) 3 (show ∀ w : Fin 4, w ≠ 3 → (spec4 w).isOut = false by decide)
    (fun _ _ => rfl) (fun _ => rfl) (fun c => body_obligation4 (Ve4 m) adm4 c) (fun _ _ => rfl) (fun _ _ => rfl) (fun _ _ => rfl) (fun _ _ => ⟨.rfl, .rfl⟩)

set_option backward.isDefEq.respectTransparency.types false in
def reg5 : Pipeline.RegionSeg (pcfgs (F := F)) adm (pdats m) () defs₀ 𝒱₀ L lv 5 :=
  regOf m 5 launch5 (W13 m) (W14 m) (fun c => fun | ⟨0, _⟩ => Ve5_tbl m c) 3 (show ∀ w : Fin 4, w ≠ 3 → (spec5 w).isOut = false by decide)
    (fun _ _ => rfl) (fun _ => rfl) (fun c => body_obligation5 (Ve5 m) adm5 c) (fun _ _ => rfl) (fun _ _ => rfl) (fun _ _ => rfl) (fun _ _ => ⟨.rfl, .rfl⟩)

abbrev u₀ : UR sig nD τ := (initOf (Pipeline.cells (Pipeline.pin (pcfgs (F := F)) adm) (cellOf_inj adm)) (Pipeline.launchToks (Pipeline.pin (pcfgs (F := F)) adm) (cellOf_inj adm)))

/-- Every fair run of @main terminates with the three arguments unchanged: the conditional frame at the six region records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond m (EP := emb₁) (ι := ()) (𝒱₀ := 𝒱₀) (L := L) (lv := lv) (hL := fun _ _ => rfl) (ρ := ρ) (outs := outs m) (a := adm) (pdats := pdats m)
    (O₀ := 0) (G := fun _ => iprop(emp)) (u₀ := u₀)
    (hu₀ := by
      iintro Hu; imodintro
      isplitl [Hu]
      · iapply (show (ownU (u₀ (F := F)) : sProp 𝕄) ⊢ BI.own (emb₁ (u₀ (F := F))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE6 := fun c => by iintro ⟨-, HO⟩; iexact HO)
    (R0 := reg0 m) (hpre0 := fun c => by exact .rfl) (hpost0 := fun c => by rw [V9_eq m c]; exact .rfl)
    (R1 := reg1 m) (hpre1 := fun c => by rw [V9_eq m c]; exact .rfl) (hpost1 := fun c => by rw [V10_eq m c]; exact .rfl)
    (R2 := reg2 m) (hpre2 := fun c => by rw [V10_eq m c]; exact .rfl) (hpost2 := fun c => by rw [V11_eq m c]; exact .rfl)
    (R3 := reg3 m) (hpre3 := fun c => by rw [V11_eq m c]; exact .rfl) (hpost3 := fun c => by rw [V12_eq m c]; exact .rfl)
    (R4 := reg4 m) (hpre4 := fun c => by rw [V12_eq m c]; exact .rfl) (hpost4 := fun c => by rw [V13_eq m c]; exact .rfl)
    (R5 := reg5 m) (hpre5 := fun c => by rw [V13_eq m c]; exact .rfl) (hpost5 := fun c => by rw [V14_eq m c]; exact .rfl)

/-- info: 'Cert.KernelIdeal.Fr.frame' depends on axioms: [propext, Classical.choice, Quot.sound] -/
#guard_msgs in #print axioms frame

end Cert.KernelIdeal.Fr
end
-- ==== Proof.Spec.lean ====
import Idealize.ShloMosaic.PureOps.Ideal
import Idealize.ShloMosaic.Lib.ValueIdx

noncomputable section

namespace Cert.Spec

open scoped BigOperators

def first : Fin 16 → Fin 60 := ![0, 2, 5, 9, 13, 17, 21, 25, 29, 33, 37, 41, 45, 49, 53, 57]

def rows : Fin 60 → Fin 16 := ![0, 0, 1, 1, 1, 2, 2, 2, 2, 3, 3, 3, 3, 4, 4, 4, 4, 5, 5, 5, 5, 6, 6, 6, 6, 7, 7, 7, 7, 8, 8, 8, 8, 9, 9, 9, 9, 10, 10, 10, 10, 11, 11, 11, 11, 12, 12, 12, 12, 13, 13, 13, 13, 14, 14, 14, 14, 15, 15, 15]

def cols : Fin 60 → Fin 16 := ![0, 1, 0, 1, 2, 0, 1, 2, 3, 0, 2, 3, 4, 0, 3, 4, 5, 0, 4, 5, 6, 0, 5, 6, 7, 0, 6, 7, 8, 0, 7, 8, 9, 0, 8, 9, 10, 0, 9, 10, 11, 0, 10, 11, 12, 0, 11, 12, 13, 0, 12, 13, 14, 0, 13, 14, 15, 0, 14, 15]

def pair : Fin 16 → Fin 4 → Fin 61 := ![![0, 1, 60, 60], ![2, 3, 4, 60], ![5, 6, 7, 8], ![9, 10, 11, 12], ![13, 14, 15, 16], ![17, 18, 19, 20], ![21, 22, 23, 24], ![25, 26, 27, 28], ![29, 30, 31, 32], ![33, 34, 35, 36], ![37, 38, 39, 40], ![41, 42, 43, 44], ![45, 46, 47, 48], ![49, 50, 51, 52], ![53, 54, 55, 56], ![57, 58, 59, 60]]

def col : Fin 16 → Fin 4 → Fin 16 := ![![0, 1, 0, 0], ![0, 1, 2, 0], ![0, 1, 2, 3], ![0, 2, 3, 4], ![0, 3, 4, 5], ![0, 4, 5, 6], ![0, 5, 6, 7], ![0, 6, 7, 8], ![0, 7, 8, 9], ![0, 8, 9, 10], ![0, 9, 10, 11], ![0, 10, 11, 12], ![0, 11, 12, 13], ![0, 12, 13, 14], ![0, 13, 14, 15], ![0, 14, 15, 0]]

abbrev Act := Fin 16 → Fin 8192 → Fin 256 → EReal
abbrev Inp := Fin 8192 → Fin 256 → EReal
abbrev Wts := Fin 60 → Fin 256 → Fin 256 → EReal
abbrev Bias := Fin 60 → Fin 256 → EReal
abbrev WtsP := Fin 16 → Fin 4 → Fin 256 → Fin 256 → EReal
abbrev BiasP := Fin 16 → Fin 4 → Fin 256 → EReal

def S0 (X : Inp) (W : Wts) (b : Bias) : Act :=
  fun i r e => max ((∑ d : Fin 256, X r d * W (first i) e d) + b (first i) e) 0

def step (W : Wts) (b : Bias) (S : Act) : Act :=
  fun i r e => max (∑ p : Fin 60, if rows p = i then (∑ d : Fin 256, S (cols p) r d * W p e d) + b p e else 0) 0

def out (X : Inp) (W : Wts) (b : Bias) : Act :=
  step W b (step W b (step W b (step W b (step W b (S0 X W b)))))

def Wpad (W : Wts) : WtsP :=
  fun i s e d => if h : (pair i s).val < 60 then W ⟨(pair i s).val, h⟩ e d else 0

def bpad (b : Bias) : BiasP :=
  fun i s e => if h : (pair i s).val < 60 then b ⟨(pair i s).val, h⟩ e else 0

def slotDot (Wp : WtsP) (S : Act) (i : Fin 16) (s : Fin 4) (r : Fin 8192) (e : Fin 256) : EReal :=
  ∑ d : Fin 256, S (col i s) r d * Wp i s e d

def kstep (Wp : WtsP) (bp : BiasP) (S : Act) : Act :=
  fun i r e => max (slotDot Wp S i 0 r e + bp i 0 e + slotDot Wp S i 1 r e + bp i 1 e
    + slotDot Wp S i 2 r e + bp i 2 e + slotDot Wp S i 3 r e + bp i 3 e) 0

def kout (X : Inp) (W : Wts) (b : Bias) : Act :=
  kstep (Wpad W) (bpad b) (kstep (Wpad W) (bpad b) (kstep (Wpad W) (bpad b) (kstep (Wpad W) (bpad b)
    (kstep (Wpad W) (bpad b) (S0 X W b)))))

end Cert.Spec

end
-- ==== Proof.LibDotNT.lean ====
import Idealize.ShloMosaic.Lib.ValueIdx
import Idealize.ShloMosaic.PureOps.Ideal.Laws

open scoped BigOperators

noncomputable section

namespace Cert.LibDotNT

open Idealize.ShloMosaic Idealize.ShloMosaic.ValueIdx

variable {m k n : Nat}

theorem eq_transposedRhs (d : DotDims ⟨2, ![m, k]⟩ ⟨2, ![n, k]⟩ ⟨2, ![m, n]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs m k n := by
  cases d
  simp only at h1 h2 h3 h4 h5 h6
  subst h1 h2 h3 h4 h5 h6
  rfl

theorem lhs_0 (j : (⟨2, ![m, n]⟩ : Shape).Idx) (q : (DotDims.transposedRhs m k n).contr.Idx) :
    ((DotDims.transposedRhs m k n).lhsIdx j q 0).val = (j 0).val := by
  unfold DotDims.lhsIdx
  rw [dif_neg (show ¬(0 : Fin 2) ∈ (DotDims.transposedRhs m k n).lhsBatch from List.not_mem_nil),
    dif_pos (show (0 : Fin 2) ∈ (DotDims.transposedRhs m k n).lhsNonContracting from List.mem_singleton.mpr rfl)]
  rfl

theorem lhs_1 (j : (⟨2, ![m, n]⟩ : Shape).Idx) (q : (DotDims.transposedRhs m k n).contr.Idx) :
    ((DotDims.transposedRhs m k n).lhsIdx j q 1).val = (q ⟨0, Nat.one_pos⟩).val :=
  (DotDims.transposedRhs m k n).lhsIdx_val_of_single rfl j q

theorem rhs_0 (j : (⟨2, ![m, n]⟩ : Shape).Idx) (q : (DotDims.transposedRhs m k n).contr.Idx) :
    ((DotDims.transposedRhs m k n).rhsIdx j q 0).val = (j 1).val := by
  unfold DotDims.rhsIdx
  rw [dif_neg (show ¬(0 : Fin 2) ∈ (DotDims.transposedRhs m k n).rhsBatch from List.not_mem_nil),
    dif_pos (show (0 : Fin 2) ∈ (DotDims.transposedRhs m k n).rhsNonContracting from List.mem_singleton.mpr rfl)]
  rfl

theorem rhs_1 (j : (⟨2, ![m, n]⟩ : Shape).Idx) (q : (DotDims.transposedRhs m k n).contr.Idx) :
    ((DotDims.transposedRhs m k n).rhsIdx j q 1).val = (q ⟨0, Nat.one_pos⟩).val :=
  (DotDims.transposedRhs m k n).rhsIdx_val_of_single rfl j q

theorem sum_contr {φ₁ φ₂ : FTy} (A : FVec Ideal ⟨2, ![m, k]⟩ φ₁) (B : FVec Ideal ⟨2, ![n, k]⟩ φ₂) (a : Fin m) (b : Fin n) :
    (∑ q : (DotDims.transposedRhs m k n).contr.Idx,
        A ((DotDims.transposedRhs m k n).lhsIdx (ix2 a b) q) * B ((DotDims.transposedRhs m k n).rhsIdx (ix2 a b) q))
      = ∑ c : Fin k, A (ix2 a c) * B (ix2 b c) := by
  rw [← Equiv.sum_comp (contrEquiv1 (DotDims.transposedRhs m k n) k rfl rfl).symm]
  refine Finset.sum_congr rfl fun c _ => ?_
  have hk := contrEquiv1_symm_val (DotDims.transposedRhs m k n) k rfl rfl c
  have el : (DotDims.transposedRhs m k n).lhsIdx (ix2 a b) ((contrEquiv1 (DotDims.transposedRhs m k n) k rfl rfl).symm c)
      = ix2 a c := funext fun t => Fin.ext (by
    match t with
    | ⟨0, _⟩ => exact lhs_0 _ _
    | ⟨1, _⟩ => exact (lhs_1 _ _).trans hk)
  have er : (DotDims.transposedRhs m k n).rhsIdx (ix2 a b) ((contrEquiv1 (DotDims.transposedRhs m k n) k rfl rfl).symm c)
      = ix2 b c := funext fun t => Fin.ext (by
    match t with
    | ⟨0, _⟩ => exact rhs_0 _ _
    | ⟨1, _⟩ => exact (rhs_1 _ _).trans hk)
  rw [el, er]

theorem dotGeneral_nt_apply {φ₁ φ₂ : FTy} (d : DotDims ⟨2, ![m, k]⟩ ⟨2, ![n, k]⟩ ⟨2, ![m, n]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (A : FVec Ideal ⟨2, ![m, k]⟩ φ₁) (B : FVec Ideal ⟨2, ![n, k]⟩ φ₂) (a : Fin m) (b : Fin n) :
    Host.dotGeneral (F := Ideal) d prec A B (ix2 a b) = ∑ c : Fin k, A (ix2 a c) * B (ix2 b c) := by
  obtain rfl := eq_transposedRhs d h1 h2 h3 h4 h5 h6
  simp only [Host.dotGeneral]
  rw [Ideal.dotGeneral_apply]
  exact sum_contr A B a b

theorem matmul_nt_zero_apply {φ₁ φ₂ : FTy} (d : DotDims ⟨2, ![m, k]⟩ ⟨2, ![n, k]⟩ ⟨2, ![m, n]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (A : FVec Ideal ⟨2, ![m, k]⟩ φ₁) (B : FVec Ideal ⟨2, ![n, k]⟩ φ₂) (a : Fin m) (b : Fin n) :
    matmul (F := Ideal) d prec A B (constant ⟨2, ![m, n]⟩ .f32 0x00000000#32) (ix2 a b) = ∑ c : Fin k, A (ix2 a c) * B (ix2 b c) := by
  obtain rfl := eq_transposedRhs d h1 h2 h3 h4 h5 h6
  simp only [matmul]
  rw [Ideal.matmul_constant_zero_apply]
  exact sum_contr A B a b

end Cert.LibDotNT

end
-- ==== Proof.KI.Val0.lean ====
import proofs.«167552_j64123861729349_1_alg».proof.Proof.KI.R0
import proofs.«167552_j64123861729349_1_alg».proof.Proof.Spec
import proofs.«167552_j64123861729349_1_alg».proof.Proof.LibDotNT
import Idealize.ShloMosaic.Lib.Pipeline.Value
import Idealize.ShloMosaic.Lib.ValueIdx
import Idealize.ShloMosaic.PureOps.Ideal.Laws
set_option maxRecDepth 16384
noncomputable section
namespace Cert.KernelIdeal.Val
open Idealize.ShloMosaic Idealize.ShloMosaic.TcCoe Idealize.SL.Sem
open Idealize.ShloMosaic.Pipeline (Dat)
open Cert.KernelIdeal Cert.KernelIdeal.Gen
open scoped BigOperators

theorem addUnit_apply {α : Type} (v : S2048x256.Idx → α) (h : S2048x256.ShapeCasts S1x2048x256) (z : Fin 1) (p : Fin 2048) (q : Fin 256) :
    shapeCast S1x2048x256 v h (ValueIdx.ix3 z p q) = v (ValueIdx.ix2 p q) := by
  refine shapeCast_apply v h _ _ ?_
  rw [Shape.rowMajor_val_two, Shape.rowMajor_val_three]
  have hz : z.val = 0 := by omega
  show p.val * 256 + q.val = (z.val * 2048 + p.val) * 256 + q.val
  rw [hz]; omega

theorem dropUnit_apply {α : Type} (v : S1x256x256.Idx → α) (h : S1x256x256.ShapeCasts S256x256) (q d : Fin 256) :
    shapeCast S256x256 v h (ValueIdx.ix2 q d) = v (ValueIdx.ix3 0 q d) := by
  refine shapeCast_apply v h _ _ ?_
  rw [Shape.rowMajor_val_two, Shape.rowMajor_val_three]
  show ((0 : Fin 1).val * 256 + q.val) * 256 + d.val = q.val * 256 + d.val
  simp

theorem bias_apply {α : Type} (v : S1x1x256.Idx → α) (h1 : S1x1x256.ShapeCasts S256) (h2 : S256.ShapeCasts S1x256)
    (h3 : S1x256.Broadcasts S2048x256) (p : Fin 2048) (q : Fin 256) :
    broadcastTo S2048x256 (shapeCast S1x256 (shapeCast S256 v h1) h2) h3 (ValueIdx.ix2 p q) = v (ValueIdx.ix3 0 0 q) := by
  refine (broadcastTo_apply _ h3 (ValueIdx.ix2 p q) (ValueIdx.ix2 (0 : Fin 1) q) ?_).trans ?_
  · intro a
    match a with
    | ⟨0, _⟩ => rfl
    | ⟨1, _⟩ => rfl
  refine (shapeCast_apply _ h2 (ValueIdx.ix2 (0 : Fin 1) q) (ValueIdx.ix1 q) ?_).trans ?_
  · rw [Shape.rowMajor_val_two, Shape.rowMajor_val_one]
    show q.val = (0 : Fin 1).val * 256 + q.val
    simp
  refine shapeCast_apply v h1 (ValueIdx.ix1 q) (ValueIdx.ix3 0 0 q) ?_
  rw [Shape.rowMajor_val_three, Shape.rowMajor_val_one]
  show ((0 : Fin 1).val * 1 + (0 : Fin 1).val) * 256 + q.val = q.val
  simp

theorem pay_apply (x0 : Vec Ideal S2048x256 .f32) (x1 : Vec Ideal S1x256x256 .f32) (x2 : Vec Ideal S1x1x256 .f32)
    (z : Fin 1) (p : Fin 2048) (q : Fin 256) :
    (k0_pay1 x0 x1 x2 : Vec Ideal S1x2048x256 .f32) (ValueIdx.ix3 z p q)
      = max ((∑ d : Fin 256, x0 (ValueIdx.ix2 p d) * x1 (ValueIdx.ix3 0 q d)) + x2 (ValueIdx.ix3 0 0 q)) 0 := by
  unfold k0_pay1
  refine (addUnit_apply _ _ z p q).trans ?_
  show max (_ + _) _ = _
  refine congrArg₂ max (congrArg₂ (· + ·) ?_ ?_) Ideal.ofBits_zero_f32
  · refine (Cert.LibDotNT.matmul_nt_zero_apply (m := 2048) (k := 256) (n := 256) _ rfl rfl rfl rfl rfl rfl none _ _ p q).trans ?_
    refine Finset.sum_congr rfl fun d _ => ?_
    show x0 (ValueIdx.ix2 p d) * _ = _
    refine congrArg (x0 (ValueIdx.ix2 p d) * ·) ?_
    refine (ValueIdx.truncf_apply (ψ := .bf16) (φ := .f32) _ bitsLt_bf16_f32 (ValueIdx.ix2 q d)).trans ?_
    refine (dropUnit_apply _ _ q d).trans ?_
    exact congrFun (shapeCast_self x1 _) _
  · exact (bias_apply _ _ _ _ p q).trans (congrFun (shapeCast_self x2 _) _)

variable (V : (c : Dev nD) → (b : Ref sig .tc) → Buf (Elt Ideal) ((c : Thread nD τ).loc b))

abbrev arrX (c : Dev nD) : Vec Ideal S8192x256 .f32 := V c main_arg0
abbrev arrW (c : Dev nD) : Vec Ideal S16x256x256 .f32 := V c main_v10
abbrev arrB (c : Dev nD) : Vec Ideal S16x1x256 .f32 := V c main_v12

def G0 (X : Vec Ideal S8192x256 .f32) (W : Vec Ideal S16x256x256 .f32) (B : Vec Ideal S16x1x256 .f32) :
    Vec Ideal S16x8192x256 .f32 :=
  fun j => max ((∑ d : Fin 256, X (ValueIdx.ix2 (j 1) d) * W (ValueIdx.ix3 (j 0) (j 2) d)) + B (ValueIdx.ix3 (j 0) 0 (j 2))) 0

theorem idx_facts0 : ∀ t : Fin cfg0.N, win0_0.index t (0 : Fin 2) = t.val % 4 ∧ win0_0.index t (1 : Fin 2) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = 0 ∧ win0_2.index t (2 : Fin 3) = 0
    ∧ win0_3.index t (0 : Fin 3) = t.val / 4 ∧ win0_3.index t (1 : Fin 3) = t.val % 4 ∧ win0_3.index t (2 : Fin 3) = 0 :=
  (by decide +kernel : ∀ t : Fin grid0.N, _)

theorem lt64 (t : Fin cfg0.N) : t.val < 64 := lt_of_lt_of_eq t.isLt N_0

theorem iblk0_0_apply (c : Dev nD) (t : Fin cfg0.N) (p : Fin 2048) (d : Fin 256) :
    (Fr.iblk0 V c 0 t : Vec Ideal S2048x256 .f32) (ValueIdx.ix2 p d)
      = arrX V c (ValueIdx.ix2 ⟨2048 * (t.val % 4) + p.val, by have := lt64 t; omega⟩ d) := by
  obtain ⟨e0, e1, -⟩ := idx_facts0 t
  unfold Fr.iblk0
  rw [View.read_apply]
  show V c main_arg0 _ = V c main_arg0 _
  congr 1
  funext a; apply Fin.ext
  match a with
  | ⟨0, _⟩ => show win0_0.index t (0 : Fin 2) * 2048 + 1 * p.val = 2048 * (t.val % 4) + p.val; rw [e0]; omega
  | ⟨1, _⟩ => show win0_0.index t (1 : Fin 2) * 256 + 1 * d.val = d.val; rw [e1]; omega

theorem iblk0_1_apply (c : Dev nD) (t : Fin cfg0.N) (q d : Fin 256) :
    (Fr.iblk0 V c 1 t : Vec Ideal S1x256x256 .f32) (ValueIdx.ix3 0 q d)
      = arrW V c (ValueIdx.ix3 ⟨t.val / 4, by have := lt64 t; omega⟩ q d) := by
  obtain ⟨-, -, e0, e1, e2, -⟩ := idx_facts0 t
  unfold Fr.iblk0
  rw [View.read_apply]
  show V c main_v10 _ = V c main_v10 _
  congr 1
  funext a; apply Fin.ext
  match a with
  | ⟨0, _⟩ => show win0_1.index t (0 : Fin 3) * 1 + 1 * (0 : Fin 1).val = t.val / 4; rw [e0]; simp
  | ⟨1, _⟩ => show win0_1.index t (1 : Fin 3) * 256 + 1 * q.val = q.val; rw [e1]; omega
  | ⟨2, _⟩ => show win0_1.index t (2 : Fin 3) * 256 + 1 * d.val = d.val; rw [e2]; omega

theorem iblk0_2_apply (c : Dev nD) (t : Fin cfg0.N) (q : Fin 256) :
    (Fr.iblk0 V c 2 t : Vec Ideal S1x1x256 .f32) (ValueIdx.ix3 0 0 q)
      = arrB V c (ValueIdx.ix3 ⟨t.val / 4, by have := lt64 t; omega⟩ 0 q) := by
  obtain ⟨-, -, -, -, -, e0, e1, e2, -⟩ := idx_facts0 t
  unfold Fr.iblk0
  rw [View.read_apply]
  show V c main_v12 _ = V c main_v12 _
  congr 1
  funext a; apply Fin.ext
  match a with
  | ⟨0, _⟩ => show win0_2.index t (0 : Fin 3) * 1 + 1 * (0 : Fin 1).val = t.val / 4; rw [e0]; simp
  | ⟨1, _⟩ => show win0_2.index t (1 : Fin 3) * 1 + 1 * (0 : Fin 1).val = (0 : Fin 1).val; rw [e1]; simp
  | ⟨2, _⟩ => show win0_2.index t (2 : Fin 3) * 256 + 1 * q.val = q.val; rw [e2]; omega

theorem emb0_3 (t : Fin cfg0.N) (z : Fin 1) (p : Fin 2048) (q : Fin 256) :
    (((cfg0.win 3).blk t).view.emb (ValueIdx.ix3 z p q) : S16x8192x256.Idx)
      = ValueIdx.ix3 ⟨t.val / 4, by have := lt64 t; omega⟩ ⟨2048 * (t.val % 4) + p.val, by have := lt64 t; omega⟩ q := by
  obtain ⟨-, -, -, -, -, -, -, -, e0, e1, e2⟩ := idx_facts0 t
  funext a; apply Fin.ext
  match a with
  | ⟨0, _⟩ => show win0_3.index t (0 : Fin 3) * 1 + 1 * z.val = t.val / 4; rw [e0]; omega
  | ⟨1, _⟩ => show win0_3.index t (1 : Fin 3) * 2048 + 1 * p.val = 2048 * (t.val % 4) + p.val; rw [e1]; omega
  | ⟨2, _⟩ => show win0_3.index t (2 : Fin 3) * 256 + 1 * q.val = q.val; rw [e2]; omega

theorem flushed0_eq (c : Dev nD) (t : Fin cfg0.N) :
    (Fr.dat0 (F := Ideal) V c).flushed 3 t
      = ((cfg0.win 3).blk t).view.read (Elt Ideal) (G0 (arrX V c) (arrW V c) (arrB V c)) := by
  show (cfg0.win 3).cut (grid0.coords t) ((Fr.dat0 (F := Ideal) V c).after 3 t) = _
  rw [Fr.after0_3, Fr.out0_3_eq]
  refine funext fun (j : S1x2048x256.Idx) => ?_
  obtain ⟨z, p, q, rfl⟩ : ∃ (z : Fin 1) (p : Fin 2048) (q : Fin 256), j = ValueIdx.ix3 z p q := ⟨j 0, j 1, j 2, ValueIdx.eq_ix3 j⟩
  show (k0_pay1 (Fr.iblk0 V c 0 t) (Fr.iblk0 V c 1 t) (Fr.iblk0 V c 2 t) : Vec Ideal S1x2048x256 .f32) (ValueIdx.ix3 z p q)
    = G0 (arrX V c) (arrW V c) (arrB V c) (((cfg0.win 3).blk t).view.emb (ValueIdx.ix3 z p q))
  refine (pay_apply (Fr.iblk0 V c 0 t) (Fr.iblk0 V c 1 t) (Fr.iblk0 V c 2 t) z p q).trans ?_
  rw [emb0_3 t z p q]
  show _ = max ((∑ d : Fin 256, arrX V c (ValueIdx.ix2 ⟨2048 * (t.val % 4) + p.val, _⟩ d) * arrW V c (ValueIdx.ix3 ⟨t.val / 4, _⟩ q d))
      + arrB V c (ValueIdx.ix3 ⟨t.val / 4, _⟩ 0 q)) 0
  congr 1
  congr 1
  · exact Finset.sum_congr rfl fun d _ => by rw [iblk0_0_apply V c t p d, iblk0_1_apply V c t q d]
  · exact iblk0_2_apply V c t q

theorem mem_blk0_3 (t : Fin cfg0.N) (i : S16x8192x256.Idx) :
    i ∈ ((cfg0.win 3).blk t).view.set ↔ ∀ a : Fin 3, win0_3.index t a * S1x2048x256.size a ≤ (i a).val
      ∧ (i a).val < win0_3.index t a * S1x2048x256.size a + S1x2048x256.size a := by
  show i ∈ ((View.whole main_v13).slice (win0_3.rect t)).set ↔ _
  rw [View.set_slice_whole, Rect.mem_set_unit]
  exact Iff.rfl

theorem cover0_3 (i : S16x8192x256.Idx) :
    ∃ t : Fin cfg0.N, (cfg0.win 3).flush t = true ∧ i ∈ ((cfg0.win 3).blk t).view.set := by
  have h0 : (i 0).val < 16 := (i 0).isLt
  have h1 : (i 1).val < 8192 := (i 1).isLt
  have h2 : (i 2).val < 256 := (i 2).isLt
  have hN : (i 0).val * 4 + (i 1).val / 2048 < cfg0.N := by rw [show cfg0.N = 64 from N_0]; omega
  refine ⟨⟨(i 0).val * 4 + (i 1).val / 2048, hN⟩, flush0_3 _, ?_⟩
  obtain ⟨-, -, -, -, -, -, -, -, e0, e1, e2⟩ := idx_facts0 ⟨(i 0).val * 4 + (i 1).val / 2048, hN⟩
  rw [mem_blk0_3]
  intro a
  match a with
  | ⟨0, _⟩ =>
    show win0_3.index _ (0 : Fin 3) * 1 ≤ (i 0).val ∧ (i 0).val < win0_3.index _ (0 : Fin 3) * 1 + 1
    rw [e0]; show ((i 0).val * 4 + (i 1).val / 2048) / 4 * 1 ≤ _ ∧ _ < ((i 0).val * 4 + (i 1).val / 2048) / 4 * 1 + 1; omega
  | ⟨1, _⟩ =>
    show win0_3.index _ (1 : Fin 3) * 2048 ≤ (i 1).val ∧ (i 1).val < win0_3.index _ (1 : Fin 3) * 2048 + 2048
    rw [e1]; show ((i 0).val * 4 + (i 1).val / 2048) % 4 * 2048 ≤ _ ∧ _ < ((i 0).val * 4 + (i 1).val / 2048) % 4 * 2048 + 2048; omega
  | ⟨2, _⟩ =>
    show win0_3.index _ (2 : Fin 3) * 256 ≤ (i 2).val ∧ (i 2).val < win0_3.index _ (2 : Fin 3) * 256 + 256
    rw [e2]; omega

theorem arrAt0_eq (c : Dev nD) :
    (Fr.dat0 (F := Ideal) V c).arrAt 3 cfg0.N = G0 (arrX V c) (arrW V c) (arrB V c) :=
  (Fr.dat0 (F := Ideal) V c).arrAt_eq_of_cover 3 (G0 (arrX V c) (arrW V c) (arrB V c)) (fun t _ => flushed0_eq V c t) cover0_3

abbrev act0 (c : Dev nD) : Vec Ideal S16x8192x256 .f32 := (Fr.dat0 (F := Ideal) V c).arrAt 3 cfg0.N

theorem arrAt0_apply (c : Dev nD) (i : Fin 16) (r : Fin 8192) (e : Fin 256) :
    act0 V c (ValueIdx.ix3 i r e)
      = max ((∑ d : Fin 256, arrX V c (ValueIdx.ix2 r d) * arrW V c (ValueIdx.ix3 i e d)) + arrB V c (ValueIdx.ix3 i 0 e)) 0 := by
  show ((Fr.dat0 (F := Ideal) V c).arrAt 3 cfg0.N : Vec Ideal S16x8192x256 .f32) (ValueIdx.ix3 i r e) = _
  rw [arrAt0_eq V c]
  rfl

end Cert.KernelIdeal.Val
end
-- ==== Proof.LibGatherScatter.lean ====
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

def clampRow {n w : Nat} (N : Nat) (hN : 0 < N) (idx : IVec ⟨2, ![n, 1]⟩ w) (e : Fin n) : Fin N :=
  ⟨min (idx (ixP e)).toInt.toNat (N - 1), by omega⟩

def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

private theorem getElem_singleton_of_eq {β : Type} {l : List β} {b : β} (h : l = [b]) (k : Nat) (hk : k < l.length) :
    l[k] = b :=
  List.mem_singleton.1 (h ▸ List.getElem_mem hk)

theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil

  have hbd : d.batchDims = [0] := by
    show Shape.kept _ d.offsetDims = [0]
    rw [hoff]
    show (List.finRange 2).filter (fun a : Fin 2 => a ∉ [(1 : Fin 2)]) = [0]
    decide

  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp

  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

theorem ofFin_eq_ix1 {n : Nat} (p : Fin n) : Shape.Idx.ofFin p = ix1 p := by
  funext a
  match a with
  | ⟨0, _⟩ => rfl

theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by

  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]

  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]

  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by

  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.LibColumnTake.lean ====
import proofs.«167552_j64123861729349_1_alg».proof.Proof.LibGatherScatter
import Idealize.ShloMosaic.Lib.StableHlo.Predicate
import Idealize.ShloMosaic.Lib.ValueIdx
import Idealize.ShloMosaic.Lib.Pipeline.Value
import Idealize.ShloMosaic.PureOps.Reduce

open scoped BigOperators

namespace Idealize.ShloMosaic.RowOps

open Idealize.ShloMosaic Idealize.ShloMosaic.ValueIdx Idealize.ShloMosaic.StableHlo.Predicate

private theorem getElem_singleton_of_eq' {β : Type} {l : List β} {b : β} (h : l = [b]) (k : Nat) (hk : k < l.length) :
    l[k] = b :=
  List.mem_singleton.1 (h ▸ List.getElem_mem hk)

theorem gather_cols {α : Type} {N D n w : Nat} (d : GatherDims ⟨2, ![D, N]⟩ ⟨2, ![n, 1]⟩ ⟨2, ![D, n]⟩)
    (hoff : d.offsetDims = [0]) (hcoll : d.collapsedSliceDims = [1]) (hob : d.operandBatchingDims = [])
    (hsim : d.startIndexMap = [1]) (hivd : d.indexVectorDim = 1) (hss : d.sliceSizes = ![D, 1])
    (x : (⟨2, ![D, N]⟩ : Shape).Idx → α) (idx : IVec ⟨2, ![n, 1]⟩ w) (j : Fin D) (e : Fin n) (hN : 0 < N) :
    Host.gather d x idx (ix2 j e) = x (ix2 j (clampRow N hN idx e)) := by
  have hb : ∀ a : Fin 2, a ∉ d.operandBatchingDims := fun a => by rw [hob]; exact List.not_mem_nil

  have hbd : d.batchDims = [1] := by
    show Shape.kept _ d.offsetDims = [1]
    rw [hoff]
    show (List.finRange 2).filter (fun a : Fin 2 => a ∉ [(0 : Fin 2)]) = [1]
    decide

  have h1 : (d.operandIdx (ix2 j e) idx (1 : Fin 2)).val = (clampRow N hN idx e).val := by
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := by rw [hss]; rfl
    show d.start (ix2 j e) idx 1 + d.batchCoord (ix2 j e) 1 + d.offCoord (ix2 j e) 1 = min (idx (ixP e)).toInt.toNat (N - 1)
    rw [GatherDims.batchCoord_eq_zero _ _ _ (hb 1), GatherDims.offCoord_eq_zero _ _ _ hk, Nat.add_zero]
    unfold GatherDims.start
    rw [dif_pos hm]
    show min (idx _).toInt.toNat (N - d.sliceSizes 1) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 1 → ((ix2 j e : (⟨2, ![D, n]⟩ : Shape).Idx) X).val = e.val := fun X hX => by subst hX; rfl
      exact he _ (getElem_singleton_of_eq' hbd _ _)
    | ⟨1, _⟩ =>
      unfold GatherDims.siIdx
      rw [dif_pos (by rw [hivd])]
      apply Fin.ext
      show List.idxOf (1 : Fin 2) d.startIndexMap = 0
      rw [hsim]; simp

  have h0 : (d.operandIdx (ix2 j e) idx (0 : Fin 2)).val = j.val := by
    have hk : (0 : Fin 2) ∈ d.sKept := by rw [GatherDims.mem_sKept, hcoll, hob]; simp
    have hm : (0 : Fin 2) ∉ d.startIndexMap := by rw [hsim]; simp
    show d.start (ix2 j e) idx 0 + d.batchCoord (ix2 j e) 0 + d.offCoord (ix2 j e) 0 = j.val
    rw [GatherDims.batchCoord_eq_zero _ _ _ (hb 0), Nat.add_zero]
    unfold GatherDims.start GatherDims.offCoord
    rw [dif_neg hm, dif_pos hk, Nat.zero_add]
    have hj : ∀ X : Fin 2, X = 0 → ((ix2 j e : (⟨2, ![D, n]⟩ : Shape).Idx) X).val = j.val := fun X hX => by subst hX; rfl
    exact hj _ (getElem_singleton_of_eq' hoff _ _)
  unfold Host.gather
  congr 1
  funext a
  apply Fin.ext
  match a with
  | ⟨0, _⟩ => exact h0
  | ⟨1, _⟩ => exact h1

theorem wrap_word (N x : BitVec 32) (h0 : 0 ≤ x.toInt) :
    Scalar.select (IntOp.cmpi .slt x 0#32) (IntOp.addi x N) x = x := by
  have hc : IntOp.cmpi .slt x 0#32 = 0#1 := by
    show BitVec.ofBool (x.slt 0#32) = 0#1
    have hs : x.slt 0#32 = false := by
      have hz : (0#32 : BitVec 32).toInt = 0 := by decide
      simp only [BitVec.slt, hz, decide_eq_false_iff_not, not_lt]
      exact h0
    rw [hs]; rfl
  rw [hc]; exact select_zero _ _

theorem range_word (M x : BitVec 32) (h0 : 0 ≤ x.toInt) (h1 : x.toInt ≤ M.toInt) :
    IntOp.andi (IntOp.cmpi .sge x 0#32) (IntOp.cmpi .sle x M) = 1#1 := by
  have hz : (0#32 : BitVec 32).toInt = 0 := by decide
  have hge : IntOp.cmpi .sge x 0#32 = 1#1 := by
    show BitVec.ofBool ((0#32 : BitVec 32).sle x) = 1#1
    have hs : (0#32 : BitVec 32).sle x = true := by
      simp only [BitVec.sle, hz, decide_eq_true_eq]; exact h0
    rw [hs]; rfl
  have hle : IntOp.cmpi .sle x M = 1#1 := by
    show BitVec.ofBool (x.sle M) = 1#1
    have hs : x.sle M = true := by
      simp only [BitVec.sle, decide_eq_true_eq]; exact h1
    rw [hs]; rfl
  rw [hge, hle]; rfl

theorem fold_andi_one {ι : Type} (S : Finset ι) (f : ι → BitVec 1) (h : ∀ i ∈ S, f i = 1#1) :
    S.fold IntOp.andi 1#1 f = 1#1 := by
  induction S using Finset.cons_induction with
  | empty => rfl
  | cons a S ha ih =>
    rw [Finset.fold_cons, h a (Finset.mem_cons_self a S), ih (fun i hi => h i (Finset.mem_cons.2 (Or.inr hi)))]
    rfl

theorem reduce_andi_col1 {n : Nat} {u : Shape} (x : IVec ⟨2, ![n, 1]⟩ 1) (init : u.Idx → BitVec 1)
    (h : (⟨2, ![n, 1]⟩ : Shape).ReducesTo [1] ⟨1, ![n]⟩) (hu : 0 < u.numel) (hinit : init (Shape.Idx.first hu) = 1#1)
    (e : Fin n) (hx : x (ixP e) = 1#1) :
    Host.reduce IntOp.andi x init h hu (ix1 e) = 1#1 := by
  rw [Host.reduce_eq_fold, hinit]
  refine fold_andi_one _ _ fun i hi => ?_
  have hd : h.drop i = ix1 e := (Finset.mem_filter.1 hi).2
  have hv : (h.drop i 0 : Nat) = i 0 := Shape.ReducesTo.drop_apply_val h i 0
  have h0 : (i 0).val = e.val := by rw [← hv, hd]; rfl
  have hi' : i = ixP e := by
    funext a
    match a with
    | ⟨0, _⟩ => exact Fin.ext h0
    | ⟨1, _⟩ => exact Subsingleton.elim (α := Fin 1) _ _
  rw [hi']; exact hx

theorem bcast_along1 {α : Type} {D n : Nat} (hn : n ≠ 1) (h : (⟨1, ![n]⟩ : Shape).BroadcastsInDim ⟨2, ![D, n]⟩ ![1])
    (v : (⟨1, ![n]⟩ : Shape).Idx → α) (j : Fin D) (e : Fin n) :
    broadcastInDim ⟨2, ![D, n]⟩ ![1] h v (ix2 j e) = v (ix1 e) := by
  refine broadcastInDim_apply _ h v (ix2 j e) (ix1 e) fun a => ?_
  match a with
  | ⟨0, _⟩ =>
    show e.val = if n = 1 then 0 else e.val
    rw [if_neg hn]

theorem bcast_along0 {α : Type} {D n : Nat} (hn : n ≠ 1) (h : (⟨1, ![n]⟩ : Shape).BroadcastsInDim ⟨2, ![n, D]⟩ ![0])
    (v : (⟨1, ![n]⟩ : Shape).Idx → α) (e : Fin n) (f : Fin D) :
    broadcastInDim ⟨2, ![n, D]⟩ ![0] h v (ix2 e f) = v (ix1 e) := by
  refine broadcastInDim_apply _ h v (ix2 e f) (ix1 e) fun a => ?_
  match a with
  | ⟨0, _⟩ =>
    show e.val = if n = 1 then 0 else e.val
    rw [if_neg hn]

end Idealize.ShloMosaic.RowOps
-- ==== Proof.KI.Host.lean ====
import proofs.«167552_j64123861729349_1_alg».proof.Proof.Gen.KernelIdeal.Regions
import proofs.«167552_j64123861729349_1_alg».proof.Proof.Spec
import proofs.«167552_j64123861729349_1_alg».proof.Proof.LibGatherScatter
import proofs.«167552_j64123861729349_1_alg».proof.Proof.LibColumnTake
import Idealize.ShloMosaic.Lib.StableHlo.Run
import Idealize.ShloMosaic.Lib.StableHlo.Predicate
import Idealize.ShloMosaic.Lib.ValueIdx
import Idealize.ShloMosaic.Lib.Pipeline.Value
import Idealize.ShloMosaic.PureOps.Ideal.Laws
set_option maxRecDepth 16384
noncomputable section

namespace Cert.HostRead

open Idealize.ShloMosaic Idealize.ShloMosaic.ValueIdx Idealize.ShloMosaic.StableHlo.Predicate Idealize.ShloMosaic.RowOps

private theorem getElem_of_eq_singleton {β : Type} {l : List β} {b : β} (h : l = [b]) (k : Nat) (hk : k < l.length) :
    l[k] = b :=
  List.mem_singleton.1 (h ▸ List.getElem_mem hk)

private theorem getElem_of_eq_pair {β : Type} {l : List β} {a b : β} (h : l = [a, b]) (i : Nat) (hi : i < l.length) :
    (i = 0 → l[i] = a) ∧ (i = 1 → l[i] = b) := by
  subst h
  constructor
  · intro h0; subst h0; rfl
  · intro h1; subst h1; rfl

theorem gather_slabs {α : Type} {N D E n w : Nat} (d : GatherDims ⟨3, ![N, D, E]⟩ ⟨2, ![n, 1]⟩ ⟨3, ![n, D, E]⟩)
    (hoff : d.offsetDims = [1, 2]) (hcoll : d.collapsedSliceDims = [0]) (hob : d.operandBatchingDims = [])
    (hsim : d.startIndexMap = [0]) (hivd : d.indexVectorDim = 1) (hss : d.sliceSizes = ![1, D, E])
    (x : (⟨3, ![N, D, E]⟩ : Shape).Idx → α) (idx : IVec ⟨2, ![n, 1]⟩ w) (e : Fin n) (j : Fin D) (k : Fin E)
    (hN : 0 < N) :
    Host.gather d x idx (ix3 e j k) = x (ix3 (clampRow N hN idx e) j k) := by
  have hb : ∀ a : Fin 3, a ∉ d.operandBatchingDims := fun a => by rw [hob]; exact List.not_mem_nil

  have hbd : d.batchDims = [0] := by
    show Shape.kept _ d.offsetDims = [0]
    rw [hoff]
    show (List.finRange 3).filter (fun a : Fin 3 => a ∉ [(1 : Fin 3), 2]) = [0]
    decide

  have hsk : d.sKept = [1, 2] := by
    show Shape.kept _ (d.collapsedSliceDims ++ d.operandBatchingDims) = [1, 2]
    rw [hcoll, hob]
    show (List.finRange 3).filter (fun a : Fin 3 => a ∉ [(0 : Fin 3)]) = [1, 2]
    decide

  have h0 : (d.operandIdx (ix3 e j k) idx (0 : Fin 3)).val = (clampRow N hN idx e).val := by
    have hk : (0 : Fin 3) ∉ d.sKept := by rw [hsk]; simp
    have hm : (0 : Fin 3) ∈ d.startIndexMap := by rw [hsim]; exact List.mem_singleton.mpr rfl
    have hsl : d.sliceSizes 0 = 1 := by rw [hss]; rfl
    show d.start (ix3 e j k) idx 0 + d.batchCoord (ix3 e j k) 0 + d.offCoord (ix3 e j k) 0
      = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 3, X = 0 → ((ix3 e j k : (⟨3, ![n, D, E]⟩ : Shape).Idx) X).val = e.val :=
        fun X hX => by subst hX; rfl
      exact he _ (getElem_of_eq_singleton hbd _ _)
    | ⟨1, _⟩ =>
      unfold GatherDims.siIdx
      rw [dif_pos (by rw [hivd])]
      apply Fin.ext
      show List.idxOf (0 : Fin 3) d.startIndexMap = 0
      rw [hsim]; simp

  have h1 : (d.operandIdx (ix3 e j k) idx (1 : Fin 3)).val = j.val := by
    have hk : (1 : Fin 3) ∈ d.sKept := by rw [hsk]; simp
    have hm : (1 : Fin 3) ∉ d.startIndexMap := by rw [hsim]; simp
    show d.start (ix3 e j k) idx 1 + d.batchCoord (ix3 e j k) 1 + d.offCoord (ix3 e j k) 1 = j.val
    rw [GatherDims.batchCoord_eq_zero _ _ _ (hb 1), Nat.add_zero]
    unfold GatherDims.start GatherDims.offCoord
    rw [dif_neg hm, dif_pos hk, Nat.zero_add]
    have hj : ∀ X : Fin 3, X = 1 → ((ix3 e j k : (⟨3, ![n, D, E]⟩ : Shape).Idx) X).val = j.val :=
      fun X hX => by subst hX; rfl
    exact hj _ ((getElem_of_eq_pair hoff _ _).1 (by rw [hsk]; rfl))

  have h2 : (d.operandIdx (ix3 e j k) idx (2 : Fin 3)).val = k.val := by
    have hk : (2 : Fin 3) ∈ d.sKept := by rw [hsk]; simp
    have hm : (2 : Fin 3) ∉ d.startIndexMap := by rw [hsim]; simp
    show d.start (ix3 e j k) idx 2 + d.batchCoord (ix3 e j k) 2 + d.offCoord (ix3 e j k) 2 = k.val
    rw [GatherDims.batchCoord_eq_zero _ _ _ (hb 2), Nat.add_zero]
    unfold GatherDims.start GatherDims.offCoord
    rw [dif_neg hm, dif_pos hk, Nat.zero_add]
    have hj : ∀ X : Fin 3, X = 2 → ((ix3 e j k : (⟨3, ![n, D, E]⟩ : Shape).Idx) X).val = k.val :=
      fun X hX => by subst hX; rfl
    exact hj _ ((getElem_of_eq_pair hoff _ _).2 (by rw [hsk]; rfl))
  unfold Host.gather
  congr 1
  funext a
  apply Fin.ext
  match a with
  | ⟨0, _⟩ => exact h0
  | ⟨1, _⟩ => exact h1
  | ⟨2, _⟩ => exact h2

end Cert.HostRead

namespace Cert.HostRead

open Idealize.ShloMosaic Idealize.ShloMosaic.ValueIdx Idealize.ShloMosaic.StableHlo.Predicate Idealize.ShloMosaic.RowOps

def wrapCol {n : Nat} (h0 : (⟨0, ![]⟩ : Shape).BroadcastsInDim ⟨1, ![n]⟩ ![])
    (hc : (⟨1, ![n]⟩ : Shape).BroadcastsInDim ⟨2, ![n, 1]⟩ ![0]) (L : BitVec 32) (t : IVec ⟨1, ![n]⟩ 32) :
    IVec ⟨2, ![n, 1]⟩ 32 :=
  broadcastInDim ⟨2, ![n, 1]⟩ ![0] hc
    (select (cmpi .slt t (broadcastInDim ⟨1, ![n]⟩ ![] h0 (constantI ⟨0, ![]⟩ 32 0#32)))
      (addi t (broadcastInDim ⟨1, ![n]⟩ ![] h0 (constantI ⟨0, ![]⟩ 32 L))) t)

def inRange {n : Nat} (hz : (⟨0, ![]⟩ : Shape).BroadcastsInDim ⟨2, ![n, 1]⟩ ![])
    (h11 : (⟨1, ![1]⟩ : Shape).BroadcastsInDim ⟨2, ![1, 1]⟩ ![1])
    (h1n : (⟨2, ![1, 1]⟩ : Shape).BroadcastsInDim ⟨2, ![n, 1]⟩ ![0, 1])
    (hr : (⟨2, ![n, 1]⟩ : Shape).ReducesTo [1] ⟨1, ![n]⟩) (hu : 0 < (⟨0, ![]⟩ : Shape).numel) (M : BitVec 32)
    (col : IVec ⟨2, ![n, 1]⟩ 32) : IVec ⟨1, ![n]⟩ 1 :=
  Host.reduce IntOp.andi
    (andi (cmpi .sge col (broadcastInDim ⟨2, ![n, 1]⟩ ![] hz (constantI ⟨0, ![]⟩ 32 0#32)))
      (cmpi .sle col (broadcastInDim ⟨2, ![n, 1]⟩ ![0, 1] h1n (broadcastInDim ⟨2, ![1, 1]⟩ ![1] h11 (constantI ⟨1, ![1]⟩ 32 M)))))
    (constantI ⟨0, ![]⟩ 1 1#1) hr hu

theorem wrapCol_apply {n : Nat} (h0 : (⟨0, ![]⟩ : Shape).BroadcastsInDim ⟨1, ![n]⟩ ![])
    (hc : (⟨1, ![n]⟩ : Shape).BroadcastsInDim ⟨2, ![n, 1]⟩ ![0]) (L : BitVec 32) (t : IVec ⟨1, ![n]⟩ 32) (e : Fin n)
    (hpos : 0 ≤ (t (ix1 e)).toInt) : wrapCol h0 hc L t (ixP e) = t (ix1 e) := by
  unfold wrapCol
  rw [bcast_col1, ofFin_eq_ix1]
  exact wrap_word L (t (ix1 e)) hpos

theorem inRange_apply {n : Nat} (hz : (⟨0, ![]⟩ : Shape).BroadcastsInDim ⟨2, ![n, 1]⟩ ![])
    (h11 : (⟨1, ![1]⟩ : Shape).BroadcastsInDim ⟨2, ![1, 1]⟩ ![1])
    (h1n : (⟨2, ![1, 1]⟩ : Shape).BroadcastsInDim ⟨2, ![n, 1]⟩ ![0, 1])
    (hr : (⟨2, ![n, 1]⟩ : Shape).ReducesTo [1] ⟨1, ![n]⟩) (hu : 0 < (⟨0, ![]⟩ : Shape).numel) (M : BitVec 32)
    (col : IVec ⟨2, ![n, 1]⟩ 32) (e : Fin n) (h0 : 0 ≤ (col (ixP e)).toInt) (h1 : (col (ixP e)).toInt ≤ M.toInt) :
    inRange hz h11 h1n hr hu M col (ix1 e) = 1#1 := by
  unfold inRange
  refine reduce_andi_col1 _ _ hr hu rfl e ?_
  exact range_word M (col (ixP e)) h0 h1

end Cert.HostRead

namespace Cert.HostRead

open Idealize.ShloMosaic Idealize.ShloMosaic.ValueIdx Idealize.ShloMosaic.StableHlo.Predicate Idealize.ShloMosaic.RowOps

theorem bcast_along0_box {α : Type} {n D E : Nat} (hn : n ≠ 1)
    (h : (⟨1, ![n]⟩ : Shape).BroadcastsInDim ⟨3, ![n, D, E]⟩ ![0]) (v : (⟨1, ![n]⟩ : Shape).Idx → α)
    (e : Fin n) (j : Fin D) (k : Fin E) :
    broadcastInDim ⟨3, ![n, D, E]⟩ ![0] h v (ix3 e j k) = v (ix1 e) := by
  refine broadcastInDim_apply _ h v (ix3 e j k) (ix1 e) fun a => ?_
  match a with
  | ⟨0, _⟩ =>
    show e.val = if n = 1 then 0 else e.val
    rw [if_neg hn]

theorem take_rows_apply {α : Type} {N D n : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D]) (hn : n ≠ 1)
    (hb : (⟨1, ![n]⟩ : Shape).BroadcastsInDim ⟨2, ![n, D]⟩ ![0])
    (mask : IVec ⟨1, ![n]⟩ 1) (col : IVec ⟨2, ![n, 1]⟩ 32) (x : (⟨2, ![N, D]⟩ : Shape).Idx → α)
    (fill : (⟨2, ![n, D]⟩ : Shape).Idx → α) (e : Fin n) (j : Fin D) (r : Fin N)
    (hmask : mask (ix1 e) = 1#1) (hcol : (col (ixP e)).toInt = (r.val : Int)) :
    select (broadcastInDim ⟨2, ![n, D]⟩ ![0] hb mask) (Host.gather d x col) fill (ix2 e j) = x (ix2 r j) := by
  rw [select_apply, bcast_along0 hn, hmask, select_one, gather_rows d hoff hcoll hob hsim hivd hss x col e j r.pos,
    clampRow_of_lands r.pos col e r hcol]

theorem take_slabs_apply {α : Type} {N D E n : Nat} (d : GatherDims ⟨3, ![N, D, E]⟩ ⟨2, ![n, 1]⟩ ⟨3, ![n, D, E]⟩)
    (hoff : d.offsetDims = [1, 2]) (hcoll : d.collapsedSliceDims = [0]) (hob : d.operandBatchingDims = [])
    (hsim : d.startIndexMap = [0]) (hivd : d.indexVectorDim = 1) (hss : d.sliceSizes = ![1, D, E]) (hn : n ≠ 1)
    (hb : (⟨1, ![n]⟩ : Shape).BroadcastsInDim ⟨3, ![n, D, E]⟩ ![0])
    (mask : IVec ⟨1, ![n]⟩ 1) (col : IVec ⟨2, ![n, 1]⟩ 32) (x : (⟨3, ![N, D, E]⟩ : Shape).Idx → α)
    (fill : (⟨3, ![n, D, E]⟩ : Shape).Idx → α) (e : Fin n) (j : Fin D) (k : Fin E) (r : Fin N)
    (hmask : mask (ix1 e) = 1#1) (hcol : (col (ixP e)).toInt = (r.val : Int)) :
    select (broadcastInDim ⟨3, ![n, D, E]⟩ ![0] hb mask) (Host.gather d x col) fill (ix3 e j k) = x (ix3 r j k) := by
  rw [select_apply, bcast_along0_box hn, hmask, select_one, gather_slabs d hoff hcoll hob hsim hivd hss x col e j k r.pos,
    clampRow_of_lands r.pos col e r hcol]

end Cert.HostRead

namespace Cert.HostRead

open Idealize.ShloMosaic Idealize.ShloMosaic.ValueIdx

theorem concat_last_box {α : Type} {M N D E : Nat} (hM : M = N + 1)
    (h : Shape.Concatenates [(⟨3, ![N, D, E]⟩ : Shape), ⟨3, ![1, D, E]⟩] ⟨3, ![M, D, E]⟩ 0)
    (x₁ : (⟨3, ![N, D, E]⟩ : Shape).Idx → α) (x₂ : (⟨3, ![1, D, E]⟩ : Shape).Idx → α)
    (r : Fin M) (e : Fin D) (d : Fin E) :
    concatenate ⟨3, ![M, D, E]⟩ 0 [⟨⟨3, ![N, D, E]⟩, x₁⟩, ⟨⟨3, ![1, D, E]⟩, x₂⟩] h (ix3 r e d)
      = if hr : r.val < N then x₁ (ix3 ⟨r.val, hr⟩ e d) else x₂ (ix3 0 e d) := by
  split
  · next hr =>
    refine concatenate_pair_apply_left 0 x₁ x₂ h (ix3 r e d) rfl (ix3 ⟨r.val, hr⟩ e d) fun b => ?_
    match b with
    | ⟨0, _⟩ => rfl
    | ⟨1, _⟩ => rfl
    | ⟨2, _⟩ => rfl
  · next hr =>
    refine concatenate_pair_apply_right 0 x₁ x₂ h (ix3 r e d) rfl rfl (ix3 0 e d) (fun b hb => ?_) ?_
    · match b with
      | ⟨0, _⟩ => exact absurd rfl hb
      | ⟨1, _⟩ => rfl
      | ⟨2, _⟩ => rfl
    · show 0 + N = r.val
      have := r.isLt
      omega

theorem concat_last_rect {α : Type} {M N D : Nat} (hM : M = N + 1)
    (h : Shape.Concatenates [(⟨2, ![N, D]⟩ : Shape), ⟨2, ![1, D]⟩] ⟨2, ![M, D]⟩ 0)
    (x₁ : (⟨2, ![N, D]⟩ : Shape).Idx → α) (x₂ : (⟨2, ![1, D]⟩ : Shape).Idx → α)
    (r : Fin M) (e : Fin D) :
    concatenate ⟨2, ![M, D]⟩ 0 [⟨⟨2, ![N, D]⟩, x₁⟩, ⟨⟨2, ![1, D]⟩, x₂⟩] h (ix2 r e)
      = if hr : r.val < N then x₁ (ix2 ⟨r.val, hr⟩ e) else x₂ (ix2 0 e) := by
  split
  · next hr =>
    refine concatenate_pair_apply_left 0 x₁ x₂ h (ix2 r e) rfl (ix2 ⟨r.val, hr⟩ e) fun b => ?_
    match b with
    | ⟨0, _⟩ => rfl
    | ⟨1, _⟩ => rfl
  · next hr =>
    refine concatenate_pair_apply_right 0 x₁ x₂ h (ix2 r e) rfl rfl (ix2 0 e) (fun b hb => ?_) ?_
    · match b with
      | ⟨0, _⟩ => exact absurd rfl hb
      | ⟨1, _⟩ => rfl
    · show 0 + N = r.val
      have := r.isLt
      omega

end Cert.HostRead

namespace Cert.KernelIdeal.Val
open Idealize.ShloMosaic Idealize.ShloMosaic.TcCoe
open Idealize.ShloMosaic.StableHlo Idealize.ShloMosaic.StableHlo.Predicate Idealize.ShloMosaic.RowOps
open Cert.KernelIdeal Cert.KernelIdeal.Gen Cert.HostRead
variable {F : FTy → Type} [FloatOps F]

theorem take_bias16 (V : Valuation τ sig (Elt F)) :
    after hostOps0_6 V main_v11
      = select (broadcastInDim S16x256 ![0] bcast_S16_S16x256_0
            (inRange bcast_S_S16x1 bcast_S1_S1x1_1 bcast_S1x1_S16x1_0_1 reducesTo_S16x1_S16_d1 h_S_ 59#32
              (wrapCol bcast_S_S16 bcast_S16_S16x1_0 60#32 (V main_c))))
          (Host.gather gather_S60x256_S16x1_S16x256_1_0_n_n_0_1_1256 (V main_arg2)
            (wrapCol bcast_S_S16 bcast_S16_S16x1_0 60#32 (V main_c)))
          (broadcastInDim S16x256 ![] bcast_S_S16x256 (constant S_ .f32 0x7FC00000#32)) := by
  after_results_simp
  rfl

theorem take_wts16 (V : Valuation τ sig (Elt F)) :
    after hostOps0_5 V main_v10
      = select (broadcastInDim S16x256x256 ![0] bcast_S16_S16x256x256_0
            (inRange bcast_S_S16x1 bcast_S1_S1x1_1 bcast_S1x1_S16x1_0_1 reducesTo_S16x1_S16_d1 h_S_ 59#32
              (wrapCol bcast_S_S16 bcast_S16_S16x1_0 60#32 (V main_c))))
          (Host.gather gather_S60x256x256_S16x1_S16x256x256_12_0_n_n_0_1_1256256 (V main_arg1)
            (wrapCol bcast_S_S16 bcast_S16_S16x1_0 60#32 (V main_c)))
          (broadcastInDim S16x256x256 ![] bcast_S_S16x256x256 (constant S_ .f32 0x7FC00000#32)) := by
  after_results_simp
  rfl

theorem take_bias64 (V : Valuation τ sig (Elt F)) :
    after hostOps0_3 V main_v8
      = select (broadcastInDim S64x256 ![0] bcast_S64_S64x256_0
            (inRange bcast_S_S64x1 bcast_S1_S1x1_1 bcast_S1x1_S64x1_0_1 reducesTo_S64x1_S64_d1 h_S_ 60#32
              (wrapCol bcast_S_S64 bcast_S64_S64x1_0 61#32 (V main_v7))))
          (Host.gather gather_S61x256_S64x1_S64x256_1_0_n_n_0_1_1256 (V main_v3)
            (wrapCol bcast_S_S64 bcast_S64_S64x1_0 61#32 (V main_v7)))
          (broadcastInDim S64x256 ![] bcast_S_S64x256 (constant S_ .f32 0x7FC00000#32)) := by
  after_results_simp
  rfl

theorem take_wts64 (V : Valuation τ sig (Elt F)) :
    after hostOps0_1 V main_v5
      = select (broadcastInDim S64x256x256 ![0] bcast_S64_S64x256x256_0
            (inRange bcast_S_S64x1 bcast_S1_S1x1_1 bcast_S1x1_S64x1_0_1 reducesTo_S64x1_S64_d1 h_S_ 60#32
              (wrapCol bcast_S_S64 bcast_S64_S64x1_0 61#32 (V main_v4))))
          (Host.gather gather_S61x256x256_S64x1_S64x256x256_12_0_n_n_0_1_1256256 (V main_v1)
            (wrapCol bcast_S_S64 bcast_S64_S64x1_0 61#32 (V main_v4)))
          (broadcastInDim S64x256x256 ![] bcast_S_S64x256x256 (constant S_ .f32 0x7FC00000#32)) := by
  after_results_simp
  rfl

theorem first_c (V : Valuation τ sig (Elt F)) : after hostOps0 V main_c = fun i => lit0 (S16.rowMajor i) := by
  after_results_simp
  rfl

theorem first_c_0 (V : Valuation τ sig (Elt F)) : after hostOps0 V main_c_0 = fun i => lit1 (S16x4.rowMajor i) := by
  after_results_simp
  rfl

theorem first_v4 (V : Valuation τ sig (Elt F)) :
    after hostOps0 V main_v4 = shapeCast S64 (fun i => lit1 (S16x4.rowMajor i)) shapeCasts_S16x4_S64 := by
  after_results_simp
  rfl

theorem first_v1 (V : Valuation τ sig (Elt F)) :
    after hostOps0 V main_v1
      = concatenate S61x256x256 0 [⟨S60x256x256, V main_arg1⟩,
          ⟨S1x256x256, broadcastInDim S1x256x256 ![] bcast_S_S1x256x256 (constant S_ .f32 0x00000000#32)⟩]
          concatenates_S60x256x256_S1x256x256_S61x256x256_d0 := by
  after_results_simp
  rfl

theorem first_v3 (V : Valuation τ sig (Elt F)) :
    after hostOps0 V main_v3
      = concatenate S61x256 0 [⟨S60x256, V main_arg2⟩,
          ⟨S1x256, broadcastInDim S1x256 ![] bcast_S_S1x256 (constant S_ .f32 0x00000000#32)⟩]
          concatenates_S60x256_S1x256_S61x256_d0 := by
  after_results_simp
  rfl

theorem third_v6 (V : Valuation τ sig (Elt F)) :
    after hostOps0_2 V main_v6 = shapeCast S16x4x256x256 (V main_v5) shapeCasts_S64x256x256_S16x4x256x256 := by
  after_results_simp
  rfl

theorem third_v7 (V : Valuation τ sig (Elt F)) :
    after hostOps0_2 V main_v7 = shapeCast S64 (V main_c_0) shapeCasts_S16x4_S64 := by
  after_results_simp
  rfl

theorem fifth_v9 (V : Valuation τ sig (Elt F)) :
    after hostOps0_4 V main_v9 = shapeCast S16x4x1x256 (V main_v8) shapeCasts_S64x256_S16x4x1x256 := by
  after_results_simp
  rfl

theorem eighth_v12 (V : Valuation τ sig (Elt F)) :
    after hostOps0_7 V main_v12 = shapeCast S16x1x256 (V main_v11) shapeCasts_S16x256_S16x1x256 := by
  after_results_simp
  rfl

def slot (i : Fin 16) (s : Fin 4) : Fin 64 := ⟨i.val * 4 + s.val, by have := i.isLt; have := s.isLt; omega⟩

theorem lit0_first : ∀ i : Fin 16, (lit0 (S16.rowMajor (ValueIdx.ix1 i))).toInt = ((Spec.first i).val : Int) := by
  decide

theorem lit1_pair : ∀ (i : Fin 16) (s : Fin 4),
    (lit1 (S16x4.rowMajor (ValueIdx.ix2 i s))).toInt = ((Spec.pair i s).val : Int) := by
  decide

theorem flat_slot (i : Fin 16) (s : Fin 4) :
    shapeCast S64 (fun j => lit1 (S16x4.rowMajor j)) shapeCasts_S16x4_S64 (ValueIdx.ix1 (slot i s))
      = lit1 (S16x4.rowMajor (ValueIdx.ix2 i s)) := by
  refine shapeCast_apply (fun j => lit1 (S16x4.rowMajor j)) _ _ (ValueIdx.ix2 i s) ?_
  rw [Shape.rowMajor_val_two, Shape.rowMajor_val_one]
  rfl

theorem col16_toInt (i : Fin 16) :
    (wrapCol bcast_S_S16 bcast_S16_S16x1_0 60#32 (fun j => lit0 (S16.rowMajor j)) (ixP i)).toInt
      = ((Spec.first i).val : Int) := by
  have h := lit0_first i
  rw [wrapCol_apply bcast_S_S16 bcast_S16_S16x1_0 60#32 (fun j => lit0 (S16.rowMajor j)) i
    (by show 0 ≤ (lit0 (S16.rowMajor (ValueIdx.ix1 i))).toInt; rw [h]; exact Int.natCast_nonneg _)]
  exact h

theorem mask16_one (i : Fin 16) :
    inRange bcast_S_S16x1 bcast_S1_S1x1_1 bcast_S1x1_S16x1_0_1 reducesTo_S16x1_S16_d1 h_S_ 59#32
      (wrapCol bcast_S_S16 bcast_S16_S16x1_0 60#32 (fun j => lit0 (S16.rowMajor j))) (ValueIdx.ix1 i) = 1#1 := by
  have h59 : (59#32 : BitVec 32).toInt = 59 := by decide
  refine inRange_apply _ _ _ _ _ _ _ i ?_ ?_
  · rw [col16_toInt]; exact Int.natCast_nonneg _
  · rw [col16_toInt, h59]; have := (Spec.first i).isLt; omega

theorem col64_toInt (i : Fin 16) (s : Fin 4) :
    (wrapCol bcast_S_S64 bcast_S64_S64x1_0 61#32
        (shapeCast S64 (fun j => lit1 (S16x4.rowMajor j)) shapeCasts_S16x4_S64) (ixP (slot i s))).toInt
      = ((Spec.pair i s).val : Int) := by
  have h := lit1_pair i s
  rw [wrapCol_apply bcast_S_S64 bcast_S64_S64x1_0 61#32 _ (slot i s)
    (by rw [flat_slot, h]; exact Int.natCast_nonneg _), flat_slot]
  exact h

theorem mask64_one (i : Fin 16) (s : Fin 4) :
    inRange bcast_S_S64x1 bcast_S1_S1x1_1 bcast_S1x1_S64x1_0_1 reducesTo_S64x1_S64_d1 h_S_ 60#32
      (wrapCol bcast_S_S64 bcast_S64_S64x1_0 61#32
        (shapeCast S64 (fun j => lit1 (S16x4.rowMajor j)) shapeCasts_S16x4_S64)) (ValueIdx.ix1 (slot i s)) = 1#1 := by
  have h60 : (60#32 : BitVec 32).toInt = 60 := by decide
  refine inRange_apply _ _ _ _ _ _ _ (slot i s) ?_ ?_
  · rw [col64_toInt]; exact Int.natCast_nonneg _
  · rw [col64_toInt, h60]; have := (Spec.pair i s).isLt; omega

theorem wts16_apply (V : Valuation τ sig (Elt F)) (hc : V main_c = fun j => lit0 (S16.rowMajor j))
    (i : Fin 16) (e d : Fin 256) :
    after hostOps0_5 V main_v10 (ValueIdx.ix3 i e d) = V main_arg1 (ValueIdx.ix3 (Spec.first i) e d) := by
  rw [take_wts16, hc]
  exact take_slabs_apply _ rfl rfl rfl rfl rfl rfl (by decide) _ _ _ _ _ i e d (Spec.first i) (mask16_one i) (col16_toInt i)

theorem bias16_apply (V : Valuation τ sig (Elt F)) (hc : V main_c = fun j => lit0 (S16.rowMajor j))
    (i : Fin 16) (e : Fin 256) :
    after hostOps0_6 V main_v11 (ValueIdx.ix2 i e) = V main_arg2 (ValueIdx.ix2 (Spec.first i) e) := by
  rw [take_bias16, hc]
  exact take_rows_apply _ rfl rfl rfl rfl rfl rfl (by decide) _ _ _ _ _ i e (Spec.first i) (mask16_one i) (col16_toInt i)

theorem wts64_apply (V : Valuation τ sig (Elt F))
    (ht : V main_v4 = shapeCast S64 (fun j => lit1 (S16x4.rowMajor j)) shapeCasts_S16x4_S64)
    (i : Fin 16) (s : Fin 4) (e d : Fin 256) :
    after hostOps0_1 V main_v5 (ValueIdx.ix3 (slot i s) e d) = V main_v1 (ValueIdx.ix3 (Spec.pair i s) e d) := by
  rw [take_wts64, ht]
  exact take_slabs_apply _ rfl rfl rfl rfl rfl rfl (by decide) _ _ _ _ _ (slot i s) e d (Spec.pair i s)
    (mask64_one i s) (col64_toInt i s)

theorem bias64_apply (V : Valuation τ sig (Elt F))
    (ht : V main_v7 = shapeCast S64 (fun j => lit1 (S16x4.rowMajor j)) shapeCasts_S16x4_S64)
    (i : Fin 16) (s : Fin 4) (e : Fin 256) :
    after hostOps0_3 V main_v8 (ValueIdx.ix2 (slot i s) e) = V main_v3 (ValueIdx.ix2 (Spec.pair i s) e) := by
  rw [take_bias64, ht]
  exact take_rows_apply _ rfl rfl rfl rfl rfl rfl (by decide) _ _ _ _ _ (slot i s) e (Spec.pair i s)
    (mask64_one i s) (col64_toInt i s)

end Cert.KernelIdeal.Val

namespace Cert.KernelIdeal.Val
open Idealize.ShloMosaic Idealize.ShloMosaic.TcCoe
open Idealize.ShloMosaic.StableHlo Idealize.ShloMosaic.StableHlo.Predicate Idealize.ShloMosaic.RowOps
open Cert.KernelIdeal Cert.KernelIdeal.Gen Cert.HostRead

variable (m : (ℓ : Loc nD τ sig) → Buf (Elt Ideal) ℓ)

theorem V8_main_v10_apply (c : Dev nD) (i : Fin 16) (e d : Fin 256) :
    (V8 m c main_v10) (ValueIdx.ix3 i e d)
      = (m ((c : Thread nD τ).loc main_arg1)) (ValueIdx.ix3 (Spec.first i) e d) := by
  rw [V8_of m c main_v10 (by decide), V7_of m c main_v10 (by decide)]
  have hc : V5 m c main_c = fun j => lit0 (S16.rowMajor j) := by
    rw [V5_of m c main_c (by decide), V4_of m c main_c (by decide), V3_of m c main_c (by decide),
      V2_of m c main_c (by decide)]
    exact first_c _
  have ha : V5 m c main_arg1 = m ((c : Thread nD τ).loc main_arg1) := by
    rw [V5_of m c main_arg1 (by decide), V4_of m c main_arg1 (by decide), V3_of m c main_arg1 (by decide),
      V2_of m c main_arg1 (by decide), V1_of m c main_arg1 (by decide)]
  exact (wts16_apply (V5 m c) hc i e d).trans (congrFun ha _)

theorem V8_main_v12_apply (c : Dev nD) (i : Fin 16) (e : Fin 256) :
    (V8 m c main_v12) (ValueIdx.ix3 i 0 e)
      = (m ((c : Thread nD τ).loc main_arg2)) (ValueIdx.ix2 (Spec.first i) e) := by
  have hc : V6 m c main_c = fun j => lit0 (S16.rowMajor j) := by
    rw [V6_of m c main_c (by decide), V5_of m c main_c (by decide), V4_of m c main_c (by decide),
      V3_of m c main_c (by decide), V2_of m c main_c (by decide)]
    exact first_c _
  have ha : V6 m c main_arg2 = m ((c : Thread nD τ).loc main_arg2) := by
    rw [V6_of m c main_arg2 (by decide), V5_of m c main_arg2 (by decide), V4_of m c main_arg2 (by decide),
      V3_of m c main_arg2 (by decide), V2_of m c main_arg2 (by decide), V1_of m c main_arg2 (by decide)]
  have hk : (S16x256.rowMajor (ValueIdx.ix2 i e)).val = (S16x1x256.rowMajor (ValueIdx.ix3 i 0 e)).val := by
    rw [Shape.rowMajor_val_two, Shape.rowMajor_val_three]
    show i.val * 256 + e.val = (i.val * 1 + 0) * 256 + e.val
    omega
  show after hostOps0_7 (V7 m c) main_v12 _ = _
  rw [eighth_v12, shapeCast_apply (V7 m c main_v11) _ (ValueIdx.ix3 i 0 e) (ValueIdx.ix2 i e) hk]
  exact (bias16_apply (V6 m c) hc i e).trans (congrFun ha _)

theorem V8_main_v6_apply (c : Dev nD) (i : Fin 16) (s : Fin 4) (e d : Fin 256) :
    ((V8 m c main_v6) (ValueIdx.ix4 i s e d) : EReal)
      = if h : (Spec.pair i s).val < 60
          then ((m ((c : Thread nD τ).loc main_arg1)) (ValueIdx.ix3 ⟨(Spec.pair i s).val, h⟩ e d) : EReal)
          else (0 : EReal) := by
  rw [V8_of m c main_v6 (by decide), V7_of m c main_v6 (by decide), V6_of m c main_v6 (by decide),
    V5_of m c main_v6 (by decide), V4_of m c main_v6 (by decide)]
  have hk : (S64x256x256.rowMajor (ValueIdx.ix3 (slot i s) e d)).val
      = (S16x4x256x256.rowMajor (ValueIdx.ix4 i s e d)).val := by
    rw [Shape.rowMajor_val_three, Shape.rowMajor_val_four]
    rfl
  show after hostOps0_2 (V2 m c) main_v6 _ = _
  rw [third_v6, shapeCast_apply (V2 m c main_v5) _ (ValueIdx.ix4 i s e d) (ValueIdx.ix3 (slot i s) e d) hk]
  show after hostOps0_1 (V1 m c) main_v5 _ = _
  rw [wts64_apply (V1 m c) (first_v4 _) i s e d]
  show after hostOps0 (V0 m c) main_v1 _ = _
  rw [first_v1, concat_last_box rfl]
  split
  · rfl
  · exact Ideal.ofBits_zero_f32

theorem V8_main_v9_apply (c : Dev nD) (i : Fin 16) (s : Fin 4) (e : Fin 256) :
    ((V8 m c main_v9) (ValueIdx.ix4 i s 0 e) : EReal)
      = if h : (Spec.pair i s).val < 60
          then ((m ((c : Thread nD τ).loc main_arg2)) (ValueIdx.ix2 ⟨(Spec.pair i s).val, h⟩ e) : EReal)
          else (0 : EReal) := by
  rw [V8_of m c main_v9 (by decide), V7_of m c main_v9 (by decide), V6_of m c main_v9 (by decide)]
  have hk : (S64x256.rowMajor (ValueIdx.ix2 (slot i s) e)).val
      = (S16x4x1x256.rowMajor (ValueIdx.ix4 i s 0 e)).val := by
    rw [Shape.rowMajor_val_two, Shape.rowMajor_val_four]
    show (i.val * 4 + s.val) * 256 + e.val = ((i.val * 4 + s.val) * 1 + 0) * 256 + e.val
    omega
  show after hostOps0_4 (V4 m c) main_v9 _ = _
  rw [fifth_v9, shapeCast_apply (V4 m c main_v8) _ (ValueIdx.ix4 i s 0 e) (ValueIdx.ix2 (slot i s) e) hk]
  have ht : V3 m c main_v7 = shapeCast S64 (fun j => lit1 (S16x4.rowMajor j)) shapeCasts_S16x4_S64 := by
    show after hostOps0_2 (V2 m c) main_v7 = _
    rw [third_v7, V2_of m c main_c_0 (by decide)]
    exact congrArg (fun t => shapeCast S64 t shapeCasts_S16x4_S64) (first_c_0 _)
  show after hostOps0_3 (V3 m c) main_v8 _ = _
  rw [bias64_apply (V3 m c) ht i s e, V3_of m c main_v3 (by decide), V2_of m c main_v3 (by decide)]
  show after hostOps0 (V0 m c) main_v3 _ = _
  rw [first_v3, concat_last_rect rfl]
  split
  · rfl
  · exact Ideal.ofBits_zero_f32

end Cert.KernelIdeal.Val

end
-- ==== Proof.KI.ValOps.lean ====
import proofs.«167552_j64123861729349_1_alg».proof.Proof.Gen.KernelIdeal
import Idealize.ShloMosaic.Lib.Pipeline.Value
import Idealize.ShloMosaic.Lib.ValueIdx
set_option maxRecDepth 16384
noncomputable section
namespace Cert.KernelIdeal.ValOps
open Idealize.ShloMosaic
open Cert.KernelIdeal

theorem dropLead_apply {α : Type} (v : S1x2048x256.Idx → α) (h : S1x2048x256.ShapeCasts S2048x256) (p : Fin 2048) (q : Fin 256) :
    shapeCast S2048x256 v h (ValueIdx.ix2 p q) = v (ValueIdx.ix3 0 p q) := by
  refine shapeCast_apply v h _ _ ?_
  rw [Shape.rowMajor_val_two, Shape.rowMajor_val_three]
  show ((0 : Fin 1).val * 2048 + p.val) * 256 + q.val = p.val * 256 + q.val
  simp

theorem addLead_apply {α : Type} (v : S2048x256.Idx → α) (h : S2048x256.ShapeCasts S1x2048x256) (z : Fin 1) (p : Fin 2048) (q : Fin 256) :
    shapeCast S1x2048x256 v h (ValueIdx.ix3 z p q) = v (ValueIdx.ix2 p q) := by
  refine shapeCast_apply v h _ _ ?_
  rw [Shape.rowMajor_val_two, Shape.rowMajor_val_three]
  have hz : z.val = 0 := by omega
  show p.val * 256 + q.val = (z.val * 2048 + p.val) * 256 + q.val
  rw [hz]; omega

theorem dropTwo_apply {α : Type} (v : S1x1x256x256.Idx → α) (h : S1x1x256x256.ShapeCasts S256x256) (q d : Fin 256) :
    shapeCast S256x256 v h (ValueIdx.ix2 q d) = v (ValueIdx.ix4 0 0 q d) := by
  refine shapeCast_apply v h _ _ ?_
  rw [Shape.rowMajor_val_two, Shape.rowMajor_val_four]
  show (((0 : Fin 1).val * 1 + (0 : Fin 1).val) * 256 + q.val) * 256 + d.val = q.val * 256 + d.val
  simp

theorem rowDown_apply {α : Type} (v : S1x1x1x256.Idx → α) (h1 : S1x1x1x256.ShapeCasts S256) (h2 : S256.ShapeCasts S1x256)
    (h3 : S1x256.Broadcasts S2048x256) (p : Fin 2048) (q : Fin 256) :
    broadcastTo S2048x256 (shapeCast S1x256 (shapeCast S256 v h1) h2) h3 (ValueIdx.ix2 p q) = v (ValueIdx.ix4 0 0 0 q) := by
  refine (broadcastTo_apply _ h3 (ValueIdx.ix2 p q) (ValueIdx.ix2 (0 : Fin 1) q) ?_).trans ?_
  · intro a
    match a with
    | ⟨0, _⟩ => rfl
    | ⟨1, _⟩ => rfl
  refine (shapeCast_apply _ h2 (ValueIdx.ix2 (0 : Fin 1) q) (ValueIdx.ix1 q) ?_).trans ?_
  · rw [Shape.rowMajor_val_two, Shape.rowMajor_val_one]
    show q.val = (0 : Fin 1).val * 256 + q.val
    simp
  refine shapeCast_apply v h1 (ValueIdx.ix1 q) (ValueIdx.ix4 0 0 0 q) ?_
  rw [Shape.rowMajor_val_four, Shape.rowMajor_val_one]
  show (((0 : Fin 1).val * 1 + (0 : Fin 1).val) * 1 + (0 : Fin 1).val) * 256 + q.val = q.val
  simp

end Cert.KernelIdeal.ValOps
end
-- ==== Proof.KI.ValBody.lean ====
/-
  The iteration body shared by regions 1 to 5, at the ideal values: its three payloads read at an index, where a block
  sits in its array, one point's update, the grid's coordinates along a run of four points, and the run unrolled.
-/
import proofs.«167552_j64123861729349_1_alg».proof.Proof.KI.Body
import proofs.«167552_j64123861729349_1_alg».proof.Proof.KI.ValOps
import proofs.«167552_j64123861729349_1_alg».proof.Proof.LibDotNT
import Idealize.ShloMosaic.Lib.ValueIdx
import Idealize.ShloMosaic.PureOps.Ideal.Laws
set_option maxRecDepth 16384
noncomputable section

namespace Cert.KernelIdeal.Val
open Cert.KernelIdeal Cert.KernelIdeal.Gen Idealize.ShloMosaic
open scoped BigOperators

theorem pay1_apply (y : S1x2048x256.Idx) : (k1_pay1 (F := Ideal) : Vec Ideal S1x2048x256 .f32) y = 0 := by
  unfold k1_pay1
  exact Ideal.ofBits_zero_f32

/-- The body's update reads its blocks through re-layings that keep each entry, and multiplies rows against rows. -/
theorem pay2_apply (x0 : Vec Ideal S1x2048x256 .f32) (x1 : Vec Ideal S1x1x256x256 .f32) (x2 : Vec Ideal S1x1x1x256 .f32)
    (acc : Vec Ideal S1x2048x256 .f32) (z : Fin 1) (p : Fin 2048) (q : Fin 256) :
    (k1_pay2 x0 x1 x2 acc : Vec Ideal S1x2048x256 .f32) (ValueIdx.ix3 z p q)
      = acc (ValueIdx.ix3 0 p q) + (∑ d : Fin 256, x0 (ValueIdx.ix3 0 p d) * x1 (ValueIdx.ix4 0 0 q d)) + x2 (ValueIdx.ix4 0 0 0 q) := by
  unfold k1_pay2
  refine (ValOps.addLead_apply _ _ z p q).trans ?_
  show (_ + _) + _ = _
  refine congrArg₂ (· + ·) (congrArg₂ (· + ·) ?_ ?_) ?_
  · exact (ValOps.dropLead_apply _ _ p q).trans (congrFun (shapeCast_self acc _) _)
  · refine (Cert.LibDotNT.matmul_nt_zero_apply (m := 2048) (k := 256) (n := 256) _ rfl rfl rfl rfl rfl rfl none _ _ p q).trans ?_
    refine Finset.sum_congr rfl fun d _ => ?_
    refine congrArg₂ (· * ·) ?_ ?_
    · refine (ValueIdx.truncf_apply (ψ := .bf16) (φ := .f32) _ bitsLt_bf16_f32 (ValueIdx.ix2 p d)).trans ?_
      exact (ValOps.dropLead_apply _ _ p d).trans (congrFun (shapeCast_self x0 _) _)
    · refine (ValueIdx.truncf_apply (ψ := .bf16) (φ := .f32) _ bitsLt_bf16_f32 (ValueIdx.ix2 q d)).trans ?_
      exact (ValOps.dropTwo_apply _ _ q d).trans (congrFun (shapeCast_self x1 _) _)
  · exact (ValOps.rowDown_apply _ _ _ _ p q).trans (congrFun (shapeCast_self x2 _) _)

theorem pay3_apply (v : Vec Ideal S1x2048x256 .f32) (y : S1x2048x256.Idx) :
    (k1_pay3 v : Vec Ideal S1x2048x256 .f32) y = max (v y) 0 := by
  unfold k1_pay3
  show max _ _ = _
  exact congrArg₂ max (congrFun (shapeCast_self v _) _) Ideal.ofBits_zero_f32

abbrev rowOf (jb : Fin 4) (p : Fin 2048) : Fin 8192 := ⟨jb.val * 2048 + p.val, by have := jb.isLt; have := p.isLt; omega⟩

/-- `dotAt` is slot s's inner product at (i, r, e); `cellAt` adds the four slots' products and biases in order and takes the positive part. -/
abbrev dotAt (S : Vec Ideal S16x8192x256 .f32) (W : Vec Ideal S16x4x256x256 .f32) (colf : Fin 16 → Fin 4 → Fin 16)
    (i : Fin 16) (r : Fin 8192) (e : Fin 256) (s : Fin 4) : EReal :=
  ∑ d : Fin 256, S (ValueIdx.ix3 (colf i s) r d) * W (ValueIdx.ix4 i s e d)

abbrev cellAt (S : Vec Ideal S16x8192x256 .f32) (W : Vec Ideal S16x4x256x256 .f32) (B : Vec Ideal S16x4x1x256 .f32)
    (colf : Fin 16 → Fin 4 → Fin 16) (i : Fin 16) (r : Fin 8192) (e : Fin 256) : EReal :=
  max (dotAt S W colf i r e 0 + B (ValueIdx.ix4 i 0 0 e) + dotAt S W colf i r e 1 + B (ValueIdx.ix4 i 1 0 e)
    + dotAt S W colf i r e 2 + B (ValueIdx.ix4 i 2 0 e) + dotAt S W colf i r e 3 + B (ValueIdx.ix4 i 3 0 e)) 0

def roundOf (S : Vec Ideal S16x8192x256 .f32) (W : Vec Ideal S16x4x256x256 .f32) (B : Vec Ideal S16x4x1x256 .f32)
    (colf : Fin 16 → Fin 4 → Fin 16) : Vec Ideal S16x8192x256 .f32 :=
  fun j => cellAt S W B colf (j 0) (j 1) (j 2)

/-- Block (x, jb, 0) of a [16, 8192, 256] array cut in [1, 2048, 256] blocks holds row p of block jb at (z, p, q). -/
theorem emb_act {idx : Fin 3 → ℕ} {inb} (x : Fin 16) (jb : Fin 4) (h : idx = ![x.val, jb.val, 0]) (z : Fin 1) (p : Fin 2048) (q : Fin 256) :
    (Rect.unit (s := S16x8192x256) (fun ax => idx ax * S1x2048x256.size ax) S1x2048x256.size inb).emb (ValueIdx.ix3 z p q)
      = ValueIdx.ix3 x (rowOf jb p) q := by
  subst h
  funext ax
  apply Fin.ext
  match ax with
  | ⟨0, _⟩ => show x.val * 1 + 1 * z.val = x.val; omega
  | ⟨1, _⟩ => show jb.val * 2048 + 1 * p.val = jb.val * 2048 + p.val; omega
  | ⟨2, _⟩ => show 0 * 256 + 1 * q.val = q.val; omega

/-- Block (i, s, 0, 0) of a [16, 4, 256, 256] array cut in [1, 1, 256, 256] blocks holds entry (q, d) of matrix (i, s) at (0, 0, q, d). -/
theorem emb_wt {idx : Fin 4 → ℕ} {inb} (i : Fin 16) (s : Fin 4) (h : idx = ![i.val, s.val, 0, 0]) (q d : Fin 256) :
    (Rect.unit (s := S16x4x256x256) (fun ax => idx ax * S1x1x256x256.size ax) S1x1x256x256.size inb).emb (ValueIdx.ix4 0 0 q d)
      = ValueIdx.ix4 i s q d := by
  subst h
  funext ax
  apply Fin.ext
  match ax with
  | ⟨0, _⟩ => show i.val * 1 + 1 * 0 = i.val; omega
  | ⟨1, _⟩ => show s.val * 1 + 1 * 0 = s.val; omega
  | ⟨2, _⟩ => show 0 * 256 + 1 * q.val = q.val; omega
  | ⟨3, _⟩ => show 0 * 256 + 1 * d.val = d.val; omega

/-- Block (i, s, 0, 0) of a [16, 4, 1, 256] array cut in [1, 1, 1, 256] blocks holds entry q of row (i, s) at (0, 0, 0, q). -/
theorem emb_bias {idx : Fin 4 → ℕ} {inb} (i : Fin 16) (s : Fin 4) (h : idx = ![i.val, s.val, 0, 0]) (q : Fin 256) :
    (Rect.unit (s := S16x4x1x256) (fun ax => idx ax * S1x1x1x256.size ax) S1x1x1x256.size inb).emb (ValueIdx.ix4 0 0 0 q)
      = ValueIdx.ix4 i s 0 q := by
  subst h
  funext ax
  apply Fin.ext
  match ax with
  | ⟨0, _⟩ => show i.val * 1 + 1 * 0 = i.val; omega
  | ⟨1, _⟩ => show s.val * 1 + 1 * 0 = s.val; omega
  | ⟨2, _⟩ => show 0 * 1 + 1 * 0 = 0; omega
  | ⟨3, _⟩ => show 0 * 256 + 1 * q.val = q.val; omega

/-- One point's update over any running block, each of its three blocks read where its index places it in its array. -/
theorem update_of (S : Vec Ideal S16x8192x256 .f32) (W : Vec Ideal S16x4x256x256 .f32) (B : Vec Ideal S16x4x1x256 .f32)
    {i0 : Fin 3 → ℕ} {i1 i2 : Fin 4 → ℕ} {inb0 inb1 inb2} (col i : Fin 16) (jb s : Fin 4)
    (e0 : i0 = ![col.val, jb.val, 0]) (e1 : i1 = ![i.val, s.val, 0, 0]) (e2 : i2 = ![i.val, s.val, 0, 0])
    (acc : Vec Ideal S1x2048x256 .f32) (z : Fin 1) (p : Fin 2048) (q : Fin 256) :
    (k1_pay2 (fun j => S ((Rect.unit (s := S16x8192x256) (fun ax => i0 ax * S1x2048x256.size ax) S1x2048x256.size inb0).emb j))
        (fun j => W ((Rect.unit (s := S16x4x256x256) (fun ax => i1 ax * S1x1x256x256.size ax) S1x1x256x256.size inb1).emb j))
        (fun j => B ((Rect.unit (s := S16x4x1x256) (fun ax => i2 ax * S1x1x1x256.size ax) S1x1x1x256.size inb2).emb j)) acc
        : Vec Ideal S1x2048x256 .f32) (ValueIdx.ix3 z p q)
      = acc (ValueIdx.ix3 0 p q) + (∑ d : Fin 256, S (ValueIdx.ix3 col (rowOf jb p) d) * W (ValueIdx.ix4 i s q d)) + B (ValueIdx.ix4 i s 0 q) := by
  refine (pay2_apply _ _ _ acc z p q).trans ?_
  refine congrArg₂ (· + ·) (congrArg₂ (· + ·) rfl ?_) (congrArg B (emb_bias i s e2 q))
  exact Finset.sum_congr rfl fun d _ => congrArg₂ (· * ·) (congrArg S (emb_act col jb e0 0 p d)) (congrArg W (emb_wt i s e1 q d))

theorem coords_mod : ∀ t : Fin grid1.N, (grid1.coords t 2).val = t.val % 4 := by decide +kernel

theorem coords_prev : ∀ t : Fin grid1.N, t.val % 4 ≠ 0 → ∀ h : t.val - 1 < grid1.N,
    (grid1.coords ⟨t.val - 1, h⟩ 0).val = (grid1.coords t 0).val ∧ (grid1.coords ⟨t.val - 1, h⟩ 1).val = (grid1.coords t 1).val := by
  decide +kernel

theorem coords_pt : ∀ (i : Fin 16) (jb : Fin 4) (s : Fin 4) (h : (i.val * 4 + jb.val) * 4 + s.val < grid1.N),
    (grid1.coords ⟨(i.val * 4 + jb.val) * 4 + s.val, h⟩ 0).val = i.val ∧ (grid1.coords ⟨(i.val * 4 + jb.val) * 4 + s.val, h⟩ 1).val = jb.val := by
  decide +kernel

/-- Over a run of four points the block starts at zero, gains each slot's product and bias, and ends with its positive part. -/
theorem unroll (o : (n : ℕ) → n < grid1.N → Vec Ideal S1x2048x256 .f32) (b0 : Fin grid1.N → Vec Ideal S1x2048x256 .f32)
    (b1 : Fin grid1.N → Vec Ideal S1x1x256x256 .f32) (b2 : Fin grid1.N → Vec Ideal S1x1x1x256 .f32)
    (S : Vec Ideal S16x8192x256 .f32) (W : Vec Ideal S16x4x256x256 .f32) (B : Vec Ideal S16x4x1x256 .f32) (colf : Fin 16 → Fin 4 → Fin 16)
    (ho : ∀ t : Fin grid1.N, o t.val t.isLt
      = Fr.stepOf (b0 t) (b1 t) (b2 t) t.val (o (t.val - 1) (Nat.lt_of_le_of_lt (Nat.sub_le _ _) t.isLt)))
    (hupd : ∀ (t : Fin grid1.N) (i : Fin 16) (jb s : Fin 4), (grid1.coords t 0).val = i.val → (grid1.coords t 1).val = jb.val →
      (grid1.coords t 2).val = s.val → ∀ (acc : Vec Ideal S1x2048x256 .f32) (z : Fin 1) (p : Fin 2048) (q : Fin 256),
      (k1_pay2 (b0 t) (b1 t) (b2 t) acc : Vec Ideal S1x2048x256 .f32) (ValueIdx.ix3 z p q)
        = acc (ValueIdx.ix3 0 p q) + dotAt S W colf i (rowOf jb p) q s + B (ValueIdx.ix4 i s 0 q))
    (t : Fin grid1.N) (h3 : t.val % 4 = 3) {idx : Fin 3 → ℕ} {inb}
    (h : idx = ![(grid1.coords t 0).val, (grid1.coords t 1).val, 0]) (j : S1x2048x256.Idx) :
    o t.val t.isLt j
      = roundOf S W B colf ((Rect.unit (s := S16x8192x256) (fun ax => idx ax * S1x2048x256.size ax) S1x2048x256.size inb).emb j) := by
  obtain ⟨z, p, q, rfl⟩ : ∃ (z : Fin 1) (p : Fin 2048) (q : Fin 256), j = ValueIdx.ix3 z p q := ⟨j 0, j 1, j 2, ValueIdx.eq_ix3 j⟩
  suffices key : ∀ (i : Fin 16) (jb : Fin 4), (grid1.coords t 0).val = i.val → (grid1.coords t 1).val = jb.val →
      o t.val t.isLt (ValueIdx.ix3 z p q) = cellAt S W B colf i (rowOf jb p) q from
    (key ⟨_, (grid1.coords t 0).isLt⟩ ⟨_, (grid1.coords t 1).isLt⟩ rfl rfl).trans
      (congrArg (roundOf S W B colf) (emb_act _ _ h z p q)).symm
  intro i jb hi hj
  have hB : ∀ (n : ℕ) (l : n < grid1.N), ¬n % 4 = 0 → ¬n % 4 = 3 →
      o n l = k1_pay2 (b0 ⟨n, l⟩) (b1 ⟨n, l⟩) (b2 ⟨n, l⟩) (o (n - 1) (Nat.lt_of_le_of_lt (Nat.sub_le _ _) l)) := fun n l h0 h3 => by
    rw [ho ⟨n, l⟩, Fr.stepOf, if_neg h0, if_neg h3]
  have l1 : t.val - 1 < grid1.N := Nat.lt_of_le_of_lt (Nat.sub_le _ _) t.isLt
  have l2 : t.val - 1 - 1 < grid1.N := Nat.lt_of_le_of_lt (Nat.sub_le _ _) l1
  have l3 : t.val - 1 - 1 - 1 < grid1.N := Nat.lt_of_le_of_lt (Nat.sub_le _ _) l2
  obtain ⟨a1, c1⟩ := coords_prev t (by omega) l1
  obtain ⟨a2, c2⟩ := coords_prev ⟨t.val - 1, l1⟩ (by show (t.val - 1) % 4 ≠ 0; omega) l2
  obtain ⟨a3, c3⟩ := coords_prev ⟨t.val - 1 - 1, l2⟩ (by show (t.val - 1 - 1) % 4 ≠ 0; omega) l3
  have s0 := coords_mod t
  have s1 := coords_mod ⟨t.val - 1, l1⟩
  have s2 := coords_mod ⟨t.val - 1 - 1, l2⟩
  have s3 := coords_mod ⟨t.val - 1 - 1 - 1, l3⟩
  dsimp only at a2 c2 a3 c3 s1 s2 s3
  rw [ho t, Fr.stepOf, if_neg (show ¬t.val % 4 = 0 by omega), if_pos h3]
  refine (pay3_apply _ _).trans (congrArg (max · 0) ?_)
  refine (hupd t i jb 3 hi hj (by rw [s0]; exact h3) _ z p q).trans ?_
  refine congrArg₂ (· + ·) (congrArg₂ (· + ·) ?_ rfl) rfl
  refine (congrFun (hB _ l1 (by omega) (by omega)) _).trans ?_
  refine (hupd ⟨t.val - 1, l1⟩ i jb 2 (a1.trans hi) (c1.trans hj) (by rw [s1]; show (t.val - 1) % 4 = 2; omega) _ 0 p q).trans ?_
  refine congrArg₂ (· + ·) (congrArg₂ (· + ·) ?_ rfl) rfl
  refine (congrFun (hB _ l2 (by omega) (by omega)) _).trans ?_
  refine (hupd ⟨t.val - 1 - 1, l2⟩ i jb 1 (a2.trans (a1.trans hi)) (c2.trans (c1.trans hj)) (by rw [s2]; show (t.val - 1 - 1) % 4 = 1; omega) _ 0 p q).trans ?_
  refine congrArg₂ (· + ·) (congrArg₂ (· + ·) ?_ rfl) rfl
  refine (congrFun ((ho ⟨_, l3⟩).trans (by rw [Fr.stepOf, if_pos (show (t.val - 1 - 1 - 1) % 4 = 0 by omega)])) _).trans ?_
  refine (hupd ⟨t.val - 1 - 1 - 1, l3⟩ i jb 0 (a3.trans (a2.trans (a1.trans hi))) (c3.trans (c2.trans (c1.trans hj))) (by rw [s3]; show (t.val - 1 - 1 - 1) % 4 = 0; omega) _ 0 p q).trans ?_
  rw [pay1_apply, zero_add]

/-- Every index (i, r, e) of the array lies in the block of the point (i, r / 2048, 3), which closes a run. -/
theorem cover_act (i : S16x8192x256.Idx) : ∃ t : Fin grid1.N, t.val % 4 = 3 ∧ ∀ idx : Fin 3 → ℕ,
    idx = ![(grid1.coords t 0).val, (grid1.coords t 1).val, 0] → ∀ ax : Fin 3, idx ax * S1x2048x256.size ax ≤ (i ax).val
      ∧ (i ax).val < idx ax * S1x2048x256.size ax + S1x2048x256.size ax := by
  have h0 : (i 0).val < 16 := (i 0).isLt
  have h1 : (i 1).val < 8192 := (i 1).isLt
  have h2 : (i 2).val < 256 := (i 2).isLt
  have hq : (i 1).val / 2048 < 4 := by omega
  have hN : ((i 0).val * 4 + (i 1).val / 2048) * 4 + 3 < grid1.N := by show _ < 256; omega
  obtain ⟨c0, c1⟩ : (grid1.coords ⟨_, hN⟩ 0).val = (i 0).val ∧ (grid1.coords ⟨_, hN⟩ 1).val = (i 1).val / 2048 :=
    coords_pt ⟨(i 0).val, h0⟩ ⟨(i 1).val / 2048, hq⟩ 3 hN
  refine ⟨⟨_, hN⟩, by show (((i 0).val * 4 + (i 1).val / 2048) * 4 + 3) % 4 = 3; omega, fun idx h ax => ?_⟩
  subst h
  rw [c0, c1]
  match ax with
  | ⟨0, _⟩ => show (i 0).val * 1 ≤ (i 0).val ∧ (i 0).val < (i 0).val * 1 + 1; omega
  | ⟨1, _⟩ => show (i 1).val / 2048 * 2048 ≤ (i 1).val ∧ (i 1).val < (i 1).val / 2048 * 2048 + 2048; omega
  | ⟨2, _⟩ => show 0 * 256 ≤ (i 2).val ∧ (i 2).val < 0 * 256 + 256; omega

end Cert.KernelIdeal.Val
end
-- ==== Proof.KI.Val1.lean ====
/-
  Region 1 (custom_call 1) at the ideal values: its result at (i, r, e) is the positive part of the sum over the slots s of
  row r of the activation's column-block `colf i s` (the table's word at (i, s)) against row e of weight (i, s), plus bias (i, s) at e.
-/
import proofs.«167552_j64123861729349_1_alg».proof.Proof.KI.R1
import proofs.«167552_j64123861729349_1_alg».proof.Proof.KI.ValBody
import Idealize.ShloMosaic.Lib.Pipeline.Value
set_option maxRecDepth 16384
noncomputable section

namespace Cert.KernelIdeal.Val
open Cert.KernelIdeal Cert.KernelIdeal.Gen Idealize.ShloMosaic Idealize.ShloMosaic.TcCoe Idealize.SL.Sem
open scoped BigOperators

variable (V : (c : Dev nD) → (b : Ref sig .tc) → Buf (Elt Ideal) ((c : Thread nD τ).loc b))
variable (a : (pcfg1 (F := Ideal)).Adm)

private theorem idx_facts1 : ∀ t : Fin grid1.N,
    cc1_transform_1 (grid1.coords t) = ![(grid1.coords t 0).val, (grid1.coords t 2).val, 0, 0]
    ∧ cc1_transform_2 (grid1.coords t) = ![(grid1.coords t 0).val, (grid1.coords t 2).val, 0, 0]
    ∧ cc1_transform_3 (grid1.coords t) = ![(grid1.coords t 0).val, (grid1.coords t 1).val, 0] := by decide +kernel

/-- Window 0 is placed through the table: at the point (i, jb, s) its block index is (the word at (i, s), jb, 0). -/
private theorem idx0_1 (t : Fin grid1.N) (i : Fin 16) (s : Fin 4) (hi : (grid1.coords t 0).val = i.val) (hs : (grid1.coords t 2).val = s.val) :
    ((cfg1 a).win 0).index t = ![(a.1 0 (ValueIdx.ix2 i s)).toNat, (grid1.coords t 1).val, 0] := by
  funext ax
  match ax with
  | ⟨0, _⟩ =>
    show (a.1 0 ((Rect.unit (s := S16x4) (k1_off1 (grid1.coords t)) S1x1.size (k1_off1_inb (grid1.coords t))).emb (Shape.Idx.first (numel1_S1x1.symm ▸ Nat.one_pos)))).toNat = _
    refine congrArg (fun j => (a.1 0 j).toNat) ?_
    funext bx
    apply Fin.ext
    rw [Rect.emb_apply]
    show k1_off1 (grid1.coords t) bx + 1 * 0 = _
    rw [k1_off1_eq]
    match bx with
    | ⟨0, _⟩ => show (grid1.coords t 0).val + 1 * 0 = i.val; omega
    | ⟨1, _⟩ => show (grid1.coords t 2).val + 1 * 0 = s.val; omega
  | ⟨1, _⟩ =>
    show (BitVec.ofNat 32 (grid1.coords t 1).val).toNat = (grid1.coords t 1).val
    rw [BitVec.toNat_ofNat]
    exact Nat.mod_eq_of_lt (by have h4 : (grid1.coords t 1).val < 4 := (grid1.coords t 1).isLt; omega)
  | ⟨2, _⟩ => rfl

abbrev arrS1 (c : Dev nD) : Vec Ideal S16x8192x256 .f32 := V c (Pipeline.arrRef spec1 0)
abbrev arrW1 (c : Dev nD) : Vec Ideal S16x4x256x256 .f32 := V c (Pipeline.arrRef spec1 1)
abbrev arrB1 (c : Dev nD) : Vec Ideal S16x4x1x256 .f32 := V c (Pipeline.arrRef spec1 2)

variable (colf : Fin 16 → Fin 4 → Fin 16)

/-- At a point that closes a run of four, the output block is the round's result read over that block. -/
private theorem flushed1_eq (hcol : ∀ (i : Fin 16) (s : Fin 4), (a.1 0 (ValueIdx.ix2 i s)).toNat = (colf i s).val)
    (c : Dev nD) (t : Fin (cfg1 a).N) (hf : ((cfg1 a).win 3).flush t = true) :
    (Fr.dat1 (F := Ideal) V a c).flushed 3 t
      = (((cfg1 a).win 3).blk t).view.read (Elt Ideal) (roundOf (arrS1 V c) (arrW1 V c) (arrB1 V c) colf) := by
  show ((cfg1 a).win 3).cut (grid1.coords t) ((Fr.dat1 (F := Ideal) V a c).after 3 t) = _
  rw [Fr.after1_3]
  exact funext (unroll (Fr.outsAt1 V a c) (fun t => Fr.iblk1 V a c 0 t) (fun t => Fr.iblk1 V a c 1 t) (fun t => Fr.iblk1 V a c 2 t)
    (arrS1 V c) (arrW1 V c) (arrB1 V c) colf (Fr.outsAt1_eq V a c)
    (fun t i jb s hi hj hs => update_of _ _ _ (colf i s) i jb s (by rw [idx0_1 a t i s hi hs, hcol i s, hj])
      (by rw [← hi, ← hs]; exact (idx_facts1 t).1) (by rw [← hi, ← hs]; exact (idx_facts1 t).2.1)) t ((Fr.flush1_3 a t).mp hf) (idx_facts1 t).2.2)

/-- The blocks of the run-closing points cover the result array. -/
private theorem cover1_3 (i : S16x8192x256.Idx) :
    ∃ t : Fin (cfg1 a).N, ((cfg1 a).win 3).flush t = true ∧ i ∈ (((cfg1 a).win 3).blk t).view.set := by
  obtain ⟨t, h3, h⟩ := cover_act i
  refine ⟨t, (Fr.flush1_3 a t).mpr h3, ?_⟩
  rw [show (((cfg1 a).win 3).blk t).view.set = (((cfg1 a).win 3).rect t).set from View.set_slice_whole main_v14 _]
  exact Rect.mem_set_unit.mpr (h _ (idx_facts1 t).2.2)

private theorem arrAt1_eq (hcol : ∀ (i : Fin 16) (s : Fin 4), (a.1 0 (ValueIdx.ix2 i s)).toNat = (colf i s).val) (c : Dev nD) :
    (Fr.dat1 (F := Ideal) V a c).arrAt 3 (cfg1 a).N = roundOf (arrS1 V c) (arrW1 V c) (arrB1 V c) colf :=
  (Fr.dat1 (F := Ideal) V a c).arrAt_eq_of_cover 3 _ (fun t hf => flushed1_eq V a colf hcol c t hf) (cover1_3 a)

abbrev act1 (c : Dev nD) : Vec Ideal S16x8192x256 .f32 := (Fr.dat1 (F := Ideal) V a c).arrAt 3 (cfg1 a).N

/-- The region's result at (i, r, e): the index lies in the block of a run-closing point, which leaves the round's value there. -/
theorem arrAt1_apply (hcol : ∀ (i : Fin 16) (s : Fin 4), (a.1 0 (ValueIdx.ix2 i s)).toNat = (colf i s).val)
    (c : Dev nD) (i : Fin 16) (r : Fin 8192) (e : Fin 256) :
    act1 V a c (ValueIdx.ix3 i r e)
      = max ((∑ d : Fin 256, arrS1 V c (ValueIdx.ix3 (colf i 0) r d) * arrW1 V c (ValueIdx.ix4 i 0 e d)) + arrB1 V c (ValueIdx.ix4 i 0 0 e)
        + (∑ d : Fin 256, arrS1 V c (ValueIdx.ix3 (colf i 1) r d) * arrW1 V c (ValueIdx.ix4 i 1 e d)) + arrB1 V c (ValueIdx.ix4 i 1 0 e)
        + (∑ d : Fin 256, arrS1 V c (ValueIdx.ix3 (colf i 2) r d) * arrW1 V c (ValueIdx.ix4 i 2 e d)) + arrB1 V c (ValueIdx.ix4 i 2 0 e)
        + (∑ d : Fin 256, arrS1 V c (ValueIdx.ix3 (colf i 3) r d) * arrW1 V c (ValueIdx.ix4 i 3 e d)) + arrB1 V c (ValueIdx.ix4 i 3 0 e)) 0 := by
  show ((Fr.dat1 (F := Ideal) V a c).arrAt 3 (cfg1 a).N : Vec Ideal S16x8192x256 .f32) (ValueIdx.ix3 i r e) = _
  rw [arrAt1_eq V a colf hcol c]
  rfl

end Cert.KernelIdeal.Val
end
-- ==== Proof.KI.Val2.lean ====
/-
  Region 1 (custom_call 1) at the ideal values: its result at (i, r, e) is the positive part of the sum over the slots s of
  row r of the activation's column-block `colf i s` (the table's word at (i, s)) against row e of weight (i, s), plus bias (i, s) at e.
-/
import proofs.«167552_j64123861729349_1_alg».proof.Proof.KI.R2
import proofs.«167552_j64123861729349_1_alg».proof.Proof.KI.ValBody
import Idealize.ShloMosaic.Lib.Pipeline.Value
set_option maxRecDepth 16384
noncomputable section

namespace Cert.KernelIdeal.Val
open Cert.KernelIdeal Cert.KernelIdeal.Gen Idealize.ShloMosaic Idealize.ShloMosaic.TcCoe Idealize.SL.Sem
open scoped BigOperators

variable (V : (c : Dev nD) → (b : Ref sig .tc) → Buf (Elt Ideal) ((c : Thread nD τ).loc b))
variable (a : (pcfg2 (F := Ideal)).Adm)

private theorem idx_facts1 : ∀ t : Fin grid2.N,
    cc2_transform_1 (grid2.coords t) = ![(grid2.coords t 0).val, (grid2.coords t 2).val, 0, 0]
    ∧ cc2_transform_2 (grid2.coords t) = ![(grid2.coords t 0).val, (grid2.coords t 2).val, 0, 0]
    ∧ cc2_transform_3 (grid2.coords t) = ![(grid2.coords t 0).val, (grid2.coords t 1).val, 0] := by decide +kernel

/-- Window 0 is placed through the table: at the point (i, jb, s) its block index is (the word at (i, s), jb, 0). -/
private theorem idx0_1 (t : Fin grid2.N) (i : Fin 16) (s : Fin 4) (hi : (grid2.coords t 0).val = i.val) (hs : (grid2.coords t 2).val = s.val) :
    ((cfg2 a).win 0).index t = ![(a.1 0 (ValueIdx.ix2 i s)).toNat, (grid2.coords t 1).val, 0] := by
  funext ax
  match ax with
  | ⟨0, _⟩ =>
    show (a.1 0 ((Rect.unit (s := S16x4) (k2_off1 (grid2.coords t)) S1x1.size (k2_off1_inb (grid2.coords t))).emb (Shape.Idx.first (numel1_S1x1.symm ▸ Nat.one_pos)))).toNat = _
    refine congrArg (fun j => (a.1 0 j).toNat) ?_
    funext bx
    apply Fin.ext
    rw [Rect.emb_apply]
    show k2_off1 (grid2.coords t) bx + 1 * 0 = _
    rw [k2_off1_eq]
    match bx with
    | ⟨0, _⟩ => show (grid2.coords t 0).val + 1 * 0 = i.val; omega
    | ⟨1, _⟩ => show (grid2.coords t 2).val + 1 * 0 = s.val; omega
  | ⟨1, _⟩ =>
    show (BitVec.ofNat 32 (grid2.coords t 1).val).toNat = (grid2.coords t 1).val
    rw [BitVec.toNat_ofNat]
    exact Nat.mod_eq_of_lt (by have h4 : (grid2.coords t 1).val < 4 := (grid2.coords t 1).isLt; omega)
  | ⟨2, _⟩ => rfl

abbrev arrS2 (c : Dev nD) : Vec Ideal S16x8192x256 .f32 := V c (Pipeline.arrRef spec2 0)
abbrev arrW2 (c : Dev nD) : Vec Ideal S16x4x256x256 .f32 := V c (Pipeline.arrRef spec2 1)
abbrev arrB2 (c : Dev nD) : Vec Ideal S16x4x1x256 .f32 := V c (Pipeline.arrRef spec2 2)

variable (colf : Fin 16 → Fin 4 → Fin 16)

/-- At a point that closes a run of four, the output block is the round's result read over that block. -/
private theorem flushed1_eq (hcol : ∀ (i : Fin 16) (s : Fin 4), (a.1 0 (ValueIdx.ix2 i s)).toNat = (colf i s).val)
    (c : Dev nD) (t : Fin (cfg2 a).N) (hf : ((cfg2 a).win 3).flush t = true) :
    (Fr.dat2 (F := Ideal) V a c).flushed 3 t
      = (((cfg2 a).win 3).blk t).view.read (Elt Ideal) (roundOf (arrS2 V c) (arrW2 V c) (arrB2 V c) colf) := by
  show ((cfg2 a).win 3).cut (grid2.coords t) ((Fr.dat2 (F := Ideal) V a c).after 3 t) = _
  rw [Fr.after2_3]
  exact funext (unroll (Fr.outsAt2 V a c) (fun t => Fr.iblk2 V a c 0 t) (fun t => Fr.iblk2 V a c 1 t) (fun t => Fr.iblk2 V a c 2 t)
    (arrS2 V c) (arrW2 V c) (arrB2 V c) colf (Fr.outsAt2_eq V a c)
    (fun t i jb s hi hj hs => update_of _ _ _ (colf i s) i jb s (by rw [idx0_1 a t i s hi hs, hcol i s, hj])
      (by rw [← hi, ← hs]; exact (idx_facts1 t).1) (by rw [← hi, ← hs]; exact (idx_facts1 t).2.1)) t ((Fr.flush2_3 a t).mp hf) (idx_facts1 t).2.2)

/-- The blocks of the run-closing points cover the result array. -/
private theorem cover1_3 (i : S16x8192x256.Idx) :
    ∃ t : Fin (cfg2 a).N, ((cfg2 a).win 3).flush t = true ∧ i ∈ (((cfg2 a).win 3).blk t).view.set := by
  obtain ⟨t, h3, h⟩ := cover_act i
  refine ⟨t, (Fr.flush2_3 a t).mpr h3, ?_⟩
  rw [show (((cfg2 a).win 3).blk t).view.set = (((cfg2 a).win 3).rect t).set from View.set_slice_whole main_v15 _]
  exact Rect.mem_set_unit.mpr (h _ (idx_facts1 t).2.2)

private theorem arrAt1_eq (hcol : ∀ (i : Fin 16) (s : Fin 4), (a.1 0 (ValueIdx.ix2 i s)).toNat = (colf i s).val) (c : Dev nD) :
    (Fr.dat2 (F := Ideal) V a c).arrAt 3 (cfg2 a).N = roundOf (arrS2 V c) (arrW2 V c) (arrB2 V c) colf :=
  (Fr.dat2 (F := Ideal) V a c).arrAt_eq_of_cover 3 _ (fun t hf => flushed1_eq V a colf hcol c t hf) (cover1_3 a)

abbrev act2 (c : Dev nD) : Vec Ideal S16x8192x256 .f32 := (Fr.dat2 (F := Ideal) V a c).arrAt 3 (cfg2 a).N

/-- The region's result at (i, r, e): the index lies in the block of a run-closing point, which leaves the round's value there. -/
theorem arrAt2_apply (hcol : ∀ (i : Fin 16) (s : Fin 4), (a.1 0 (ValueIdx.ix2 i s)).toNat = (colf i s).val)
    (c : Dev nD) (i : Fin 16) (r : Fin 8192) (e : Fin 256) :
    act2 V a c (ValueIdx.ix3 i r e)
      = max ((∑ d : Fin 256, arrS2 V c (ValueIdx.ix3 (colf i 0) r d) * arrW2 V c (ValueIdx.ix4 i 0 e d)) + arrB2 V c (ValueIdx.ix4 i 0 0 e)
        + (∑ d : Fin 256, arrS2 V c (ValueIdx.ix3 (colf i 1) r d) * arrW2 V c (ValueIdx.ix4 i 1 e d)) + arrB2 V c (ValueIdx.ix4 i 1 0 e)
        + (∑ d : Fin 256, arrS2 V c (ValueIdx.ix3 (colf i 2) r d) * arrW2 V c (ValueIdx.ix4 i 2 e d)) + arrB2 V c (ValueIdx.ix4 i 2 0 e)
        + (∑ d : Fin 256, arrS2 V c (ValueIdx.ix3 (colf i 3) r d) * arrW2 V c (ValueIdx.ix4 i 3 e d)) + arrB2 V c (ValueIdx.ix4 i 3 0 e)) 0 := by
  show ((Fr.dat2 (F := Ideal) V a c).arrAt 3 (cfg2 a).N : Vec Ideal S16x8192x256 .f32) (ValueIdx.ix3 i r e) = _
  rw [arrAt1_eq V a colf hcol c]
  rfl

end Cert.KernelIdeal.Val
end
-- ==== Proof.KI.Val3.lean ====
/-
  Region 1 (custom_call 1) at the ideal values: its result at (i, r, e) is the positive part of the sum over the slots s of
  row r of the activation's column-block `colf i s` (the table's word at (i, s)) against row e of weight (i, s), plus bias (i, s) at e.
-/
import proofs.«167552_j64123861729349_1_alg».proof.Proof.KI.R3
import proofs.«167552_j64123861729349_1_alg».proof.Proof.KI.ValBody
import Idealize.ShloMosaic.Lib.Pipeline.Value
set_option maxRecDepth 16384
noncomputable section

namespace Cert.KernelIdeal.Val
open Cert.KernelIdeal Cert.KernelIdeal.Gen Idealize.ShloMosaic Idealize.ShloMosaic.TcCoe Idealize.SL.Sem
open scoped BigOperators

variable (V : (c : Dev nD) → (b : Ref sig .tc) → Buf (Elt Ideal) ((c : Thread nD τ).loc b))
variable (a : (pcfg3 (F := Ideal)).Adm)

private theorem idx_facts1 : ∀ t : Fin grid3.N,
    cc3_transform_1 (grid3.coords t) = ![(grid3.coords t 0).val, (grid3.coords t 2).val, 0, 0]
    ∧ cc3_transform_2 (grid3.coords t) = ![(grid3.coords t 0).val, (grid3.coords t 2).val, 0, 0]
    ∧ cc3_transform_3 (grid3.coords t) = ![(grid3.coords t 0).val, (grid3.coords t 1).val, 0] := by decide +kernel

/-- Window 0 is placed through the table: at the point (i, jb, s) its block index is (the word at (i, s), jb, 0). -/
private theorem idx0_1 (t : Fin grid3.N) (i : Fin 16) (s : Fin 4) (hi : (grid3.coords t 0).val = i.val) (hs : (grid3.coords t 2).val = s.val) :
    ((cfg3 a).win 0).index t = ![(a.1 0 (ValueIdx.ix2 i s)).toNat, (grid3.coords t 1).val, 0] := by
  funext ax
  match ax with
  | ⟨0, _⟩ =>
    show (a.1 0 ((Rect.unit (s := S16x4) (k3_off1 (grid3.coords t)) S1x1.size (k3_off1_inb (grid3.coords t))).emb (Shape.Idx.first (numel1_S1x1.symm ▸ Nat.one_pos)))).toNat = _
    refine congrArg (fun j => (a.1 0 j).toNat) ?_
    funext bx
    apply Fin.ext
    rw [Rect.emb_apply]
    show k3_off1 (grid3.coords t) bx + 1 * 0 = _
    rw [k3_off1_eq]
    match bx with
    | ⟨0, _⟩ => show (grid3.coords t 0).val + 1 * 0 = i.val; omega
    | ⟨1, _⟩ => show (grid3.coords t 2).val + 1 * 0 = s.val; omega
  | ⟨1, _⟩ =>
    show (BitVec.ofNat 32 (grid3.coords t 1).val).toNat = (grid3.coords t 1).val
    rw [BitVec.toNat_ofNat]
    exact Nat.mod_eq_of_lt (by have h4 : (grid3.coords t 1).val < 4 := (grid3.coords t 1).isLt; omega)
  | ⟨2, _⟩ => rfl

abbrev arrS3 (c : Dev nD) : Vec Ideal S16x8192x256 .f32 := V c (Pipeline.arrRef spec3 0)
abbrev arrW3 (c : Dev nD) : Vec Ideal S16x4x256x256 .f32 := V c (Pipeline.arrRef spec3 1)
abbrev arrB3 (c : Dev nD) : Vec Ideal S16x4x1x256 .f32 := V c (Pipeline.arrRef spec3 2)

variable (colf : Fin 16 → Fin 4 → Fin 16)

/-- At a point that closes a run of four, the output block is the round's result read over that block. -/
private theorem flushed1_eq (hcol : ∀ (i : Fin 16) (s : Fin 4), (a.1 0 (ValueIdx.ix2 i s)).toNat = (colf i s).val)
    (c : Dev nD) (t : Fin (cfg3 a).N) (hf : ((cfg3 a).win 3).flush t = true) :
    (Fr.dat3 (F := Ideal) V a c).flushed 3 t
      = (((cfg3 a).win 3).blk t).view.read (Elt Ideal) (roundOf (arrS3 V c) (arrW3 V c) (arrB3 V c) colf) := by
  show ((cfg3 a).win 3).cut (grid3.coords t) ((Fr.dat3 (F := Ideal) V a c).after 3 t) = _
  rw [Fr.after3_3]
  exact funext (unroll (Fr.outsAt3 V a c) (fun t => Fr.iblk3 V a c 0 t) (fun t => Fr.iblk3 V a c 1 t) (fun t => Fr.iblk3 V a c 2 t)
    (arrS3 V c) (arrW3 V c) (arrB3 V c) colf (Fr.outsAt3_eq V a c)
    (fun t i jb s hi hj hs => update_of _ _ _ (colf i s) i jb s (by rw [idx0_1 a t i s hi hs, hcol i s, hj])
      (by rw [← hi, ← hs]; exact (idx_facts1 t).1) (by rw [← hi, ← hs]; exact (idx_facts1 t).2.1)) t ((Fr.flush3_3 a t).mp hf) (idx_facts1 t).2.2)

/-- The blocks of the run-closing points cover the result array. -/
private theorem cover1_3 (i : S16x8192x256.Idx) :
    ∃ t : Fin (cfg3 a).N, ((cfg3 a).win 3).flush t = true ∧ i ∈ (((cfg3 a).win 3).blk t).view.set := by
  obtain ⟨t, h3, h⟩ := cover_act i
  refine ⟨t, (Fr.flush3_3 a t).mpr h3, ?_⟩
  rw [show (((cfg3 a).win 3).blk t).view.set = (((cfg3 a).win 3).rect t).set from View.set_slice_whole main_v16 _]
  exact Rect.mem_set_unit.mpr (h _ (idx_facts1 t).2.2)

private theorem arrAt1_eq (hcol : ∀ (i : Fin 16) (s : Fin 4), (a.1 0 (ValueIdx.ix2 i s)).toNat = (colf i s).val) (c : Dev nD) :
    (Fr.dat3 (F := Ideal) V a c).arrAt 3 (cfg3 a).N = roundOf (arrS3 V c) (arrW3 V c) (arrB3 V c) colf :=
  (Fr.dat3 (F := Ideal) V a c).arrAt_eq_of_cover 3 _ (fun t hf => flushed1_eq V a colf hcol c t hf) (cover1_3 a)

abbrev act3 (c : Dev nD) : Vec Ideal S16x8192x256 .f32 := (Fr.dat3 (F := Ideal) V a c).arrAt 3 (cfg3 a).N

/-- The region's result at (i, r, e): the index lies in the block of a run-closing point, which leaves the round's value there. -/
theorem arrAt3_apply (hcol : ∀ (i : Fin 16) (s : Fin 4), (a.1 0 (ValueIdx.ix2 i s)).toNat = (colf i s).val)
    (c : Dev nD) (i : Fin 16) (r : Fin 8192) (e : Fin 256) :
    act3 V a c (ValueIdx.ix3 i r e)
      = max ((∑ d : Fin 256, arrS3 V c (ValueIdx.ix3 (colf i 0) r d) * arrW3 V c (ValueIdx.ix4 i 0 e d)) + arrB3 V c (ValueIdx.ix4 i 0 0 e)
        + (∑ d : Fin 256, arrS3 V c (ValueIdx.ix3 (colf i 1) r d) * arrW3 V c (ValueIdx.ix4 i 1 e d)) + arrB3 V c (ValueIdx.ix4 i 1 0 e)
        + (∑ d : Fin 256, arrS3 V c (ValueIdx.ix3 (colf i 2) r d) * arrW3 V c (ValueIdx.ix4 i 2 e d)) + arrB3 V c (ValueIdx.ix4 i 2 0 e)
        + (∑ d : Fin 256, arrS3 V c (ValueIdx.ix3 (colf i 3) r d) * arrW3 V c (ValueIdx.ix4 i 3 e d)) + arrB3 V c (ValueIdx.ix4 i 3 0 e)) 0 := by
  show ((Fr.dat3 (F := Ideal) V a c).arrAt 3 (cfg3 a).N : Vec Ideal S16x8192x256 .f32) (ValueIdx.ix3 i r e) = _
  rw [arrAt1_eq V a colf hcol c]
  rfl

end Cert.KernelIdeal.Val
end
-- ==== Proof.KI.Val4.lean ====
/-
  Region 1 (custom_call 1) at the ideal values: its result at (i, r, e) is the positive part of the sum over the slots s of
  row r of the activation's column-block `colf i s` (the table's word at (i, s)) against row e of weight (i, s), plus bias (i, s) at e.
-/
import proofs.«167552_j64123861729349_1_alg».proof.Proof.KI.R4
import proofs.«167552_j64123861729349_1_alg».proof.Proof.KI.ValBody
import Idealize.ShloMosaic.Lib.Pipeline.Value
set_option maxRecDepth 16384
noncomputable section

namespace Cert.KernelIdeal.Val
open Cert.KernelIdeal Cert.KernelIdeal.Gen Idealize.ShloMosaic Idealize.ShloMosaic.TcCoe Idealize.SL.Sem
open scoped BigOperators

variable (V : (c : Dev nD) → (b : Ref sig .tc) → Buf (Elt Ideal) ((c : Thread nD τ).loc b))
variable (a : (pcfg4 (F := Ideal)).Adm)

private theorem idx_facts1 : ∀ t : Fin grid4.N,
    cc4_transform_1 (grid4.coords t) = ![(grid4.coords t 0).val, (grid4.coords t 2).val, 0, 0]
    ∧ cc4_transform_2 (grid4.coords t) = ![(grid4.coords t 0).val, (grid4.coords t 2).val, 0, 0]
    ∧ cc4_transform_3 (grid4.coords t) = ![(grid4.coords t 0).val, (grid4.coords t 1).val, 0] := by decide +kernel

/-- Window 0 is placed through the table: at the point (i, jb, s) its block index is (the word at (i, s), jb, 0). -/
private theorem idx0_1 (t : Fin grid4.N) (i : Fin 16) (s : Fin 4) (hi : (grid4.coords t 0).val = i.val) (hs : (grid4.coords t 2).val = s.val) :
    ((cfg4 a).win 0).index t = ![(a.1 0 (ValueIdx.ix2 i s)).toNat, (grid4.coords t 1).val, 0] := by
  funext ax
  match ax with
  | ⟨0, _⟩ =>
    show (a.1 0 ((Rect.unit (s := S16x4) (k4_off1 (grid4.coords t)) S1x1.size (k4_off1_inb (grid4.coords t))).emb (Shape.Idx.first (numel1_S1x1.symm ▸ Nat.one_pos)))).toNat = _
    refine congrArg (fun j => (a.1 0 j).toNat) ?_
    funext bx
    apply Fin.ext
    rw [Rect.emb_apply]
    show k4_off1 (grid4.coords t) bx + 1 * 0 = _
    rw [k4_off1_eq]
    match bx with
    | ⟨0, _⟩ => show (grid4.coords t 0).val + 1 * 0 = i.val; omega
    | ⟨1, _⟩ => show (grid4.coords t 2).val + 1 * 0 = s.val; omega
  | ⟨1, _⟩ =>
    show (BitVec.ofNat 32 (grid4.coords t 1).val).toNat = (grid4.coords t 1).val
    rw [BitVec.toNat_ofNat]
    exact Nat.mod_eq_of_lt (by have h4 : (grid4.coords t 1).val < 4 := (grid4.coords t 1).isLt; omega)
  | ⟨2, _⟩ => rfl

abbrev arrS4 (c : Dev nD) : Vec Ideal S16x8192x256 .f32 := V c (Pipeline.arrRef spec4 0)
abbrev arrW4 (c : Dev nD) : Vec Ideal S16x4x256x256 .f32 := V c (Pipeline.arrRef spec4 1)
abbrev arrB4 (c : Dev nD) : Vec Ideal S16x4x1x256 .f32 := V c (Pipeline.arrRef spec4 2)

variable (colf : Fin 16 → Fin 4 → Fin 16)

/-- At a point that closes a run of four, the output block is the round's result read over that block. -/
private theorem flushed1_eq (hcol : ∀ (i : Fin 16) (s : Fin 4), (a.1 0 (ValueIdx.ix2 i s)).toNat = (colf i s).val)
    (c : Dev nD) (t : Fin (cfg4 a).N) (hf : ((cfg4 a).win 3).flush t = true) :
    (Fr.dat4 (F := Ideal) V a c).flushed 3 t
      = (((cfg4 a).win 3).blk t).view.read (Elt Ideal) (roundOf (arrS4 V c) (arrW4 V c) (arrB4 V c) colf) := by
  show ((cfg4 a).win 3).cut (grid4.coords t) ((Fr.dat4 (F := Ideal) V a c).after 3 t) = _
  rw [Fr.after4_3]
  exact funext (unroll (Fr.outsAt4 V a c) (fun t => Fr.iblk4 V a c 0 t) (fun t => Fr.iblk4 V a c 1 t) (fun t => Fr.iblk4 V a c 2 t)
    (arrS4 V c) (arrW4 V c) (arrB4 V c) colf (Fr.outsAt4_eq V a c)
    (fun t i jb s hi hj hs => update_of _ _ _ (colf i s) i jb s (by rw [idx0_1 a t i s hi hs, hcol i s, hj])
      (by rw [← hi, ← hs]; exact (idx_facts1 t).1) (by rw [← hi, ← hs]; exact (idx_facts1 t).2.1)) t ((Fr.flush4_3 a t).mp hf) (idx_facts1 t).2.2)

/-- The blocks of the run-closing points cover the result array. -/
private theorem cover1_3 (i : S16x8192x256.Idx) :
    ∃ t : Fin (cfg4 a).N, ((cfg4 a).win 3).flush t = true ∧ i ∈ (((cfg4 a).win 3).blk t).view.set := by
  obtain ⟨t, h3, h⟩ := cover_act i
  refine ⟨t, (Fr.flush4_3 a t).mpr h3, ?_⟩
  rw [show (((cfg4 a).win 3).blk t).view.set = (((cfg4 a).win 3).rect t).set from View.set_slice_whole main_v17 _]
  exact Rect.mem_set_unit.mpr (h _ (idx_facts1 t).2.2)

private theorem arrAt1_eq (hcol : ∀ (i : Fin 16) (s : Fin 4), (a.1 0 (ValueIdx.ix2 i s)).toNat = (colf i s).val) (c : Dev nD) :
    (Fr.dat4 (F := Ideal) V a c).arrAt 3 (cfg4 a).N = roundOf (arrS4 V c) (arrW4 V c) (arrB4 V c) colf :=
  (Fr.dat4 (F := Ideal) V a c).arrAt_eq_of_cover 3 _ (fun t hf => flushed1_eq V a colf hcol c t hf) (cover1_3 a)

abbrev act4 (c : Dev nD) : Vec Ideal S16x8192x256 .f32 := (Fr.dat4 (F := Ideal) V a c).arrAt 3 (cfg4 a).N

/-- The region's result at (i, r, e): the index lies in the block of a run-closing point, which leaves the round's value there. -/
theorem arrAt4_apply (hcol : ∀ (i : Fin 16) (s : Fin 4), (a.1 0 (ValueIdx.ix2 i s)).toNat = (colf i s).val)
    (c : Dev nD) (i : Fin 16) (r : Fin 8192) (e : Fin 256) :
    act4 V a c (ValueIdx.ix3 i r e)
      = max ((∑ d : Fin 256, arrS4 V c (ValueIdx.ix3 (colf i 0) r d) * arrW4 V c (ValueIdx.ix4 i 0 e d)) + arrB4 V c (ValueIdx.ix4 i 0 0 e)
        + (∑ d : Fin 256, arrS4 V c (ValueIdx.ix3 (colf i 1) r d) * arrW4 V c (ValueIdx.ix4 i 1 e d)) + arrB4 V c (ValueIdx.ix4 i 1 0 e)
        + (∑ d : Fin 256, arrS4 V c (ValueIdx.ix3 (colf i 2) r d) * arrW4 V c (ValueIdx.ix4 i 2 e d)) + arrB4 V c (ValueIdx.ix4 i 2 0 e)
        + (∑ d : Fin 256, arrS4 V c (ValueIdx.ix3 (colf i 3) r d) * arrW4 V c (ValueIdx.ix4 i 3 e d)) + arrB4 V c (ValueIdx.ix4 i 3 0 e)) 0 := by
  show ((Fr.dat4 (F := Ideal) V a c).arrAt 3 (cfg4 a).N : Vec Ideal S16x8192x256 .f32) (ValueIdx.ix3 i r e) = _
  rw [arrAt1_eq V a colf hcol c]
  rfl

end Cert.KernelIdeal.Val
end
-- ==== Proof.KI.Val5.lean ====
/-
  Region 1 (custom_call 1) at the ideal values: its result at (i, r, e) is the positive part of the sum over the slots s of
  row r of the activation's column-block `colf i s` (the table's word at (i, s)) against row e of weight (i, s), plus bias (i, s) at e.
-/
import proofs.«167552_j64123861729349_1_alg».proof.Proof.KI.R5
import proofs.«167552_j64123861729349_1_alg».proof.Proof.KI.ValBody
import Idealize.ShloMosaic.Lib.Pipeline.Value
set_option maxRecDepth 16384
noncomputable section

namespace Cert.KernelIdeal.Val
open Cert.KernelIdeal Cert.KernelIdeal.Gen Idealize.ShloMosaic Idealize.ShloMosaic.TcCoe Idealize.SL.Sem
open scoped BigOperators

variable (V : (c : Dev nD) → (b : Ref sig .tc) → Buf (Elt Ideal) ((c : Thread nD τ).loc b))
variable (a : (pcfg5 (F := Ideal)).Adm)

private theorem idx_facts1 : ∀ t : Fin grid5.N,
    cc5_transform_1 (grid5.coords t) = ![(grid5.coords t 0).val, (grid5.coords t 2).val, 0, 0]
    ∧ cc5_transform_2 (grid5.coords t) = ![(grid5.coords t 0).val, (grid5.coords t 2).val, 0, 0]
    ∧ cc5_transform_3 (grid5.coords t) = ![(grid5.coords t 0).val, (grid5.coords t 1).val, 0] := by decide +kernel

/-- Window 0 is placed through the table: at the point (i, jb, s) its block index is (the word at (i, s), jb, 0). -/
private theorem idx0_1 (t : Fin grid5.N) (i : Fin 16) (s : Fin 4) (hi : (grid5.coords t 0).val = i.val) (hs : (grid5.coords t 2).val = s.val) :
    ((cfg5 a).win 0).index t = ![(a.1 0 (ValueIdx.ix2 i s)).toNat, (grid5.coords t 1).val, 0] := by
  funext ax
  match ax with
  | ⟨0, _⟩ =>
    show (a.1 0 ((Rect.unit (s := S16x4) (k5_off1 (grid5.coords t)) S1x1.size (k5_off1_inb (grid5.coords t))).emb (Shape.Idx.first (numel1_S1x1.symm ▸ Nat.one_pos)))).toNat = _
    refine congrArg (fun j => (a.1 0 j).toNat) ?_
    funext bx
    apply Fin.ext
    rw [Rect.emb_apply]
    show k5_off1 (grid5.coords t) bx + 1 * 0 = _
    rw [k5_off1_eq]
    match bx with
    | ⟨0, _⟩ => show (grid5.coords t 0).val + 1 * 0 = i.val; omega
    | ⟨1, _⟩ => show (grid5.coords t 2).val + 1 * 0 = s.val; omega
  | ⟨1, _⟩ =>
    show (BitVec.ofNat 32 (grid5.coords t 1).val).toNat = (grid5.coords t 1).val
    rw [BitVec.toNat_ofNat]
    exact Nat.mod_eq_of_lt (by have h4 : (grid5.coords t 1).val < 4 := (grid5.coords t 1).isLt; omega)
  | ⟨2, _⟩ => rfl

abbrev arrS5 (c : Dev nD) : Vec Ideal S16x8192x256 .f32 := V c (Pipeline.arrRef spec5 0)
abbrev arrW5 (c : Dev nD) : Vec Ideal S16x4x256x256 .f32 := V c (Pipeline.arrRef spec5 1)
abbrev arrB5 (c : Dev nD) : Vec Ideal S16x4x1x256 .f32 := V c (Pipeline.arrRef spec5 2)

variable (colf : Fin 16 → Fin 4 → Fin 16)

/-- At a point that closes a run of four, the output block is the round's result read over that block. -/
private theorem flushed1_eq (hcol : ∀ (i : Fin 16) (s : Fin 4), (a.1 0 (ValueIdx.ix2 i s)).toNat = (colf i s).val)
    (c : Dev nD) (t : Fin (cfg5 a).N) (hf : ((cfg5 a).win 3).flush t = true) :
    (Fr.dat5 (F := Ideal) V a c).flushed 3 t
      = (((cfg5 a).win 3).blk t).view.read (Elt Ideal) (roundOf (arrS5 V c) (arrW5 V c) (arrB5 V c) colf) := by
  show ((cfg5 a).win 3).cut (grid5.coords t) ((Fr.dat5 (F := Ideal) V a c).after 3 t) = _
  rw [Fr.after5_3]
  exact funext (unroll (Fr.outsAt5 V a c) (fun t => Fr.iblk5 V a c 0 t) (fun t => Fr.iblk5 V a c 1 t) (fun t => Fr.iblk5 V a c 2 t)
    (arrS5 V c) (arrW5 V c) (arrB5 V c) colf (Fr.outsAt5_eq V a c)
    (fun t i jb s hi hj hs => update_of _ _ _ (colf i s) i jb s (by rw [idx0_1 a t i s hi hs, hcol i s, hj])
      (by rw [← hi, ← hs]; exact (idx_facts1 t).1) (by rw [← hi, ← hs]; exact (idx_facts1 t).2.1)) t ((Fr.flush5_3 a t).mp hf) (idx_facts1 t).2.2)

/-- The blocks of the run-closing points cover the result array. -/
private theorem cover1_3 (i : S16x8192x256.Idx) :
    ∃ t : Fin (cfg5 a).N, ((cfg5 a).win 3).flush t = true ∧ i ∈ (((cfg5 a).win 3).blk t).view.set := by
  obtain ⟨t, h3, h⟩ := cover_act i
  refine ⟨t, (Fr.flush5_3 a t).mpr h3, ?_⟩
  rw [show (((cfg5 a).win 3).blk t).view.set = (((cfg5 a).win 3).rect t).set from View.set_slice_whole main_v18 _]
  exact Rect.mem_set_unit.mpr (h _ (idx_facts1 t).2.2)

private theorem arrAt1_eq (hcol : ∀ (i : Fin 16) (s : Fin 4), (a.1 0 (ValueIdx.ix2 i s)).toNat = (colf i s).val) (c : Dev nD) :
    (Fr.dat5 (F := Ideal) V a c).arrAt 3 (cfg5 a).N = roundOf (arrS5 V c) (arrW5 V c) (arrB5 V c) colf :=
  (Fr.dat5 (F := Ideal) V a c).arrAt_eq_of_cover 3 _ (fun t hf => flushed1_eq V a colf hcol c t hf) (cover1_3 a)

abbrev act5 (c : Dev nD) : Vec Ideal S16x8192x256 .f32 := (Fr.dat5 (F := Ideal) V a c).arrAt 3 (cfg5 a).N

/-- The region's result at (i, r, e): the index lies in the block of a run-closing point, which leaves the round's value there. -/
theorem arrAt5_apply (hcol : ∀ (i : Fin 16) (s : Fin 4), (a.1 0 (ValueIdx.ix2 i s)).toNat = (colf i s).val)
    (c : Dev nD) (i : Fin 16) (r : Fin 8192) (e : Fin 256) :
    act5 V a c (ValueIdx.ix3 i r e)
      = max ((∑ d : Fin 256, arrS5 V c (ValueIdx.ix3 (colf i 0) r d) * arrW5 V c (ValueIdx.ix4 i 0 e d)) + arrB5 V c (ValueIdx.ix4 i 0 0 e)
        + (∑ d : Fin 256, arrS5 V c (ValueIdx.ix3 (colf i 1) r d) * arrW5 V c (ValueIdx.ix4 i 1 e d)) + arrB5 V c (ValueIdx.ix4 i 1 0 e)
        + (∑ d : Fin 256, arrS5 V c (ValueIdx.ix3 (colf i 2) r d) * arrW5 V c (ValueIdx.ix4 i 2 e d)) + arrB5 V c (ValueIdx.ix4 i 2 0 e)
        + (∑ d : Fin 256, arrS5 V c (ValueIdx.ix3 (colf i 3) r d) * arrW5 V c (ValueIdx.ix4 i 3 e d)) + arrB5 V c (ValueIdx.ix4 i 3 0 e)) 0 := by
  show ((Fr.dat5 (F := Ideal) V a c).arrAt 3 (cfg5 a).N : Vec Ideal S16x8192x256 .f32) (ValueIdx.ix3 i r e) = _
  rw [arrAt1_eq V a colf hcol c]
  rfl

end Cert.KernelIdeal.Val
end
-- ==== Proof.KI.Chain.lean ====
import proofs.«167552_j64123861729349_1_alg».proof.Proof.KI.Val0
import proofs.«167552_j64123861729349_1_alg».proof.Proof.KI.Host
import proofs.«167552_j64123861729349_1_alg».proof.Proof.Spec
import proofs.«167552_j64123861729349_1_alg».proof.Proof.KI.Val1
import proofs.«167552_j64123861729349_1_alg».proof.Proof.KI.Val2
import proofs.«167552_j64123861729349_1_alg».proof.Proof.KI.Val3
import proofs.«167552_j64123861729349_1_alg».proof.Proof.KI.Val4
import proofs.«167552_j64123861729349_1_alg».proof.Proof.KI.Val5
set_option maxRecDepth 16384
noncomputable section
namespace Cert.KernelIdeal.Val
open Idealize.ShloMosaic Idealize.ShloMosaic.TcCoe Idealize.SL.Sem
open Idealize.ShloMosaic.Pipeline (Dat)
open Cert.KernelIdeal Cert.KernelIdeal.Gen
open Cert.Spec
open scoped BigOperators

theorem eq_S0 (X : Inp) (W : Wts) (b : Bias) (A : Act) (W0 : Fin 16 → Fin 256 → Fin 256 → EReal) (B0 : Fin 16 → Fin 256 → EReal)
    (hA : ∀ i r e, A i r e = max ((∑ d : Fin 256, X r d * W0 i e d) + B0 i e) 0)
    (hW : ∀ i e d, W0 i e d = W (first i) e d) (hB : ∀ i e, B0 i e = b (first i) e) : A = S0 X W b := by
  funext i r e
  rw [hA i r e]
  unfold S0
  rw [hB i e]
  exact congrArg (fun x => max (x + b (first i) e) 0) (Finset.sum_congr rfl fun d _ => by rw [hW i e d])

theorem eq_kstep (W : Wts) (b : Bias) (P A : Act) (Wp : WtsP) (Bp : BiasP)
    (hA : ∀ i r e, A i r e = max ((∑ d : Fin 256, P (col i 0) r d * Wp i 0 e d) + Bp i 0 e
        + (∑ d : Fin 256, P (col i 1) r d * Wp i 1 e d) + Bp i 1 e
        + (∑ d : Fin 256, P (col i 2) r d * Wp i 2 e d) + Bp i 2 e
        + (∑ d : Fin 256, P (col i 3) r d * Wp i 3 e d) + Bp i 3 e) 0)
    (hW : ∀ i s e d, Wp i s e d = Wpad W i s e d) (hB : ∀ i s e, Bp i s e = bpad b i s e) :
    A = kstep (Wpad W) (bpad b) P := by
  obtain rfl : Wp = Wpad W := by funext i s e d; exact hW i s e d
  obtain rfl : Bp = bpad b := by funext i s e; exact hB i s e
  funext i r e
  rw [hA i r e]
  rfl

theorem eq_kout (X : Inp) (W : Wts) (b : Bias) (A0 A1 A2 A3 A4 A5 : Act)
    (h0 : A0 = S0 X W b) (h1 : A1 = kstep (Wpad W) (bpad b) A0) (h2 : A2 = kstep (Wpad W) (bpad b) A1)
    (h3 : A3 = kstep (Wpad W) (bpad b) A2) (h4 : A4 = kstep (Wpad W) (bpad b) A3)
    (h5 : A5 = kstep (Wpad W) (bpad b) A4) : A5 = kout X W b := by
  subst h0 h1 h2 h3 h4 h5
  rfl

variable (m : (ℓ : Loc nD τ sig) → Buf (Elt Ideal) ℓ) (c : Dev nD)

abbrev inX : Vec Ideal S8192x256 .f32 := m ((c : Thread nD τ).loc main_arg0)
abbrev inW : Vec Ideal S60x256x256 .f32 := m ((c : Thread nD τ).loc main_arg1)
abbrev inB : Vec Ideal S60x256 .f32 := m ((c : Thread nD τ).loc main_arg2)

abbrev Xf : Inp := fun r d => inX m c (ValueIdx.ix2 r d)
abbrev Wf : Wts := fun p e d => inW m c (ValueIdx.ix3 p e d)
abbrev bf : Bias := fun p e => inB m c (ValueIdx.ix2 p e)

abbrev actf (A : Vec Ideal S16x8192x256 .f32) : Act := fun i r e => A (ValueIdx.ix3 i r e)

theorem host_Wpad (i : Fin 16) (s : Fin 4) (e d : Fin 256) :
    (V8 m c main_v6 : Vec Ideal S16x4x256x256 .f32) (ValueIdx.ix4 i s e d) = Wpad (Wf m c) i s e d :=
  V8_main_v6_apply m c i s e d
theorem host_bpad (i : Fin 16) (s : Fin 4) (e : Fin 256) :
    (V8 m c main_v9 : Vec Ideal S16x4x1x256 .f32) (ValueIdx.ix4 i s 0 e) = bpad (bf m c) i s e :=
  V8_main_v9_apply m c i s e

theorem level0 (E0 : (c : Dev nD) → (b : Ref sig .tc) → Buf (Elt Ideal) ((c : Thread nD τ).loc b))
    (h0 : E0 c main_arg0 = m ((c : Thread nD τ).loc main_arg0)) (h1 : E0 c main_v10 = V8 m c main_v10)
    (h2 : E0 c main_v12 = V8 m c main_v12) :
    actf (act0 E0 c) = S0 (Xf m c) (Wf m c) (bf m c) := by
  have e0 : arrX E0 c = inX m c := h0
  have e1 : arrW E0 c = (V8 m c main_v10 : Vec Ideal S16x256x256 .f32) := h1
  have e2 : arrB E0 c = (V8 m c main_v12 : Vec Ideal S16x1x256 .f32) := h2
  refine eq_S0 (Xf m c) (Wf m c) (bf m c) _ (fun i e d => arrW E0 c (ValueIdx.ix3 i e d))
    (fun i e => arrB E0 c (ValueIdx.ix3 i 0 e)) (fun i r e => ?_) (fun i e d => ?_) (fun i e => ?_)
  · show act0 E0 c (ValueIdx.ix3 i r e) = _
    rw [arrAt0_apply E0 c i r e, e0]
  · show arrW E0 c (ValueIdx.ix3 i e d) = _
    rw [e1]; exact V8_main_v10_apply m c i e d
  · show arrB E0 c (ValueIdx.ix3 i 0 e) = _
    rw [e2]; exact V8_main_v12_apply m c i e

theorem levelK_of (P' P A : Vec Ideal S16x8192x256 .f32) (W6 : Vec Ideal S16x4x256x256 .f32) (B9 : Vec Ideal S16x4x1x256 .f32)
    (hP : P' = P) (hW : W6 = V8 m c main_v6) (hB : B9 = V8 m c main_v9)
    (hA : ∀ (i : Fin 16) (r : Fin 8192) (e : Fin 256), A (ValueIdx.ix3 i r e)
      = max ((∑ d : Fin 256, P' (ValueIdx.ix3 (col i 0) r d) * W6 (ValueIdx.ix4 i 0 e d)) + B9 (ValueIdx.ix4 i 0 0 e)
        + (∑ d : Fin 256, P' (ValueIdx.ix3 (col i 1) r d) * W6 (ValueIdx.ix4 i 1 e d)) + B9 (ValueIdx.ix4 i 1 0 e)
        + (∑ d : Fin 256, P' (ValueIdx.ix3 (col i 2) r d) * W6 (ValueIdx.ix4 i 2 e d)) + B9 (ValueIdx.ix4 i 2 0 e)
        + (∑ d : Fin 256, P' (ValueIdx.ix3 (col i 3) r d) * W6 (ValueIdx.ix4 i 3 e d)) + B9 (ValueIdx.ix4 i 3 0 e)) 0) :
    actf A = kstep (Wpad (Wf m c)) (bpad (bf m c)) (actf P) := by
  subst hP hW hB
  exact eq_kstep (Wf m c) (bf m c) (actf P') (actf A)
    (fun i s e d => (V8 m c main_v6 : Vec Ideal S16x4x256x256 .f32) (ValueIdx.ix4 i s e d))
    (fun i s e => (V8 m c main_v9 : Vec Ideal S16x4x1x256 .f32) (ValueIdx.ix4 i s 0 e))
    (fun i r e => hA i r e) (fun i s e d => host_Wpad m c i s e d) (fun i s e => host_bpad m c i s e)

theorem chain (A0 A1 A2 A3 A4 A5 : Vec Ideal S16x8192x256 .f32)
    (l0 : actf A0 = S0 (Xf m c) (Wf m c) (bf m c))
    (l1 : actf A1 = kstep (Wpad (Wf m c)) (bpad (bf m c)) (actf A0))
    (l2 : actf A2 = kstep (Wpad (Wf m c)) (bpad (bf m c)) (actf A1))
    (l3 : actf A3 = kstep (Wpad (Wf m c)) (bpad (bf m c)) (actf A2))
    (l4 : actf A4 = kstep (Wpad (Wf m c)) (bpad (bf m c)) (actf A3))
    (l5 : actf A5 = kstep (Wpad (Wf m c)) (bpad (bf m c)) (actf A4))
    (i : Fin 16) (r : Fin 8192) (e : Fin 256) :
    A5 (ValueIdx.ix3 i r e) = kout (Xf m c) (Wf m c) (bf m c) i r e :=
  congrFun (congrFun (congrFun (eq_kout (Xf m c) (Wf m c) (bf m c) (actf A0) (actf A1) (actf A2) (actf A3) (actf A4) (actf A5)
    l0 l1 l2 l3 l4 l5) i) r) e

theorem level1 (EP E : (c : Dev nD) → (b : Ref sig .tc) → Buf (Elt Ideal) ((c : Thread nD τ).loc b)) (a : (pcfg1 (F := Ideal)).Adm)
    (hc : ∀ (i : Fin 16) (s : Fin 4), (a.1 0 (ValueIdx.ix2 i s)).toNat = (col i s).val)
    (h0 : E c main_v13 = (Fr.dat0 (F := Ideal) EP c).arrAt 3 cfg0.N) (h1 : E c main_v6 = V8 m c main_v6) (h2 : E c main_v9 = V8 m c main_v9) :
    actf (act1 E a c) = kstep (Wpad (Wf m c)) (bpad (bf m c)) (actf (act0 EP c)) :=
  levelK_of m c (arrS1 E c) (act0 EP c) (act1 E a c) (arrW1 E c) (arrB1 E c) h0 h1 h2 (arrAt1_apply E a col hc c)

theorem level2 (EP E : (c : Dev nD) → (b : Ref sig .tc) → Buf (Elt Ideal) ((c : Thread nD τ).loc b)) (ap : (pcfg1 (F := Ideal)).Adm) (a : (pcfg2 (F := Ideal)).Adm)
    (hc : ∀ (i : Fin 16) (s : Fin 4), (a.1 0 (ValueIdx.ix2 i s)).toNat = (col i s).val)
    (h0 : E c main_v14 = (Fr.dat1 (F := Ideal) EP ap c).arrAt 3 (cfg1 ap).N) (h1 : E c main_v6 = V8 m c main_v6) (h2 : E c main_v9 = V8 m c main_v9) :
    actf (act2 E a c) = kstep (Wpad (Wf m c)) (bpad (bf m c)) (actf (act1 EP ap c)) :=
  levelK_of m c (arrS2 E c) (act1 EP ap c) (act2 E a c) (arrW2 E c) (arrB2 E c) h0 h1 h2 (arrAt2_apply E a col hc c)

theorem level3 (EP E : (c : Dev nD) → (b : Ref sig .tc) → Buf (Elt Ideal) ((c : Thread nD τ).loc b)) (ap : (pcfg2 (F := Ideal)).Adm) (a : (pcfg3 (F := Ideal)).Adm)
    (hc : ∀ (i : Fin 16) (s : Fin 4), (a.1 0 (ValueIdx.ix2 i s)).toNat = (col i s).val)
    (h0 : E c main_v15 = (Fr.dat2 (F := Ideal) EP ap c).arrAt 3 (cfg2 ap).N) (h1 : E c main_v6 = V8 m c main_v6) (h2 : E c main_v9 = V8 m c main_v9) :
    actf (act3 E a c) = kstep (Wpad (Wf m c)) (bpad (bf m c)) (actf (act2 EP ap c)) :=
  levelK_of m c (arrS3 E c) (act2 EP ap c) (act3 E a c) (arrW3 E c) (arrB3 E c) h0 h1 h2 (arrAt3_apply E a col hc c)

theorem level4 (EP E : (c : Dev nD) → (b : Ref sig .tc) → Buf (Elt Ideal) ((c : Thread nD τ).loc b)) (ap : (pcfg3 (F := Ideal)).Adm) (a : (pcfg4 (F := Ideal)).Adm)
    (hc : ∀ (i : Fin 16) (s : Fin 4), (a.1 0 (ValueIdx.ix2 i s)).toNat = (col i s).val)
    (h0 : E c main_v16 = (Fr.dat3 (F := Ideal) EP ap c).arrAt 3 (cfg3 ap).N) (h1 : E c main_v6 = V8 m c main_v6) (h2 : E c main_v9 = V8 m c main_v9) :
    actf (act4 E a c) = kstep (Wpad (Wf m c)) (bpad (bf m c)) (actf (act3 EP ap c)) :=
  levelK_of m c (arrS4 E c) (act3 EP ap c) (act4 E a c) (arrW4 E c) (arrB4 E c) h0 h1 h2 (arrAt4_apply E a col hc c)

theorem level5 (EP E : (c : Dev nD) → (b : Ref sig .tc) → Buf (Elt Ideal) ((c : Thread nD τ).loc b)) (ap : (pcfg4 (F := Ideal)).Adm) (a : (pcfg5 (F := Ideal)).Adm)
    (hc : ∀ (i : Fin 16) (s : Fin 4), (a.1 0 (ValueIdx.ix2 i s)).toNat = (col i s).val)
    (h0 : E c main_v17 = (Fr.dat4 (F := Ideal) EP ap c).arrAt 3 (cfg4 ap).N) (h1 : E c main_v6 = V8 m c main_v6) (h2 : E c main_v9 = V8 m c main_v9) :
    actf (act5 E a c) = kstep (Wpad (Wf m c)) (bpad (bf m c)) (actf (act4 EP ap c)) :=
  levelK_of m c (arrS5 E c) (act4 EP ap c) (act5 E a c) (arrW5 E c) (arrB5 E c) h0 h1 h2 (arrAt5_apply E a col hc c)

theorem kernel_out_apply (E0 E1 E2 E3 E4 E5 : (c : Dev nD) → (b : Ref sig .tc) → Buf (Elt Ideal) ((c : Thread nD τ).loc b))
    (a1 : (pcfg1 (F := Ideal)).Adm) (a2 : (pcfg2 (F := Ideal)).Adm) (a3 : (pcfg3 (F := Ideal)).Adm)
    (a4 : (pcfg4 (F := Ideal)).Adm) (a5 : (pcfg5 (F := Ideal)).Adm)
    (hc1 : ∀ (i : Fin 16) (s : Fin 4), (a1.1 0 (ValueIdx.ix2 i s)).toNat = (col i s).val)
    (hc2 : ∀ (i : Fin 16) (s : Fin 4), (a2.1 0 (ValueIdx.ix2 i s)).toNat = (col i s).val)
    (hc3 : ∀ (i : Fin 16) (s : Fin 4), (a3.1 0 (ValueIdx.ix2 i s)).toNat = (col i s).val)
    (hc4 : ∀ (i : Fin 16) (s : Fin 4), (a4.1 0 (ValueIdx.ix2 i s)).toNat = (col i s).val)
    (hc5 : ∀ (i : Fin 16) (s : Fin 4), (a5.1 0 (ValueIdx.ix2 i s)).toNat = (col i s).val)
    (h00 : E0 c main_arg0 = m ((c : Thread nD τ).loc main_arg0)) (h01 : E0 c main_v10 = V8 m c main_v10)
    (h02 : E0 c main_v12 = V8 m c main_v12)
    (h10 : E1 c main_v13 = (Fr.dat0 (F := Ideal) E0 c).arrAt 3 cfg0.N) (h11 : E1 c main_v6 = V8 m c main_v6)
    (h12 : E1 c main_v9 = V8 m c main_v9)
    (h20 : E2 c main_v14 = (Fr.dat1 (F := Ideal) E1 a1 c).arrAt 3 (cfg1 a1).N) (h21 : E2 c main_v6 = V8 m c main_v6)
    (h22 : E2 c main_v9 = V8 m c main_v9)
    (h30 : E3 c main_v15 = (Fr.dat2 (F := Ideal) E2 a2 c).arrAt 3 (cfg2 a2).N) (h31 : E3 c main_v6 = V8 m c main_v6)
    (h32 : E3 c main_v9 = V8 m c main_v9)
    (h40 : E4 c main_v16 = (Fr.dat3 (F := Ideal) E3 a3 c).arrAt 3 (cfg3 a3).N) (h41 : E4 c main_v6 = V8 m c main_v6)
    (h42 : E4 c main_v9 = V8 m c main_v9)
    (h50 : E5 c main_v17 = (Fr.dat4 (F := Ideal) E4 a4 c).arrAt 3 (cfg4 a4).N) (h51 : E5 c main_v6 = V8 m c main_v6)
    (h52 : E5 c main_v9 = V8 m c main_v9)
    (i : Fin 16) (r : Fin 8192) (e : Fin 256) :
    ((Fr.dat5 (F := Ideal) E5 a5 c).arrAt 3 (cfg5 a5).N : Vec Ideal S16x8192x256 .f32) (ValueIdx.ix3 i r e)
      = kout (Xf m c) (Wf m c) (bf m c) i r e :=
  chain m c (act0 E0 c) (act1 E1 a1 c) (act2 E2 a2 c) (act3 E3 a3 c) (act4 E4 a4 c) (act5 E5 a5 c)
    (level0 m c E0 h00 h01 h02)
    (level1 m c E0 E1 a1 hc1 h10 h11 h12)
    (level2 m c E1 E2 a1 a2 hc2 h20 h21 h22)
    (level3 m c E2 E3 a2 a3 hc3 h30 h31 h32)
    (level4 m c E3 E4 a3 a4 hc4 h40 h41 h42)
    (level5 m c E4 E5 a4 a5 hc5 h50 h51 h52)
    i r e

end Cert.KernelIdeal.Val
end
-- ==== Proof.SpecLaw.lean ====
import proofs.«167552_j64123861729349_1_alg».proof.Proof.Spec
import Mathlib.Algebra.BigOperators.Fin

noncomputable section

namespace Cert.Spec

open scoped BigOperators

theorem pair_row_col : ∀ (i : Fin 16) (s : Fin 4) (h : (pair i s).val < 60),
    rows ⟨(pair i s).val, h⟩ = i ∧ cols ⟨(pair i s).val, h⟩ = col i s := by decide

theorem pair_inj : ∀ (i : Fin 16) (s s' : Fin 4), (pair i s).val < 60 → (pair i s).val = (pair i s').val → s = s' := by decide

theorem pair_surj : ∀ p : Fin 60, ∃ s : Fin 4, (pair (rows p) s).val = p.val := by decide

theorem sum_slots (i : Fin 16) (f : Fin 60 → Fin 16 → EReal) :
    (∑ s : Fin 4, if h : (pair i s).val < 60 then f ⟨(pair i s).val, h⟩ (col i s) else 0)
      = ∑ p : Fin 60, if rows p = i then f p (cols p) else 0 := by
  have hlt : ∀ s : Fin 4, (if h : (pair i s).val < 60 then f ⟨(pair i s).val, h⟩ (col i s) else 0) ≠ 0 → (pair i s).val < 60 :=
    fun s hs => by by_contra h; exact hs (dif_neg h)
  refine Finset.sum_bij_ne_zero (fun s _ hs => (⟨(pair i s).val, hlt s hs⟩ : Fin 60)) (fun _ _ _ => Finset.mem_univ _) ?_ ?_ ?_
  · intro s _ hs s' _ hs' heq
    have hv : (pair i s).val = (pair i s').val := Fin.mk.inj heq
    exact pair_inj i s s' (hlt s hs) hv
  · intro p _ hp
    have hr : rows p = i := by by_contra h; exact hp (if_neg h)
    obtain ⟨s, hs⟩ := pair_surj p
    rw [hr] at hs
    have hlt' : (pair i s).val < 60 := hs ▸ p.isLt
    have hpe : (⟨(pair i s).val, hlt'⟩ : Fin 60) = p := Fin.ext hs
    have hval : (if h : (pair i s).val < 60 then f ⟨(pair i s).val, h⟩ (col i s) else 0) = f p (cols p) := by
      rw [dif_pos hlt']; rw [← (pair_row_col i s hlt').2, hpe]
    refine ⟨s, Finset.mem_univ _, ?_, hpe⟩
    rw [hval]; rw [if_pos hr] at hp; exact hp
  · intro s _ hs
    have h := hlt s hs
    obtain ⟨h1, h2⟩ := pair_row_col i s h
    rw [dif_pos h, if_pos h1, h2]

theorem slot_term (W : Wts) (b : Bias) (S : Act) (i : Fin 16) (s : Fin 4) (r : Fin 8192) (e : Fin 256) :
    slotDot (Wpad W) S i s r e + bpad b i s e
      = if h : (pair i s).val < 60 then (∑ d : Fin 256, S (col i s) r d * W ⟨(pair i s).val, h⟩ e d) + b ⟨(pair i s).val, h⟩ e else 0 := by
  unfold slotDot Wpad bpad
  by_cases h : (pair i s).val < 60
  · simp only [dif_pos h]
  · simp only [dif_neg h, mul_zero, Finset.sum_const_zero, add_zero]

theorem kstep_eq_step (W : Wts) (b : Bias) (S : Act) : kstep (Wpad W) (bpad b) S = step W b S := by
  funext i r e
  unfold kstep step
  have h4 : slotDot (Wpad W) S i 0 r e + bpad b i 0 e + slotDot (Wpad W) S i 1 r e + bpad b i 1 e
      + slotDot (Wpad W) S i 2 r e + bpad b i 2 e + slotDot (Wpad W) S i 3 r e + bpad b i 3 e
      = ∑ s : Fin 4, (slotDot (Wpad W) S i s r e + bpad b i s e) := by
    rw [Fin.sum_univ_four]; simp only [add_assoc]
  rw [h4]
  simp only [slot_term]
  rw [sum_slots i (fun p c => (∑ d : Fin 256, S c r d * W p e d) + b p e)]

theorem kout_eq_out (X : Inp) (W : Wts) (b : Bias) : kout X W b = out X W b := by
  unfold kout out
  simp only [kstep_eq_step]

end Cert.Spec

end
-- ==== Proof.KernelSide.lean ====
import proofs.«167552_j64123861729349_1_alg».proof.Proof.KI.SegsRun
import proofs.«167552_j64123861729349_1_alg».proof.Proof.KI.Chain
import proofs.«167552_j64123861729349_1_alg».proof.Proof.SpecLaw

noncomputable section

namespace Cert.Proof.KernelSide

open Idealize.ShloMosaic Idealize.SL.Sem
open Cert.KernelIdeal Cert.KernelIdeal.Gen

theorem hcol_lit : ∀ (i : Fin 16) (s : Fin 4),
    (lit2 (S16x4.rowMajor (ValueIdx.ix2 i s))).toNat = (Cert.Spec.col i s).val := by decide

def specArr (X : Vec Ideal S8192x256 .f32) (W : Vec Ideal S60x256x256 .f32) (b : Vec Ideal S60x256 .f32) :
    Vec Ideal S16x8192x256 .f32 :=
  fun idx => Cert.Spec.out (fun r d => X (ValueIdx.ix2 r d)) (fun p e d => W (ValueIdx.ix3 p e d)) (fun p e => b (ValueIdx.ix2 p e))
    (idx 0) (idx 1) (idx 2)

variable (m : (ℓ : Loc nD τ sig) → Buf (Elt Ideal) ℓ)

theorem result_eq (c : Dev nD) :
    ((Fr.dat5 (F := Ideal) (Fr.Ve5 m) Fr.adm5 c).arrAt 3 (cfg5 (Fr.adm5 (F := Ideal))).N : Vec Ideal S16x8192x256 .f32)
      = specArr (m ((c.tc : Thread nD τ).loc main_arg0)) (m ((c.tc : Thread nD τ).loc main_arg1)) (m ((c.tc : Thread nD τ).loc main_arg2)) := by
  funext idx
  rw [ValueIdx.eq_ix3 idx]
  refine (Val.kernel_out_apply m c (Fr.Ve0 m) (Fr.Ve1 m) (Fr.Ve2 m) (Fr.Ve3 m) (Fr.Ve4 m) (Fr.Ve5 m)
    Fr.adm1 Fr.adm2 Fr.adm3 Fr.adm4 Fr.adm5 hcol_lit hcol_lit hcol_lit hcol_lit hcol_lit
    (Fr.Ve0_arg0 m c) (Fr.Ve0_v10 m c) (Fr.Ve0_v12 m c)
    (Fr.Ve1_in m c) (Fr.Ve1_v6 m c) (Fr.Ve1_v9 m c)
    (Fr.Ve2_in m c) (Fr.Ve2_v6 m c) (Fr.Ve2_v9 m c)
    (Fr.Ve3_in m c) (Fr.Ve3_v6 m c) (Fr.Ve3_v9 m c)
    (Fr.Ve4_in m c) (Fr.Ve4_v6 m c) (Fr.Ve4_v9 m c)
    (Fr.Ve5_in m c) (Fr.Ve5_v6 m c) (Fr.Ve5_v9 m c) (idx 0) (idx 1) (idx 2)).trans ?_
  exact congrFun (congrFun (congrFun (Cert.Spec.kout_eq_out _ _ _) (idx 0)) (idx 1)) (idx 2)

theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v18)
        = specArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c => ⟨(h c).1.trans (result_eq m c), (h c).2⟩) (Fr.run_valued (F := Ideal) m ρ)

end Cert.Proof.KernelSide

end
-- ==== Proof.Ref.RunDefs.lean ====
import proofs.«167552_j64123861729349_1_alg».proof.Proof.Gen.ReferenceIdeal
import Idealize.ShloMosaic.PureOps

noncomputable section

namespace Cert.ReferenceIdeal.Run

open Cert.ReferenceIdeal Cert.ReferenceIdeal.Gen Idealize.ShloMosaic

variable {F : FTy → Type} [FloatOps F]

def ref0 (X : (⟨S8192x256, .f32⟩ : BufTy).Contents (Elt F)) (W : (⟨S60x256x256, .f32⟩ : BufTy).Contents (Elt F))
    (b : (⟨S60x256, .f32⟩ : BufTy).Contents (Elt F)) : (⟨S16x8192x256, .f32⟩ : BufTy).Contents (Elt F) :=
  maximumf
    (Host.scatterAdd scatter_S16x8192x256_S16x1_S16x8192x256_12_0_0_1
      (broadcastInDim S16x8192x256 ![] bcast_S_S16x8192x256 (constant S_ .f32 0x00000000#32))
      (broadcastInDim S16x1 ![0] bcast_S16_S16x1_0 (fun i => lit1 (S16.rowMajor i) : (⟨S16, .i32⟩ : BufTy).Contents (Elt F)))
      (addf
        (transpose S16x8192x256 [0, 2, 1]
          (Host.dotGeneral dot_S16x256x256_S8192x256_S16x256x8192_2_1_01_0_n_n none
            (Host.gather gather_S60x256x256_S16x1_S16x256x256_12_0_n_n_0_1_1256256 W
              (broadcastInDim S16x1 ![0] bcast_S16_S16x1_0
                (select (constantI S16 1 0#1)
                  (addi (fun i => lit0 (S16.rowMajor i) : (⟨S16, .i32⟩ : BufTy).Contents (Elt F))
                    (broadcastInDim S16 ![] bcast_S_S16 (constantI S_ 32 60#32)))
                  (fun i => lit0 (S16.rowMajor i) : (⟨S16, .i32⟩ : BufTy).Contents (Elt F)))))
            X)
          transposes_S16x256x8192_S16x8192x256_0_2_1)
        (broadcastInDim S16x8192x256 ![0, 1, 2] bcast_S16x1x256_S16x8192x256_0_1_2
          (broadcastInDim S16x1x256 ![0, 2] bcast_S16x256_S16x1x256_0_2
            (Host.gather gather_S60x256_S16x1_S16x256_1_0_n_n_0_1_1256 b
              (broadcastInDim S16x1 ![0] bcast_S16_S16x1_0
                (select (constantI S16 1 0#1)
                  (addi (fun i => lit0 (S16.rowMajor i) : (⟨S16, .i32⟩ : BufTy).Contents (Elt F))
                    (broadcastInDim S16 ![] bcast_S_S16 (constantI S_ 32 60#32)))
                  (fun i => lit0 (S16.rowMajor i) : (⟨S16, .i32⟩ : BufTy).Contents (Elt F)))))))))
    (broadcastInDim S16x8192x256 ![] bcast_S_S16x8192x256 (constant S_ .f32 0x00000000#32))

def refStep (S : (⟨S16x8192x256, .f32⟩ : BufTy).Contents (Elt F)) (W : (⟨S60x256x256, .f32⟩ : BufTy).Contents (Elt F))
    (b : (⟨S60x256, .f32⟩ : BufTy).Contents (Elt F)) : (⟨S16x8192x256, .f32⟩ : BufTy).Contents (Elt F) :=
  maximumf
    (Host.scatterAdd scatter_S16x8192x256_S60x1_S60x8192x256_12_0_0_1
      (broadcastInDim S16x8192x256 ![] bcast_S_S16x8192x256 (constant S_ .f32 0x00000000#32))
      (broadcastInDim S60x1 ![0] bcast_S60_S60x1_0 (fun i => lit3 (S60.rowMajor i) : (⟨S60, .i32⟩ : BufTy).Contents (Elt F)))
      (addf
        (Host.dotGeneral dot_S60x8192x256_S60x256x256_S60x8192x256_2_2_1_1_0_0 none
          (Host.gather gather_S16x8192x256_S60x1_S60x8192x256_12_0_n_n_0_1_18192256 S
            (broadcastInDim S60x1 ![0] bcast_S60_S60x1_0
              (select (constantI S60 1 0#1)
                (addi (fun i => lit2 (S60.rowMajor i) : (⟨S60, .i32⟩ : BufTy).Contents (Elt F))
                  (broadcastInDim S60 ![] bcast_S_S60 (constantI S_ 32 16#32)))
                (fun i => lit2 (S60.rowMajor i) : (⟨S60, .i32⟩ : BufTy).Contents (Elt F)))))
          W)
        (broadcastInDim S60x8192x256 ![0, 1, 2] bcast_S60x1x256_S60x8192x256_0_1_2
          (broadcastInDim S60x1x256 ![0, 2] bcast_S60x256_S60x1x256_0_2 b))))
    (broadcastInDim S16x8192x256 ![] bcast_S_S16x8192x256 (constant S_ .f32 0x00000000#32))

end Cert.ReferenceIdeal.Run

end
-- ==== Proof.Ref.Run.lean ====
import proofs.«167552_j64123861729349_1_alg».proof.Proof.Ref.RunDefs
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

abbrev opsC : List (HloOp τ sig (Elt F)) :=
  [ nullary main_c (fun i => lit0 (S16.rowMajor i)),
    nullary main_c_0 (constantI S16 1 0#1),
    nullary main_c_1 (constantI S16 1 0#1),
    nullary main_c_2 (fun i => lit1 (S16.rowMajor i)),
    nullary main_c_3 (fun i => lit2 (S60.rowMajor i)),
    nullary main_c_4 (constantI S60 1 0#1),
    nullary main_c_5 (fun i => lit3 (S60.rowMajor i)),
    nullary main_c_6 (constantI S60 1 0#1),
    nullary main_c_7 (constantI S60 1 0#1),
    nullary main_c_8 (constantI S60 1 0#1),
    nullary main_c_9 (constantI S60 1 0#1) ]

abbrev ops0 : List (HloOp τ sig (Elt F)) :=
  [ nullary main_c_10 (constantI S_ 32 60#32),
    unary main_c_10 main_v0 (broadcastInDim S16 ![] bcast_S_S16 : (⟨S_, .i32⟩ : BufTy).Contents (Elt F) → (⟨S16, .i32⟩ : BufTy).Contents (Elt F)),
    binary main_c main_v0 main_v1 (addi : (⟨S16, .i32⟩ : BufTy).Contents (Elt F) → (⟨S16, .i32⟩ : BufTy).Contents (Elt F) → (⟨S16, .i32⟩ : BufTy).Contents (Elt F)),
    ternary main_c_0 main_v1 main_c main_v2 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v2 main_v3 (broadcastInDim S16x1 ![0] bcast_S16_S16x1_0 : (⟨S16, .i32⟩ : BufTy).Contents (Elt F) → (⟨S16x1, .i32⟩ : BufTy).Contents (Elt F)),
    binary main_arg1 main_v3 main_v4 ((fun x i => Host.gather gather_S60x256x256_S16x1_S16x256x256_12_0_n_n_0_1_1256256 x i) : (⟨S60x256x256, .f32⟩ : BufTy).Contents (Elt F) → (⟨S16x1, .i32⟩ : BufTy).Contents (Elt F) → (⟨S16x256x256, .f32⟩ : BufTy).Contents (Elt F)),
    binary main_v4 main_arg0 main_v5 ((fun l r => Host.dotGeneral dot_S16x256x256_S8192x256_S16x256x8192_2_1_01_0_n_n none l r) : (⟨S16x256x256, .f32⟩ : BufTy).Contents (Elt F) → (⟨S8192x256, .f32⟩ : BufTy).Contents (Elt F) → (⟨S16x256x8192, .f32⟩ : BufTy).Contents (Elt F)),
    unary main_v5 main_v6 ((transpose S16x8192x256 [0, 2, 1] · transposes_S16x256x8192_S16x8192x256_0_2_1) : (⟨S16x256x8192, .f32⟩ : BufTy).Contents (Elt F) → (⟨S16x8192x256, .f32⟩ : BufTy).Contents (Elt F)),
    nullary main_c_11 (constantI S_ 32 60#32),
    unary main_c_11 main_v7 (broadcastInDim S16 ![] bcast_S_S16 : (⟨S_, .i32⟩ : BufTy).Contents (Elt F) → (⟨S16, .i32⟩ : BufTy).Contents (Elt F)),
    binary main_c main_v7 main_v8 (addi : (⟨S16, .i32⟩ : BufTy).Contents (Elt F) → (⟨S16, .i32⟩ : BufTy).Contents (Elt F) → (⟨S16, .i32⟩ : BufTy).Contents (Elt F)),
    ternary main_c_1 main_v8 main_c main_v9 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v9 main_v10 (broadcastInDim S16x1 ![0] bcast_S16_S16x1_0 : (⟨S16, .i32⟩ : BufTy).Contents (Elt F) → (⟨S16x1, .i32⟩ : BufTy).Contents (Elt F)),
    binary main_arg2 main_v10 main_v11 ((fun x i => Host.gather gather_S60x256_S16x1_S16x256_1_0_n_n_0_1_1256 x i) : (⟨S60x256, .f32⟩ : BufTy).Contents (Elt F) → (⟨S16x1, .i32⟩ : BufTy).Contents (Elt F) → (⟨S16x256, .f32⟩ : BufTy).Contents (Elt F)),
    unary main_v11 main_v12 (broadcastInDim S16x1x256 ![0, 2] bcast_S16x256_S16x1x256_0_2 : (⟨S16x256, .f32⟩ : BufTy).Contents (Elt F) → (⟨S16x1x256, .f32⟩ : BufTy).Contents (Elt F)),
    unary main_v12 main_v13 (broadcastInDim S16x8192x256 ![0, 1, 2] bcast_S16x1x256_S16x8192x256_0_1_2 : (⟨S16x1x256, .f32⟩ : BufTy).Contents (Elt F) → (⟨S16x8192x256, .f32⟩ : BufTy).Contents (Elt F)),
    binary main_v6 main_v13 main_v14 (addf : (⟨S16x8192x256, .f32⟩ : BufTy).Contents (Elt F) → (⟨S16x8192x256, .f32⟩ : BufTy).Contents (Elt F) → (⟨S16x8192x256, .f32⟩ : BufTy).Contents (Elt F)),
    nullary main_cst (constant S_ .f32 0x00000000#32),
    unary main_cst main_v15 (broadcastInDim S16x8192x256 ![] bcast_S_S16x8192x256 : (⟨S_, .f32⟩ : BufTy).Contents (Elt F) → (⟨S16x8192x256, .f32⟩ : BufTy).Contents (Elt F)),
    unary main_c_2 main_v16 (broadcastInDim S16x1 ![0] bcast_S16_S16x1_0 : (⟨S16, .i32⟩ : BufTy).Contents (Elt F) → (⟨S16x1, .i32⟩ : BufTy).Contents (Elt F)),
    ternary main_v15 main_v16 main_v14 main_v17 ((fun x i u => Host.scatterAdd scatter_S16x8192x256_S16x1_S16x8192x256_12_0_0_1 x i u) : (⟨S16x8192x256, .f32⟩ : BufTy).Contents (Elt F) → (⟨S16x1, .i32⟩ : BufTy).Contents (Elt F) → (⟨S16x8192x256, .f32⟩ : BufTy).Contents (Elt F) → (⟨S16x8192x256, .f32⟩ : BufTy).Contents (Elt F)),
    TRef.nullary main_call0.cst (constant S_ .f32 0x00000000#32),
    TRef.unary main_call0.cst main_call0.v0 (broadcastInDim S16x8192x256 ![] bcast_S_S16x8192x256),
    TRef.binary (TRef.of (T := ⟨S16x8192x256, .f32⟩) main_v17) main_call0.v0 main_call0.v1 maximumf ]

abbrev ops1 : List (HloOp τ sig (Elt F)) :=
  [ nullary main_c_12 (constantI S_ 32 16#32),
    unary main_c_12 main_v19 (broadcastInDim S60 ![] bcast_S_S60 : (⟨S_, .i32⟩ : BufTy).Contents (Elt F) → (⟨S60, .i32⟩ : BufTy).Contents (Elt F)),
    binary main_c_3 main_v19 main_v20 (addi : (⟨S60, .i32⟩ : BufTy).Contents (Elt F) → (⟨S60, .i32⟩ : BufTy).Contents (Elt F) → (⟨S60, .i32⟩ : BufTy).Contents (Elt F)),
    ternary main_c_4 main_v20 main_c_3 main_v21 (select : (⟨S60, .i1⟩ : BufTy).Contents (Elt F) → (⟨S60, .i32⟩ : BufTy).Contents (Elt F) → (⟨S60, .i32⟩ : BufTy).Contents (Elt F) → (⟨S60, .i32⟩ : BufTy).Contents (Elt F)),
    unary main_v21 main_v22 (broadcastInDim S60x1 ![0] bcast_S60_S60x1_0 : (⟨S60, .i32⟩ : BufTy).Contents (Elt F) → (⟨S60x1, .i32⟩ : BufTy).Contents (Elt F)),
    binary main_v18 main_v22 main_v23 ((fun x i => Host.gather gather_S16x8192x256_S60x1_S60x8192x256_12_0_n_n_0_1_18192256 x i) : (⟨S16x8192x256, .f32⟩ : BufTy).Contents (Elt F) → (⟨S60x1, .i32⟩ : BufTy).Contents (Elt F) → (⟨S60x8192x256, .f32⟩ : BufTy).Contents (Elt F)),
    binary main_v23 main_arg1 main_v24 ((fun l r => Host.dotGeneral dot_S60x8192x256_S60x256x256_S60x8192x256_2_2_1_1_0_0 none l r) : (⟨S60x8192x256, .f32⟩ : BufTy).Contents (Elt F) → (⟨S60x256x256, .f32⟩ : BufTy).Contents (Elt F) → (⟨S60x8192x256, .f32⟩ : BufTy).Contents (Elt F)),
    unary main_arg2 main_v25 (broadcastInDim S60x1x256 ![0, 2] bcast_S60x256_S60x1x256_0_2 : (⟨S60x256, .f32⟩ : BufTy).Contents (Elt F) → (⟨S60x1x256, .f32⟩ : BufTy).Contents (Elt F)),
    unary main_v25 main_v26 (broadcastInDim S60x8192x256 ![0, 1, 2] bcast_S60x1x256_S60x8192x256_0_1_2 : (⟨S60x1x256, .f32⟩ : BufTy).Contents (Elt F) → (⟨S60x8192x256, .f32⟩ : BufTy).Contents (Elt F)),
    binary main_v24 main_v26 main_v27 (addf : (⟨S60x8192x256, .f32⟩ : BufTy).Contents (Elt F) → (⟨S60x8192x256, .f32⟩ : BufTy).Contents (Elt F) → (⟨S60x8192x256, .f32⟩ : BufTy).Contents (Elt F)),
    nullary main_cst_13 (constant S_ .f32 0x00000000#32),
    unary main_cst_13 main_v28 (broadcastInDim S16x8192x256 ![] bcast_S_S16x8192x256 : (⟨S_, .f32⟩ : BufTy).Contents (Elt F) → (⟨S16x8192x256, .f32⟩ : BufTy).Contents (Elt F)),
    unary main_c_5 main_v29 (broadcastInDim S60x1 ![0] bcast_S60_S60x1_0 : (⟨S60, .i32⟩ : BufTy).Contents (Elt F) → (⟨S60x1, .i32⟩ : BufTy).Contents (Elt F)),
    ternary main_v28 main_v29 main_v27 main_v30 ((fun x i u => Host.scatterAdd scatter_S16x8192x256_S60x1_S60x8192x256_12_0_0_1 x i u) : (⟨S16x8192x256, .f32⟩ : BufTy).Contents (Elt F) → (⟨S60x1, .i32⟩ : BufTy).Contents (Elt F) → (⟨S60x8192x256, .f32⟩ : BufTy).Contents (Elt F) → (⟨S16x8192x256, .f32⟩ : BufTy).Contents (Elt F)),
    TRef.nullary main_call1.cst (constant S_ .f32 0x00000000#32),
    TRef.unary main_call1.cst main_call1.v0 (broadcastInDim S16x8192x256 ![] bcast_S_S16x8192x256),
    TRef.binary (TRef.of (T := ⟨S16x8192x256, .f32⟩) main_v30) main_call1.v0 main_call1.v1 maximumf ]

abbrev ops2 : List (HloOp τ sig (Elt F)) :=
  [ nullary main_c_14 (constantI S_ 32 16#32),
    unary main_c_14 main_v32 (broadcastInDim S60 ![] bcast_S_S60 : (⟨S_, .i32⟩ : BufTy).Contents (Elt F) → (⟨S60, .i32⟩ : BufTy).Contents (Elt F)),
    binary main_c_3 main_v32 main_v33 (addi : (⟨S60, .i32⟩ : BufTy).Contents (Elt F) → (⟨S60, .i32⟩ : BufTy).Contents (Elt F) → (⟨S60, .i32⟩ : BufTy).Contents (Elt F)),
    ternary main_c_6 main_v33 main_c_3 main_v34 (select : (⟨S60, .i1⟩ : BufTy).Contents (Elt F) → (⟨S60, .i32⟩ : BufTy).Contents (Elt F) → (⟨S60, .i32⟩ : BufTy).Contents (Elt F) → (⟨S60, .i32⟩ : BufTy).Contents (Elt F)),
    unary main_v34 main_v35 (broadcastInDim S60x1 ![0] bcast_S60_S60x1_0 : (⟨S60, .i32⟩ : BufTy).Contents (Elt F) → (⟨S60x1, .i32⟩ : BufTy).Contents (Elt F)),
    binary main_v31 main_v35 main_v36 ((fun x i => Host.gather gather_S16x8192x256_S60x1_S60x8192x256_12_0_n_n_0_1_18192256 x i) : (⟨S16x8192x256, .f32⟩ : BufTy).Contents (Elt F) → (⟨S60x1, .i32⟩ : BufTy).Contents (Elt F) → (⟨S60x8192x256, .f32⟩ : BufTy).Contents (Elt F)),
    binary main_v36 main_arg1 main_v37 ((fun l r => Host.dotGeneral dot_S60x8192x256_S60x256x256_S60x8192x256_2_2_1_1_0_0 none l r) : (⟨S60x8192x256, .f32⟩ : BufTy).Contents (Elt F) → (⟨S60x256x256, .f32⟩ : BufTy).Contents (Elt F) → (⟨S60x8192x256, .f32⟩ : BufTy).Contents (Elt F)),
    unary main_arg2 main_v38 (broadcastInDim S60x1x256 ![0, 2] bcast_S60x256_S60x1x256_0_2 : (⟨S60x256, .f32⟩ : BufTy).Contents (Elt F) → (⟨S60x1x256, .f32⟩ : BufTy).Contents (Elt F)),
    unary main_v38 main_v39 (broadcastInDim S60x8192x256 ![0, 1, 2] bcast_S60x1x256_S60x8192x256_0_1_2 : (⟨S60x1x256, .f32⟩ : BufTy).Contents (Elt F) → (⟨S60x8192x256, .f32⟩ : BufTy).Contents (Elt F)),
    binary main_v37 main_v39 main_v40 (addf : (⟨S60x8192x256, .f32⟩ : BufTy).Contents (Elt F) → (⟨S60x8192x256, .f32⟩ : BufTy).Contents (Elt F) → (⟨S60x8192x256, .f32⟩ : BufTy).Contents (Elt F)),
    nullary main_cst_15 (constant S_ .f32 0x00000000#32),
    unary main_cst_15 main_v41 (broadcastInDim S16x8192x256 ![] bcast_S_S16x8192x256 : (⟨S_, .f32⟩ : BufTy).Contents (Elt F) → (⟨S16x8192x256, .f32⟩ : BufTy).Contents (Elt F)),
    unary main_c_5 main_v42 (broadcastInDim S60x1 ![0] bcast_S60_S60x1_0 : (⟨S60, .i32⟩ : BufTy).Contents (Elt F) → (⟨S60x1, .i32⟩ : BufTy).Contents (Elt F)),
    ternary main_v41 main_v42 main_v40 main_v43 ((fun x i u => Host.scatterAdd scatter_S16x8192x256_S60x1_S60x8192x256_12_0_0_1 x i u) : (⟨S16x8192x256, .f32⟩ : BufTy).Contents (Elt F) → (⟨S60x1, .i32⟩ : BufTy).Contents (Elt F) → (⟨S60x8192x256, .f32⟩ : BufTy).Contents (Elt F) → (⟨S16x8192x256, .f32⟩ : BufTy).Contents (Elt F)),
    TRef.nullary main_call2.cst (constant S_ .f32 0x00000000#32),
    TRef.unary main_call2.cst main_call2.v0 (broadcastInDim S16x8192x256 ![] bcast_S_S16x8192x256),
    TRef.binary (TRef.of (T := ⟨S16x8192x256, .f32⟩) main_v43) main_call2.v0 main_call2.v1 maximumf ]

abbrev ops3 : List (HloOp τ sig (Elt F)) :=
  [ nullary main_c_16 (constantI S_ 32 16#32),
    unary main_c_16 main_v45 (broadcastInDim S60 ![] bcast_S_S60 : (⟨S_, .i32⟩ : BufTy).Contents (Elt F) → (⟨S60, .i32⟩ : BufTy).Contents (Elt F)),
    binary main_c_3 main_v45 main_v46 (addi : (⟨S60, .i32⟩ : BufTy).Contents (Elt F) → (⟨S60, .i32⟩ : BufTy).Contents (Elt F) → (⟨S60, .i32⟩ : BufTy).Contents (Elt F)),
    ternary main_c_7 main_v46 main_c_3 main_v47 (select : (⟨S60, .i1⟩ : BufTy).Contents (Elt F) → (⟨S60, .i32⟩ : BufTy).Contents (Elt F) → (⟨S60, .i32⟩ : BufTy).Contents (Elt F) → (⟨S60, .i32⟩ : BufTy).Contents (Elt F)),
    unary main_v47 main_v48 (broadcastInDim S60x1 ![0] bcast_S60_S60x1_0 : (⟨S60, .i32⟩ : BufTy).Contents (Elt F) → (⟨S60x1, .i32⟩ : BufTy).Contents (Elt F)),
    binary main_v44 main_v48 main_v49 ((fun x i => Host.gather gather_S16x8192x256_S60x1_S60x8192x256_12_0_n_n_0_1_18192256 x i) : (⟨S16x8192x256, .f32⟩ : BufTy).Contents (Elt F) → (⟨S60x1, .i32⟩ : BufTy).Contents (Elt F) → (⟨S60x8192x256, .f32⟩ : BufTy).Contents (Elt F)),
    binary main_v49 main_arg1 main_v50 ((fun l r => Host.dotGeneral dot_S60x8192x256_S60x256x256_S60x8192x256_2_2_1_1_0_0 none l r) : (⟨S60x8192x256, .f32⟩ : BufTy).Contents (Elt F) → (⟨S60x256x256, .f32⟩ : BufTy).Contents (Elt F) → (⟨S60x8192x256, .f32⟩ : BufTy).Contents (Elt F)),
    unary main_arg2 main_v51 (broadcastInDim S60x1x256 ![0, 2] bcast_S60x256_S60x1x256_0_2 : (⟨S60x256, .f32⟩ : BufTy).Contents (Elt F) → (⟨S60x1x256, .f32⟩ : BufTy).Contents (Elt F)),
    unary main_v51 main_v52 (broadcastInDim S60x8192x256 ![0, 1, 2] bcast_S60x1x256_S60x8192x256_0_1_2 : (⟨S60x1x256, .f32⟩ : BufTy).Contents (Elt F) → (⟨S60x8192x256, .f32⟩ : BufTy).Contents (Elt F)),
    binary main_v50 main_v52 main_v53 (addf : (⟨S60x8192x256, .f32⟩ : BufTy).Contents (Elt F) → (⟨S60x8192x256, .f32⟩ : BufTy).Contents (Elt F) → (⟨S60x8192x256, .f32⟩ : BufTy).Contents (Elt F)),
    nullary main_cst_17 (constant S_ .f32 0x00000000#32),
    unary main_cst_17 main_v54 (broadcastInDim S16x8192x256 ![] bcast_S_S16x8192x256 : (⟨S_, .f32⟩ : BufTy).Contents (Elt F) → (⟨S16x8192x256, .f32⟩ : BufTy).Contents (Elt F)),
    unary main_c_5 main_v55 (broadcastInDim S60x1 ![0] bcast_S60_S60x1_0 : (⟨S60, .i32⟩ : BufTy).Contents (Elt F) → (⟨S60x1, .i32⟩ : BufTy).Contents (Elt F)),
    ternary main_v54 main_v55 main_v53 main_v56 ((fun x i u => Host.scatterAdd scatter_S16x8192x256_S60x1_S60x8192x256_12_0_0_1 x i u) : (⟨S16x8192x256, .f32⟩ : BufTy).Contents (Elt F) → (⟨S60x1, .i32⟩ : BufTy).Contents (Elt F) → (⟨S60x8192x256, .f32⟩ : BufTy).Contents (Elt F) → (⟨S16x8192x256, .f32⟩ : BufTy).Contents (Elt F)),
    TRef.nullary main_call3.cst (constant S_ .f32 0x00000000#32),
    TRef.unary main_call3.cst main_call3.v0 (broadcastInDim S16x8192x256 ![] bcast_S_S16x8192x256),
    TRef.binary (TRef.of (T := ⟨S16x8192x256, .f32⟩) main_v56) main_call3.v0 main_call3.v1 maximumf ]

abbrev ops4 : List (HloOp τ sig (Elt F)) :=
  [ nullary main_c_18 (constantI S_ 32 16#32),
    unary main_c_18 main_v58 (broadcastInDim S60 ![] bcast_S_S60 : (⟨S_, .i32⟩ : BufTy).Contents (Elt F) → (⟨S60, .i32⟩ : BufTy).Contents (Elt F)),
    binary main_c_3 main_v58 main_v59 (addi : (⟨S60, .i32⟩ : BufTy).Contents (Elt F) → (⟨S60, .i32⟩ : BufTy).Contents (Elt F) → (⟨S60, .i32⟩ : BufTy).Contents (Elt F)),
    ternary main_c_8 main_v59 main_c_3 main_v60 (select : (⟨S60, .i1⟩ : BufTy).Contents (Elt F) → (⟨S60, .i32⟩ : BufTy).Contents (Elt F) → (⟨S60, .i32⟩ : BufTy).Contents (Elt F) → (⟨S60, .i32⟩ : BufTy).Contents (Elt F)),
    unary main_v60 main_v61 (broadcastInDim S60x1 ![0] bcast_S60_S60x1_0 : (⟨S60, .i32⟩ : BufTy).Contents (Elt F) → (⟨S60x1, .i32⟩ : BufTy).Contents (Elt F)),
    binary main_v57 main_v61 main_v62 ((fun x i => Host.gather gather_S16x8192x256_S60x1_S60x8192x256_12_0_n_n_0_1_18192256 x i) : (⟨S16x8192x256, .f32⟩ : BufTy).Contents (Elt F) → (⟨S60x1, .i32⟩ : BufTy).Contents (Elt F) → (⟨S60x8192x256, .f32⟩ : BufTy).Contents (Elt F)),
    binary main_v62 main_arg1 main_v63 ((fun l r => Host.dotGeneral dot_S60x8192x256_S60x256x256_S60x8192x256_2_2_1_1_0_0 none l r) : (⟨S60x8192x256, .f32⟩ : BufTy).Contents (Elt F) → (⟨S60x256x256, .f32⟩ : BufTy).Contents (Elt F) → (⟨S60x8192x256, .f32⟩ : BufTy).Contents (Elt F)),
    unary main_arg2 main_v64 (broadcastInDim S60x1x256 ![0, 2] bcast_S60x256_S60x1x256_0_2 : (⟨S60x256, .f32⟩ : BufTy).Contents (Elt F) → (⟨S60x1x256, .f32⟩ : BufTy).Contents (Elt F)),
    unary main_v64 main_v65 (broadcastInDim S60x8192x256 ![0, 1, 2] bcast_S60x1x256_S60x8192x256_0_1_2 : (⟨S60x1x256, .f32⟩ : BufTy).Contents (Elt F) → (⟨S60x8192x256, .f32⟩ : BufTy).Contents (Elt F)),
    binary main_v63 main_v65 main_v66 (addf : (⟨S60x8192x256, .f32⟩ : BufTy).Contents (Elt F) → (⟨S60x8192x256, .f32⟩ : BufTy).Contents (Elt F) → (⟨S60x8192x256, .f32⟩ : BufTy).Contents (Elt F)),
    nullary main_cst_19 (constant S_ .f32 0x00000000#32),
    unary main_cst_19 main_v67 (broadcastInDim S16x8192x256 ![] bcast_S_S16x8192x256 : (⟨S_, .f32⟩ : BufTy).Contents (Elt F) → (⟨S16x8192x256, .f32⟩ : BufTy).Contents (Elt F)),
    unary main_c_5 main_v68 (broadcastInDim S60x1 ![0] bcast_S60_S60x1_0 : (⟨S60, .i32⟩ : BufTy).Contents (Elt F) → (⟨S60x1, .i32⟩ : BufTy).Contents (Elt F)),
    ternary main_v67 main_v68 main_v66 main_v69 ((fun x i u => Host.scatterAdd scatter_S16x8192x256_S60x1_S60x8192x256_12_0_0_1 x i u) : (⟨S16x8192x256, .f32⟩ : BufTy).Contents (Elt F) → (⟨S60x1, .i32⟩ : BufTy).Contents (Elt F) → (⟨S60x8192x256, .f32⟩ : BufTy).Contents (Elt F) → (⟨S16x8192x256, .f32⟩ : BufTy).Contents (Elt F)),
    TRef.nullary main_call4.cst (constant S_ .f32 0x00000000#32),
    TRef.unary main_call4.cst main_call4.v0 (broadcastInDim S16x8192x256 ![] bcast_S_S16x8192x256),
    TRef.binary (TRef.of (T := ⟨S16x8192x256, .f32⟩) main_v69) main_call4.v0 main_call4.v1 maximumf ]

abbrev ops5 : List (HloOp τ sig (Elt F)) :=
  [ nullary main_c_20 (constantI S_ 32 16#32),
    unary main_c_20 main_v71 (broadcastInDim S60 ![] bcast_S_S60 : (⟨S_, .i32⟩ : BufTy).Contents (Elt F) → (⟨S60, .i32⟩ : BufTy).Contents (Elt F)),
    binary main_c_3 main_v71 main_v72 (addi : (⟨S60, .i32⟩ : BufTy).Contents (Elt F) → (⟨S60, .i32⟩ : BufTy).Contents (Elt F) → (⟨S60, .i32⟩ : BufTy).Contents (Elt F)),
    ternary main_c_9 main_v72 main_c_3 main_v73 (select : (⟨S60, .i1⟩ : BufTy).Contents (Elt F) → (⟨S60, .i32⟩ : BufTy).Contents (Elt F) → (⟨S60, .i32⟩ : BufTy).Contents (Elt F) → (⟨S60, .i32⟩ : BufTy).Contents (Elt F)),
    unary main_v73 main_v74 (broadcastInDim S60x1 ![0] bcast_S60_S60x1_0 : (⟨S60, .i32⟩ : BufTy).Contents (Elt F) → (⟨S60x1, .i32⟩ : BufTy).Contents (Elt F)),
    binary main_v70 main_v74 main_v75 ((fun x i => Host.gather gather_S16x8192x256_S60x1_S60x8192x256_12_0_n_n_0_1_18192256 x i) : (⟨S16x8192x256, .f32⟩ : BufTy).Contents (Elt F) → (⟨S60x1, .i32⟩ : BufTy).Contents (Elt F) → (⟨S60x8192x256, .f32⟩ : BufTy).Contents (Elt F)),
    binary main_v75 main_arg1 main_v76 ((fun l r => Host.dotGeneral dot_S60x8192x256_S60x256x256_S60x8192x256_2_2_1_1_0_0 none l r) : (⟨S60x8192x256, .f32⟩ : BufTy).Contents (Elt F) → (⟨S60x256x256, .f32⟩ : BufTy).Contents (Elt F) → (⟨S60x8192x256, .f32⟩ : BufTy).Contents (Elt F)),
    unary main_arg2 main_v77 (broadcastInDim S60x1x256 ![0, 2] bcast_S60x256_S60x1x256_0_2 : (⟨S60x256, .f32⟩ : BufTy).Contents (Elt F) → (⟨S60x1x256, .f32⟩ : BufTy).Contents (Elt F)),
    unary main_v77 main_v78 (broadcastInDim S60x8192x256 ![0, 1, 2] bcast_S60x1x256_S60x8192x256_0_1_2 : (⟨S60x1x256, .f32⟩ : BufTy).Contents (Elt F) → (⟨S60x8192x256, .f32⟩ : BufTy).Contents (Elt F)),
    binary main_v76 main_v78 main_v79 (addf : (⟨S60x8192x256, .f32⟩ : BufTy).Contents (Elt F) → (⟨S60x8192x256, .f32⟩ : BufTy).Contents (Elt F) → (⟨S60x8192x256, .f32⟩ : BufTy).Contents (Elt F)),
    nullary main_cst_21 (constant S_ .f32 0x00000000#32),
    unary main_cst_21 main_v80 (broadcastInDim S16x8192x256 ![] bcast_S_S16x8192x256 : (⟨S_, .f32⟩ : BufTy).Contents (Elt F) → (⟨S16x8192x256, .f32⟩ : BufTy).Contents (Elt F)),
    unary main_c_5 main_v81 (broadcastInDim S60x1 ![0] bcast_S60_S60x1_0 : (⟨S60, .i32⟩ : BufTy).Contents (Elt F) → (⟨S60x1, .i32⟩ : BufTy).Contents (Elt F)),
    ternary main_v80 main_v81 main_v79 main_v82 ((fun x i u => Host.scatterAdd scatter_S16x8192x256_S60x1_S60x8192x256_12_0_0_1 x i u) : (⟨S16x8192x256, .f32⟩ : BufTy).Contents (Elt F) → (⟨S60x1, .i32⟩ : BufTy).Contents (Elt F) → (⟨S60x8192x256, .f32⟩ : BufTy).Contents (Elt F) → (⟨S16x8192x256, .f32⟩ : BufTy).Contents (Elt F)),
    TRef.nullary main_call5.cst (constant S_ .f32 0x00000000#32),
    TRef.unary main_call5.cst main_call5.v0 (broadcastInDim S16x8192x256 ![] bcast_S_S16x8192x256),
    TRef.binary (TRef.of (T := ⟨S16x8192x256, .f32⟩) main_v82) main_call5.v0 main_call5.v1 maximumf ]

abbrev ops : List (HloOp τ sig (Elt F)) :=
  opsC ++ (ops0 ++ (ops1 ++ (ops2 ++ (ops3 ++ (ops4 ++ ops5)))))

set_option maxRecDepth 8192 in
set_option maxHeartbeats 4000000 in

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem opsC_sub : (opsC : List (HloOp τ sig (Elt F))).Forall fun op => op.bufs ⊆ tcRefs τ sig :=
  ⟨nullary_bufs_sub .., nullary_bufs_sub .., nullary_bufs_sub .., nullary_bufs_sub .., nullary_bufs_sub ..,
    nullary_bufs_sub .., nullary_bufs_sub .., nullary_bufs_sub .., nullary_bufs_sub .., nullary_bufs_sub ..,
    nullary_bufs_sub ..⟩
theorem ops0_sub : (ops0 : List (HloOp τ sig (Elt F))).Forall fun op => op.bufs ⊆ tcRefs τ sig :=
  ⟨nullary_bufs_sub .., unary_bufs_sub .., binary_bufs_sub .., ternary_bufs_sub .., unary_bufs_sub ..,
    binary_bufs_sub .., binary_bufs_sub .., unary_bufs_sub .., nullary_bufs_sub .., unary_bufs_sub ..,
    binary_bufs_sub .., ternary_bufs_sub .., unary_bufs_sub .., binary_bufs_sub .., unary_bufs_sub ..,
    unary_bufs_sub .., binary_bufs_sub .., nullary_bufs_sub .., unary_bufs_sub .., unary_bufs_sub ..,
    ternary_bufs_sub .., nullary_bufs_sub .., unary_bufs_sub .., binary_bufs_sub ..⟩
theorem ops1_sub : (ops1 : List (HloOp τ sig (Elt F))).Forall fun op => op.bufs ⊆ tcRefs τ sig :=
  ⟨nullary_bufs_sub .., unary_bufs_sub .., binary_bufs_sub .., ternary_bufs_sub .., unary_bufs_sub ..,
    binary_bufs_sub .., binary_bufs_sub .., unary_bufs_sub .., unary_bufs_sub .., binary_bufs_sub ..,
    nullary_bufs_sub .., unary_bufs_sub .., unary_bufs_sub .., ternary_bufs_sub .., nullary_bufs_sub ..,
    unary_bufs_sub .., binary_bufs_sub ..⟩
theorem ops2_sub : (ops2 : List (HloOp τ sig (Elt F))).Forall fun op => op.bufs ⊆ tcRefs τ sig :=
  ⟨nullary_bufs_sub .., unary_bufs_sub .., binary_bufs_sub .., ternary_bufs_sub .., unary_bufs_sub ..,
    binary_bufs_sub .., binary_bufs_sub .., unary_bufs_sub .., unary_bufs_sub .., binary_bufs_sub ..,
    nullary_bufs_sub .., unary_bufs_sub .., unary_bufs_sub .., ternary_bufs_sub .., nullary_bufs_sub ..,
    unary_bufs_sub .., binary_bufs_sub ..⟩
theorem ops3_sub : (ops3 : List (HloOp τ sig (Elt F))).Forall fun op => op.bufs ⊆ tcRefs τ sig :=
  ⟨nullary_bufs_sub .., unary_bufs_sub .., binary_bufs_sub .., ternary_bufs_sub .., unary_bufs_sub ..,
    binary_bufs_sub .., binary_bufs_sub .., unary_bufs_sub .., unary_bufs_sub .., binary_bufs_sub ..,
    nullary_bufs_sub .., unary_bufs_sub .., unary_bufs_sub .., ternary_bufs_sub .., nullary_bufs_sub ..,
    unary_bufs_sub .., binary_bufs_sub ..⟩
theorem ops4_sub : (ops4 : List (HloOp τ sig (Elt F))).Forall fun op => op.bufs ⊆ tcRefs τ sig :=
  ⟨nullary_bufs_sub .., unary_bufs_sub .., binary_bufs_sub .., ternary_bufs_sub .., unary_bufs_sub ..,
    binary_bufs_sub .., binary_bufs_sub .., unary_bufs_sub .., unary_bufs_sub .., binary_bufs_sub ..,
    nullary_bufs_sub .., unary_bufs_sub .., unary_bufs_sub .., ternary_bufs_sub .., nullary_bufs_sub ..,
    unary_bufs_sub .., binary_bufs_sub ..⟩
theorem ops5_sub : (ops5 : List (HloOp τ sig (Elt F))).Forall fun op => op.bufs ⊆ tcRefs τ sig :=
  ⟨nullary_bufs_sub .., unary_bufs_sub .., binary_bufs_sub .., ternary_bufs_sub .., unary_bufs_sub ..,
    binary_bufs_sub .., binary_bufs_sub .., unary_bufs_sub .., unary_bufs_sub .., binary_bufs_sub ..,
    nullary_bufs_sub .., unary_bufs_sub .., unary_bufs_sub .., ternary_bufs_sub .., nullary_bufs_sub ..,
    unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp opsC_sub op h, List.forall_iff_forall_mem.mp ops0_sub op h,
      List.forall_iff_forall_mem.mp ops1_sub op h, List.forall_iff_forall_mem.mp ops2_sub op h,
      List.forall_iff_forall_mem.mp ops3_sub op h, List.forall_iff_forall_mem.mp ops4_sub op h,
      List.forall_iff_forall_mem.mp ops5_sub op h]

abbrev opsC_W : List (Ref sig .tc) :=
  [main_c, main_c_0, main_c_1, main_c_2, main_c_3, main_c_4, main_c_5, main_c_6, main_c_7, main_c_8, main_c_9]

abbrev ops0_W : List (Ref sig .tc) :=
  [main_c_10, main_v0, main_v1, main_v2, main_v3, main_v4, main_v5, main_v6, main_c_11, main_v7, main_v8, main_v9, main_v10, main_v11, main_v12, main_v13, main_v14, main_cst, main_v15, main_v16, main_v17, main_call0_cst, main_call0_v0, main_v18]

abbrev ops1_W : List (Ref sig .tc) :=
  [main_c_12, main_v19, main_v20, main_v21, main_v22, main_v23, main_v24, main_v25, main_v26, main_v27, main_cst_13, main_v28, main_v29, main_v30, main_call1_cst, main_call1_v0, main_v31]

abbrev ops2_W : List (Ref sig .tc) :=
  [main_c_14, main_v32, main_v33, main_v34, main_v35, main_v36, main_v37, main_v38, main_v39, main_v40, main_cst_15, main_v41, main_v42, main_v43, main_call2_cst, main_call2_v0, main_v44]

abbrev ops3_W : List (Ref sig .tc) :=
  [main_c_16, main_v45, main_v46, main_v47, main_v48, main_v49, main_v50, main_v51, main_v52, main_v53, main_cst_17, main_v54, main_v55, main_v56, main_call3_cst, main_call3_v0, main_v57]

abbrev ops4_W : List (Ref sig .tc) :=
  [main_c_18, main_v58, main_v59, main_v60, main_v61, main_v62, main_v63, main_v64, main_v65, main_v66, main_cst_19, main_v67, main_v68, main_v69, main_call4_cst, main_call4_v0, main_v70]

abbrev ops5_W : List (Ref sig .tc) :=
  [main_c_20, main_v71, main_v72, main_v73, main_v74, main_v75, main_v76, main_v77, main_v78, main_v79, main_cst_21, main_v80, main_v81, main_v82, main_call5_cst, main_call5_v0, main_v83]

theorem opsC_writes : (opsC : List (HloOp τ sig (Elt F))).Forall fun op =>
    op.writes ⊆ ((opsC_W.map (Proc.devRef (τ := τ) .tc)).toFinset : Finset (DevRef τ sig)) := by
  simp only [List.Forall]
  repeat' apply And.intro
  all_goals (simp only [nullary_writes, unary_writes, binary_writes, ternary_writes, Finset.singleton_subset_iff,
    List.mem_toFinset]; exact List.mem_map_of_mem (by decide))
theorem ops0_writes : (ops0 : List (HloOp τ sig (Elt F))).Forall fun op =>
    op.writes ⊆ ((ops0_W.map (Proc.devRef (τ := τ) .tc)).toFinset : Finset (DevRef τ sig)) := by
  simp only [List.Forall]
  repeat' apply And.intro
  all_goals (simp only [nullary_writes, unary_writes, binary_writes, ternary_writes, Finset.singleton_subset_iff,
    List.mem_toFinset]; exact List.mem_map_of_mem (by decide))
theorem ops1_writes : (ops1 : List (HloOp τ sig (Elt F))).Forall fun op =>
    op.writes ⊆ ((ops1_W.map (Proc.devRef (τ := τ) .tc)).toFinset : Finset (DevRef τ sig)) := by
  simp only [List.Forall]
  repeat' apply And.intro
  all_goals (simp only [nullary_writes, unary_writes, binary_writes, ternary_writes, Finset.singleton_subset_iff,
    List.mem_toFinset]; exact List.mem_map_of_mem (by decide))
theorem ops2_writes : (ops2 : List (HloOp τ sig (Elt F))).Forall fun op =>
    op.writes ⊆ ((ops2_W.map (Proc.devRef (τ := τ) .tc)).toFinset : Finset (DevRef τ sig)) := by
  simp only [List.Forall]
  repeat' apply And.intro
  all_goals (simp only [nullary_writes, unary_writes, binary_writes, ternary_writes, Finset.singleton_subset_iff,
    List.mem_toFinset]; exact List.mem_map_of_mem (by decide))
theorem ops3_writes : (ops3 : List (HloOp τ sig (Elt F))).Forall fun op =>
    op.writes ⊆ ((ops3_W.map (Proc.devRef (τ := τ) .tc)).toFinset : Finset (DevRef τ sig)) := by
  simp only [List.Forall]
  repeat' apply And.intro
  all_goals (simp only [nullary_writes, unary_writes, binary_writes, ternary_writes, Finset.singleton_subset_iff,
    List.mem_toFinset]; exact List.mem_map_of_mem (by decide))
theorem ops4_writes : (ops4 : List (HloOp τ sig (Elt F))).Forall fun op =>
    op.writes ⊆ ((ops4_W.map (Proc.devRef (τ := τ) .tc)).toFinset : Finset (DevRef τ sig)) := by
  simp only [List.Forall]
  repeat' apply And.intro
  all_goals (simp only [nullary_writes, unary_writes, binary_writes, ternary_writes, Finset.singleton_subset_iff,
    List.mem_toFinset]; exact List.mem_map_of_mem (by decide))
theorem ops5_writes : (ops5 : List (HloOp τ sig (Elt F))).Forall fun op =>
    op.writes ⊆ ((ops5_W.map (Proc.devRef (τ := τ) .tc)).toFinset : Finset (DevRef τ sig)) := by
  simp only [List.Forall]
  repeat' apply And.intro
  all_goals (simp only [nullary_writes, unary_writes, binary_writes, ternary_writes, Finset.singleton_subset_iff,
    List.mem_toFinset]; exact List.mem_map_of_mem (by decide))

abbrev kept : List (Ref sig .tc) :=
  [main_arg0, main_arg1, main_arg2, main_c, main_c_0, main_c_1, main_c_2, main_c_3, main_c_4, main_c_5, main_c_6,
    main_c_7, main_c_8, main_c_9]

def Agree (K V : Valuation τ sig (Elt F)) : Prop :=
  ∀ r ∈ (kept : List (Ref sig .tc)), V (Proc.devRef .tc r) = K (Proc.devRef .tc r)

theorem Agree.step {K V : Valuation τ sig (Elt F)} (h : Agree K V) (l : List (HloOp τ sig (Elt F)))
    (W : List (Ref sig .tc))
    (hW : l.Forall fun op => op.writes ⊆ ((W.map (Proc.devRef (τ := τ) .tc)).toFinset : Finset (DevRef τ sig)))
    (hd : ∀ r ∈ (kept : List (Ref sig .tc)), r ∉ W) : Agree K (after l V) :=
  fun r hr => (after_of_writes_sub l V hW (hd r hr)).trans (h r hr)

theorem Agree.refl (K : Valuation τ sig (Elt F)) : Agree K K := fun _ _ => rfl

theorem kept_opsC : ∀ r ∈ ([main_arg0, main_arg1, main_arg2] : List (Ref sig .tc)), r ∉ (opsC_W : List (Ref sig .tc)) := by decide
theorem kept_ops0 : ∀ r ∈ (kept : List (Ref sig .tc)), r ∉ (ops0_W : List (Ref sig .tc)) := by decide
theorem kept_ops1 : ∀ r ∈ (kept : List (Ref sig .tc)), r ∉ (ops1_W : List (Ref sig .tc)) := by decide
theorem kept_ops2 : ∀ r ∈ (kept : List (Ref sig .tc)), r ∉ (ops2_W : List (Ref sig .tc)) := by decide
theorem kept_ops3 : ∀ r ∈ (kept : List (Ref sig .tc)), r ∉ (ops3_W : List (Ref sig .tc)) := by decide
theorem kept_ops4 : ∀ r ∈ (kept : List (Ref sig .tc)), r ∉ (ops4_W : List (Ref sig .tc)) := by decide
theorem kept_ops5 : ∀ r ∈ (kept : List (Ref sig .tc)), r ∉ (ops5_W : List (Ref sig .tc)) := by decide

theorem constC_keep (V : Valuation τ sig (Elt F)) (r : Ref sig .tc)
    (h : r ∈ ([main_arg0, main_arg1, main_arg2] : List (Ref sig .tc))) :
    after opsC V (Proc.devRef .tc r) = V (Proc.devRef .tc r) :=
  after_of_writes_sub opsC V opsC_writes (kept_opsC r h)

theorem constC_c (V : Valuation τ sig (Elt F)) :
    after opsC V (Proc.devRef .tc main_c) = (fun i => lit0 (S16.rowMajor i)) := by after_results <;> rfl
theorem constC_c_0 (V : Valuation τ sig (Elt F)) :
    after opsC V (Proc.devRef .tc main_c_0) = constantI S16 1 0#1 := by after_results <;> rfl
theorem constC_c_1 (V : Valuation τ sig (Elt F)) :
    after opsC V (Proc.devRef .tc main_c_1) = constantI S16 1 0#1 := by after_results <;> rfl
theorem constC_c_2 (V : Valuation τ sig (Elt F)) :
    after opsC V (Proc.devRef .tc main_c_2) = (fun i => lit1 (S16.rowMajor i)) := by after_results <;> rfl
theorem constC_c_3 (V : Valuation τ sig (Elt F)) :
    after opsC V (Proc.devRef .tc main_c_3) = (fun i => lit2 (S60.rowMajor i)) := by after_results <;> rfl
theorem constC_c_4 (V : Valuation τ sig (Elt F)) :
    after opsC V (Proc.devRef .tc main_c_4) = constantI S60 1 0#1 := by after_results <;> rfl
theorem constC_c_5 (V : Valuation τ sig (Elt F)) :
    after opsC V (Proc.devRef .tc main_c_5) = (fun i => lit3 (S60.rowMajor i)) := by after_results <;> rfl
theorem constC_c_6 (V : Valuation τ sig (Elt F)) :
    after opsC V (Proc.devRef .tc main_c_6) = constantI S60 1 0#1 := by after_results <;> rfl
theorem constC_c_7 (V : Valuation τ sig (Elt F)) :
    after opsC V (Proc.devRef .tc main_c_7) = constantI S60 1 0#1 := by after_results <;> rfl
theorem constC_c_8 (V : Valuation τ sig (Elt F)) :
    after opsC V (Proc.devRef .tc main_c_8) = constantI S60 1 0#1 := by after_results <;> rfl
theorem constC_c_9 (V : Valuation τ sig (Elt F)) :
    after opsC V (Proc.devRef .tc main_c_9) = constantI S60 1 0#1 := by after_results <;> rfl

set_option maxHeartbeats 2000000 in

theorem round0 {K V : Valuation τ sig (Elt F)} (hA : Agree K V)
    (hc : K (Proc.devRef .tc main_c) = (fun i => lit0 (S16.rowMajor i)))
    (hc0 : K (Proc.devRef .tc main_c_0) = constantI S16 1 0#1)
    (hc1 : K (Proc.devRef .tc main_c_1) = constantI S16 1 0#1)
    (hc2 : K (Proc.devRef .tc main_c_2) = (fun i => lit1 (S16.rowMajor i))) :
    after ops0 V (Proc.devRef .tc main_v18)
      = ref0 (K (Proc.devRef .tc main_arg0)) (K (Proc.devRef .tc main_arg1)) (K (Proc.devRef .tc main_arg2)) := by
  after_results_simp
  rw [hA main_c (by decide), hA main_c_0 (by decide), hA main_c_1 (by decide), hA main_c_2 (by decide),
    hA main_arg0 (by decide), hA main_arg1 (by decide), hA main_arg2 (by decide), hc, hc0, hc1, hc2]
  rfl

set_option maxHeartbeats 2000000 in

theorem round1 {K V : Valuation τ sig (Elt F)} (hA : Agree K V)
    (h3 : K (Proc.devRef .tc main_c_3) = (fun i => lit2 (S60.rowMajor i)))
    (hs : K (Proc.devRef .tc main_c_4) = constantI S60 1 0#1)
    (h5 : K (Proc.devRef .tc main_c_5) = (fun i => lit3 (S60.rowMajor i))) :
    after ops1 V (Proc.devRef .tc main_v31)
      = refStep (V (Proc.devRef .tc main_v18)) (K (Proc.devRef .tc main_arg1)) (K (Proc.devRef .tc main_arg2)) := by
  after_results_simp
  rw [hA main_c_3 (by decide), hA main_c_4 (by decide), hA main_c_5 (by decide), hA main_arg1 (by decide),
    hA main_arg2 (by decide), h3, hs, h5]
  rfl

set_option maxHeartbeats 2000000 in

theorem round2 {K V : Valuation τ sig (Elt F)} (hA : Agree K V)
    (h3 : K (Proc.devRef .tc main_c_3) = (fun i => lit2 (S60.rowMajor i)))
    (hs : K (Proc.devRef .tc main_c_6) = constantI S60 1 0#1)
    (h5 : K (Proc.devRef .tc main_c_5) = (fun i => lit3 (S60.rowMajor i))) :
    after ops2 V (Proc.devRef .tc main_v44)
      = refStep (V (Proc.devRef .tc main_v31)) (K (Proc.devRef .tc main_arg1)) (K (Proc.devRef .tc main_arg2)) := by
  after_results_simp
  rw [hA main_c_3 (by decide), hA main_c_6 (by decide), hA main_c_5 (by decide), hA main_arg1 (by decide),
    hA main_arg2 (by decide), h3, hs, h5]
  rfl

set_option maxHeartbeats 2000000 in

theorem round3 {K V : Valuation τ sig (Elt F)} (hA : Agree K V)
    (h3 : K (Proc.devRef .tc main_c_3) = (fun i => lit2 (S60.rowMajor i)))
    (hs : K (Proc.devRef .tc main_c_7) = constantI S60 1 0#1)
    (h5 : K (Proc.devRef .tc main_c_5) = (fun i => lit3 (S60.rowMajor i))) :
    after ops3 V (Proc.devRef .tc main_v57)
      = refStep (V (Proc.devRef .tc main_v44)) (K (Proc.devRef .tc main_arg1)) (K (Proc.devRef .tc main_arg2)) := by
  after_results_simp
  rw [hA main_c_3 (by decide), hA main_c_7 (by decide), hA main_c_5 (by decide), hA main_arg1 (by decide),
    hA main_arg2 (by decide), h3, hs, h5]
  rfl

set_option maxHeartbeats 2000000 in

theorem round4 {K V : Valuation τ sig (Elt F)} (hA : Agree K V)
    (h3 : K (Proc.devRef .tc main_c_3) = (fun i => lit2 (S60.rowMajor i)))
    (hs : K (Proc.devRef .tc main_c_8) = constantI S60 1 0#1)
    (h5 : K (Proc.devRef .tc main_c_5) = (fun i => lit3 (S60.rowMajor i))) :
    after ops4 V (Proc.devRef .tc main_v70)
      = refStep (V (Proc.devRef .tc main_v57)) (K (Proc.devRef .tc main_arg1)) (K (Proc.devRef .tc main_arg2)) := by
  after_results_simp
  rw [hA main_c_3 (by decide), hA main_c_8 (by decide), hA main_c_5 (by decide), hA main_arg1 (by decide),
    hA main_arg2 (by decide), h3, hs, h5]
  rfl

set_option maxHeartbeats 2000000 in

theorem round5 {K V : Valuation τ sig (Elt F)} (hA : Agree K V)
    (h3 : K (Proc.devRef .tc main_c_3) = (fun i => lit2 (S60.rowMajor i)))
    (hs : K (Proc.devRef .tc main_c_9) = constantI S60 1 0#1)
    (h5 : K (Proc.devRef .tc main_c_5) = (fun i => lit3 (S60.rowMajor i))) :
    after ops5 V (Proc.devRef .tc main_v83)
      = refStep (V (Proc.devRef .tc main_v70)) (K (Proc.devRef .tc main_arg1)) (K (Proc.devRef .tc main_arg2)) := by
  after_results_simp
  rw [hA main_c_3 (by decide), hA main_c_9 (by decide), hA main_c_5 (by decide), hA main_arg1 (by decide),
    hA main_arg2 (by decide), h3, hs, h5]
  rfl

theorem after_app : ∀ (l₁ l₂ : List (HloOp τ sig (Elt F))) (V : Valuation τ sig (Elt F)),
    after (l₁ ++ l₂) V = after l₂ (after l₁ V)
  | [], _, _ => rfl
  | _ :: l₁, l₂, V => after_app l₁ l₂ _

theorem after_ops (V : Valuation τ sig (Elt F)) :
    after ops V = after ops5 (after ops4 (after ops3 (after ops2 (after ops1 (after ops0 (after opsC V)))))) := by
  simp only [ops, after_app]

theorem agree_ops (V : Valuation τ sig (Elt F)) : Agree (after opsC V) (after ops V) := by
  rw [after_ops]
  exact ((((((Agree.refl (after opsC V)).step ops0 ops0_W ops0_writes kept_ops0).step
    ops1 ops1_W ops1_writes kept_ops1).step ops2 ops2_W ops2_writes kept_ops2).step ops3 ops3_W ops3_writes kept_ops3).step
    ops4 ops4_W ops4_writes kept_ops4).step ops5 ops5_W ops5_writes kept_ops5

theorem after_ops_arg (V : Valuation τ sig (Elt F)) (r : Ref sig .tc)
    (h : r ∈ ([main_arg0, main_arg1, main_arg2] : List (Ref sig .tc))) :
    after ops V (Proc.devRef .tc r) = V (Proc.devRef .tc r) :=
  (agree_ops V r (by revert r; decide)).trans (constC_keep V r h)

theorem after_ops_v83 (V : Valuation τ sig (Elt F)) :
    after ops V (Proc.devRef .tc main_v83)
      =
        refStep (refStep (refStep (refStep (refStep
          (ref0 (V (Proc.devRef .tc main_arg0)) (V (Proc.devRef .tc main_arg1)) (V (Proc.devRef .tc main_arg2)))
          (V (Proc.devRef .tc main_arg1)) (V (Proc.devRef .tc main_arg2)))
          (V (Proc.devRef .tc main_arg1)) (V (Proc.devRef .tc main_arg2)))
          (V (Proc.devRef .tc main_arg1)) (V (Proc.devRef .tc main_arg2)))
          (V (Proc.devRef .tc main_arg1)) (V (Proc.devRef .tc main_arg2)))
          (V (Proc.devRef .tc main_arg1)) (V (Proc.devRef .tc main_arg2)) := by
  have A0 := Agree.refl (after opsC V)
  have A1 := A0.step ops0 ops0_W ops0_writes kept_ops0
  have A2 := A1.step ops1 ops1_W ops1_writes kept_ops1
  have A3 := A2.step ops2 ops2_W ops2_writes kept_ops2
  have A4 := A3.step ops3 ops3_W ops3_writes kept_ops3
  have A5 := A4.step ops4 ops4_W ops4_writes kept_ops4
  rw [after_ops,
    round5 A5 (constC_c_3 V) (constC_c_9 V) (constC_c_5 V),
    round4 A4 (constC_c_3 V) (constC_c_8 V) (constC_c_5 V),
    round3 A3 (constC_c_3 V) (constC_c_7 V) (constC_c_5 V),
    round2 A2 (constC_c_3 V) (constC_c_6 V) (constC_c_5 V),
    round1 A1 (constC_c_3 V) (constC_c_4 V) (constC_c_5 V),
    round0 A0 (constC_c V) (constC_c_0 V) (constC_c_1 V) (constC_c_2 V),
    constC_keep V main_arg0 (by decide), constC_keep V main_arg1 (by decide), constC_keep V main_arg2 (by decide)]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83)
        =
          refStep (refStep (refStep (refStep (refStep
            (ref0 (m ((c.tc : Thread nD τ).loc main_arg0)) (m ((c.tc : Thread nD τ).loc main_arg1)) (m ((c.tc : Thread nD τ).loc main_arg2)))
            (m ((c.tc : Thread nD τ).loc main_arg1)) (m ((c.tc : Thread nD τ).loc main_arg2)))
            (m ((c.tc : Thread nD τ).loc main_arg1)) (m ((c.tc : Thread nD τ).loc main_arg2)))
            (m ((c.tc : Thread nD τ).loc main_arg1)) (m ((c.tc : Thread nD τ).loc main_arg2)))
            (m ((c.tc : Thread nD τ).loc main_arg1)) (m ((c.tc : Thread nD τ).loc main_arg2)))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v83).trans (after_ops_v83 (launchContents m c)),
      (h c main_arg0).trans (after_ops_arg (launchContents m c) main_arg0 (by decide)),
      (h c main_arg1).trans (after_ops_arg (launchContents m c) main_arg1 (by decide)),
      (h c main_arg2).trans (after_ops_arg (launchContents m c) main_arg2 (by decide))⟩)
    (run_seq scopedRefs_eq scopedSems_eq defs main (fun _ => ops) main_eq (fun _ => ops_sub) m ρ)

end Cert.ReferenceIdeal.Run

end
-- ==== Proof.Ref.Read.lean ====
import proofs.«167552_j64123861729349_1_alg».proof.Proof.Ref.RunDefs
import proofs.«167552_j64123861729349_1_alg».proof.Proof.Spec
import proofs.«167552_j64123861729349_1_alg».proof.Proof.LibGatherScatter
import Idealize.ShloMosaic.Lib.ValueIdx
import Idealize.ShloMosaic.Lib.Pipeline.Value
import Idealize.ShloMosaic.PureOps.Ideal.Laws
import Idealize.ShloMosaic.Lib.StableHlo.Predicate

open scoped BigOperators

noncomputable section

namespace Cert.ReferenceIdeal.Rd

open Cert.ReferenceIdeal Cert.ReferenceIdeal.Gen Idealize.ShloMosaic Idealize.ShloMosaic.ValueIdx
open Idealize.ShloMosaic.StableHlo.Predicate Idealize.ShloMosaic.RowOps

private theorem getElem_single {β : Type} {l : List β} {b : β} (h : l = [b]) (k : Nat) (hk : k < l.length) :
    l[k] = b :=
  List.mem_singleton.1 (h ▸ List.getElem_mem hk)

private theorem getElem_pair {β : Type} {l : List β} {a b : β} (h : l = [a, b]) (k : Nat) (hk : k < l.length) :
    (k = 0 → l[k] = a) ∧ (k = 1 → l[k] = b) := by
  subst h
  constructor
  · intro h0; subst h0; rfl
  · intro h1; subst h1; rfl

theorem gather_planes {α : Type} {N A B n w : Nat} (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsim : d.startIndexMap = [0]) (hivd : d.indexVectorDim = 1) (hss : d.sliceSizes = ![1, A, B])
    (x : (⟨3, ![N, A, B]⟩ : Shape).Idx → α) (idx : IVec ⟨2, ![n, 1]⟩ w) (e : Fin n) (a : Fin A) (b : Fin B) (hN : 0 < N) :
    Host.gather d x idx (ix3 e a b) = x (ix3 (clampRow N hN idx e) a b) := by
  have hb : ∀ c : Fin 3, c ∉ d.operandBatchingDims := fun c => by rw [hob]; exact List.not_mem_nil

  have hbd : d.batchDims = [0] := by
    show Shape.kept _ d.offsetDims = [0]
    rw [hoff]
    show (List.finRange 3).filter (fun c : Fin 3 => c ∉ [(1 : Fin 3), 2]) = [0]
    decide

  have hsk : d.sKept = [1, 2] := by
    show Shape.kept _ (d.collapsedSliceDims ++ d.operandBatchingDims) = [1, 2]
    rw [hcoll, hob]
    show (List.finRange 3).filter (fun c : Fin 3 => c ∉ [(0 : Fin 3)]) = [1, 2]
    decide

  have h0 : (d.operandIdx (ix3 e a b) idx (0 : Fin 3)).val = (clampRow N hN idx e).val := by
    have hk : (0 : Fin 3) ∉ d.sKept := by rw [hsk]; simp
    have hm : (0 : Fin 3) ∈ d.startIndexMap := by rw [hsim]; exact List.mem_singleton.mpr rfl
    have hsl : d.sliceSizes 0 = 1 := by rw [hss]; rfl
    show d.start (ix3 e a b) idx 0 + d.batchCoord (ix3 e a b) 0 + d.offCoord (ix3 e a b) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext c
    match c with
    | ⟨0, _⟩ =>
      unfold GatherDims.siIdx
      rw [dif_neg (by rw [hivd]; simp)]
      unfold GatherDims.siCoord
      apply Fin.ext
      simp only [Fin.val_cast]
      have he : ∀ Y : Fin 3, Y = 0 → ((ix3 e a b : (⟨3, ![n, A, B]⟩ : Shape).Idx) Y).val = e.val := fun Y hY => by subst hY; rfl
      exact he _ (getElem_single hbd _ _)
    | ⟨1, _⟩ =>
      unfold GatherDims.siIdx
      rw [dif_pos (by rw [hivd])]
      apply Fin.ext
      show List.idxOf (0 : Fin 3) d.startIndexMap = 0
      rw [hsim]; simp

  have h1 : (d.operandIdx (ix3 e a b) idx (1 : Fin 3)).val = a.val := by
    have hk : (1 : Fin 3) ∈ d.sKept := by rw [hsk]; simp
    have hm : (1 : Fin 3) ∉ d.startIndexMap := by rw [hsim]; simp
    show d.start (ix3 e a b) idx 1 + d.batchCoord (ix3 e a b) 1 + d.offCoord (ix3 e a b) 1 = a.val
    rw [GatherDims.batchCoord_eq_zero _ _ _ (hb 1), Nat.add_zero]
    unfold GatherDims.start GatherDims.offCoord
    rw [dif_neg hm, dif_pos hk, Nat.zero_add]
    have hj : ∀ Y : Fin 3, Y = 1 → ((ix3 e a b : (⟨3, ![n, A, B]⟩ : Shape).Idx) Y).val = a.val := fun Y hY => by subst hY; rfl
    exact hj _ ((getElem_pair hoff _ _).1 (by rw [hsk]; rfl))
  have h2 : (d.operandIdx (ix3 e a b) idx (2 : Fin 3)).val = b.val := by
    have hk : (2 : Fin 3) ∈ d.sKept := by rw [hsk]; simp
    have hm : (2 : Fin 3) ∉ d.startIndexMap := by rw [hsim]; simp
    show d.start (ix3 e a b) idx 2 + d.batchCoord (ix3 e a b) 2 + d.offCoord (ix3 e a b) 2 = b.val
    rw [GatherDims.batchCoord_eq_zero _ _ _ (hb 2), Nat.add_zero]
    unfold GatherDims.start GatherDims.offCoord
    rw [dif_neg hm, dif_pos hk, Nat.zero_add]
    have hj : ∀ Y : Fin 3, Y = 2 → ((ix3 e a b : (⟨3, ![n, A, B]⟩ : Shape).Idx) Y).val = b.val := fun Y hY => by subst hY; rfl
    exact hj _ ((getElem_pair hoff _ _).2 (by rw [hsk]; rfl))
  unfold Host.gather
  congr 1
  funext c
  apply Fin.ext
  match c with
  | ⟨0, _⟩ => exact h0
  | ⟨1, _⟩ => exact h1
  | ⟨2, _⟩ => exact h2

theorem resultIdx?_planes_iff {K A B n w : Nat} (d : ScatterDims ⟨3, ![K, A, B]⟩ ⟨2, ![n, 1]⟩ ⟨3, ![n, A, B]⟩)
    (huw : d.updateWindowDims = [1, 2]) (hiw : d.insertedWindowDims = [0]) (hsd : d.scatterDimsToOperandDims = [0])
    (hivd : d.indexVectorDim = 1) (idx : IVec ⟨2, ![n, 1]⟩ w) (u : (⟨3, ![n, A, B]⟩ : Shape).Idx)
    (i : Fin K) (a : Fin A) (b : Fin B) :
    d.resultIdx? u idx = some (ix3 i a b) ↔ lands idx (u 0 : Fin n) i.val ∧ (u 1 : Fin A) = a ∧ (u 2 : Fin B) = b := by

  have hus : d.uScatter = [0] := by
    show Shape.kept _ d.updateWindowDims = [0]
    rw [huw]
    show (List.finRange 3).filter (fun c : Fin 3 => c ∉ [(1 : Fin 3), 2]) = [0]
    decide

  have hsk : d.sKept = [1, 2] := by
    show Shape.kept _ d.insertedWindowDims = [1, 2]
    rw [hiw]
    show (List.finRange 3).filter (fun c : Fin 3 => c ∉ [(0 : Fin 3)]) = [1, 2]
    decide

  have hs0 : d.start u idx (0 : Fin 3) = (idx (ixP (u 0 : Fin n))).toInt := by
    have hm : (0 : Fin 3) ∈ d.scatterDimsToOperandDims := by rw [hsd]; exact List.mem_singleton.mpr rfl
    unfold ScatterDims.start
    rw [dif_pos hm]
    congr 2
    funext c
    match c with
    | ⟨0, _⟩ =>
      unfold ScatterDims.siIdx
      rw [dif_neg (by rw [hivd]; simp)]
      unfold ScatterDims.siCoord
      apply Fin.ext
      simp only [Fin.val_cast]
      have he : ∀ Y : Fin 3, Y = 0 → (u Y).val = (u 0).val := fun Y hY => by subst hY; rfl
      exact he _ (getElem_single hus _ _)
    | ⟨1, _⟩ =>
      unfold ScatterDims.siIdx
      rw [dif_pos (by rw [hivd])]
      apply Fin.ext
      show List.idxOf (0 : Fin 3) d.scatterDimsToOperandDims = 0
      rw [hsd]; simp
  have hw0 : d.window u (0 : Fin 3) = 0 := by
    unfold ScatterDims.window
    rw [dif_neg (by rw [hsk]; simp)]

  have hs1 : d.start u idx (1 : Fin 3) = 0 := by
    unfold ScatterDims.start
    rw [dif_neg (by rw [hsd]; simp)]
  have hs2 : d.start u idx (2 : Fin 3) = 0 := by
    unfold ScatterDims.start
    rw [dif_neg (by rw [hsd]; simp)]
  have hw1 : d.window u (1 : Fin 3) = (u 1).val := by
    unfold ScatterDims.window
    rw [dif_pos (by rw [hsk]; simp)]
    have he : ∀ Y : Fin 3, Y = 1 → (u Y).val = (u 1).val := fun Y hY => by subst hY; rfl
    exact he _ ((getElem_pair huw _ _).1 (by rw [hsk]; rfl))
  have hw2 : d.window u (2 : Fin 3) = (u 2).val := by
    unfold ScatterDims.window
    rw [dif_pos (by rw [hsk]; simp)]
    have he : ∀ Y : Fin 3, Y = 2 → (u Y).val = (u 2).val := fun Y hY => by subst hY; rfl
    exact he _ ((getElem_pair huw _ _).2 (by rw [hsk]; rfl))
  rw [resultIdx?_eq_some_iff]
  constructor
  · intro h
    have h0 := h 0
    have h1 := h 1
    have h2 := h 2
    rw [hs0, hw0] at h0
    rw [hs1, hw1] at h1
    rw [hs2, hw2] at h2
    refine ⟨?_, ?_, ?_⟩
    · show (idx (ixP (u 0 : Fin n))).toInt = (i.val : Int)
      have : ((ix3 i a b : (⟨3, ![K, A, B]⟩ : Shape).Idx) 0).val = i.val := rfl
      rw [this] at h0
      simpa using h0
    · apply Fin.ext
      have : ((ix3 i a b : (⟨3, ![K, A, B]⟩ : Shape).Idx) 1).val = a.val := rfl
      rw [this] at h1
      have h1' : ((u 1).val : Int) = (a.val : Int) := by simpa using h1
      exact_mod_cast h1'
    · apply Fin.ext
      have : ((ix3 i a b : (⟨3, ![K, A, B]⟩ : Shape).Idx) 2).val = b.val := rfl
      rw [this] at h2
      have h2' : ((u 2).val : Int) = (b.val : Int) := by simpa using h2
      exact_mod_cast h2'
  · rintro ⟨hl, ha, hb⟩ c
    match c with
    | ⟨0, _⟩ =>
      show d.start u idx (0 : Fin 3) + (d.window u (0 : Fin 3) : Int) = (i.val : Int)
      rw [hs0, hw0]
      unfold lands at hl
      rw [hl]; simp
    | ⟨1, _⟩ =>
      show d.start u idx (1 : Fin 3) + (d.window u (1 : Fin 3) : Int) = (a.val : Int)
      rw [hs1, hw1, ← ha]; simp
    | ⟨2, _⟩ =>
      show d.start u idx (2 : Fin 3) + (d.window u (2 : Fin 3) : Int) = (b.val : Int)
      rw [hs2, hw2, ← hb]; simp

theorem scatterAdd_planes {K A B n w : Nat} (d : ScatterDims ⟨3, ![K, A, B]⟩ ⟨2, ![n, 1]⟩ ⟨3, ![n, A, B]⟩)
    (huw : d.updateWindowDims = [1, 2]) (hiw : d.insertedWindowDims = [0]) (hsd : d.scatterDimsToOperandDims = [0])
    (hivd : d.indexVectorDim = 1)
    (x : (⟨3, ![K, A, B]⟩ : Shape).Idx → EReal) (idx : IVec ⟨2, ![n, 1]⟩ w) (upd : (⟨3, ![n, A, B]⟩ : Shape).Idx → EReal)
    (i : Fin K) (a : Fin A) (b : Fin B) :
    Ideal.hostScatterAdd d x idx upd (ix3 i a b)
      = x (ix3 i a b) + ∑ e ∈ Finset.univ.filter (fun e : Fin n => lands idx e i.val), upd (ix3 e a b) := by
  have hiff := resultIdx?_planes_iff d huw hiw hsd hivd idx
  unfold Ideal.hostScatterAdd
  congr 1
  have hback : ∀ u : (⟨3, ![n, A, B]⟩ : Shape).Idx, (u 1 : Fin A) = a → (u 2 : Fin B) = b → ix3 (u 0 : Fin n) a b = u :=
    fun u h1 h2 => by rw [← h1, ← h2]; exact (eq_ix3 u).symm
  refine Finset.sum_bij' (fun u _ => (u 0 : Fin n)) (fun e _ => ix3 e a b) ?_ ?_ ?_ ?_ ?_
  · intro u hu
    exact Finset.mem_filter.2 ⟨Finset.mem_univ _, ((hiff u i a b).1 (Finset.mem_filter.1 hu).2).1⟩
  · intro e he
    exact Finset.mem_filter.2 ⟨Finset.mem_univ _, (hiff (ix3 e a b) i a b).2 ⟨(Finset.mem_filter.1 he).2, rfl, rfl⟩⟩
  · intro u hu
    have h := (hiff u i a b).1 (Finset.mem_filter.1 hu).2
    exact hback u h.2.1 h.2.2
  · intro e _
    rfl
  · intro u hu
    have h := (hiff u i a b).1 (Finset.mem_filter.1 hu).2
    exact (congrArg upd (hback u h.2.1 h.2.2)).symm

theorem rm16 (p : Fin 16) : (S16.rowMajor (Shape.Idx.ofFin p) : Fin 16) = p :=
  Fin.ext (Shape.rowMajor_val_one _)
theorem rm60 (p : Fin 60) : (S60.rowMajor (Shape.Idx.ofFin p) : Fin 60) = p :=
  Fin.ext (Shape.rowMajor_val_one _)

abbrev idxFirst : IVec S16x1 32 :=
  broadcastInDim S16x1 ![0] Facts₀.bcast_S16_S16x1_0
    (select (constantI S16 1 0#1)
      (addi (fun i => lit0 (S16.rowMajor i)) (broadcastInDim S16 ![] Facts₀.bcast_S_S16 (constantI S_ 32 60#32)))
      (fun i => lit0 (S16.rowMajor i)))

theorem idxFirst_at (i : Fin 16) : idxFirst (ixP i) = lit0 i := by
  unfold idxFirst
  rw [bcast_col1, select_apply]
  show Scalar.select 0#1 _ _ = _
  rw [select_zero, rm16]

theorem clamp_first (i : Fin 16) : clampRow 60 (by decide) idxFirst i = Spec.first i := by
  apply Fin.ext
  show min (idxFirst (ixP i)).toInt.toNat (60 - 1) = (Spec.first i).val
  rw [idxFirst_at]
  revert i
  decide

abbrev idxId : IVec S16x1 32 :=
  broadcastInDim S16x1 ![0] Facts₀.bcast_S16_S16x1_0 (fun i => lit1 (S16.rowMajor i))

theorem idxId_at (i : Fin 16) : idxId (ixP i) = lit1 i := by
  unfold idxId
  rw [bcast_col1, rm16]

theorem lands_id (p i : Fin 16) : lands idxId p i.val ↔ p = i := by
  unfold lands
  rw [idxId_at]
  revert p i
  decide

abbrev idxCols : IVec S60x1 32 :=
  broadcastInDim S60x1 ![0] Facts₀.bcast_S60_S60x1_0
    (select (constantI S60 1 0#1)
      (addi (fun i => lit2 (S60.rowMajor i)) (broadcastInDim S60 ![] Facts₀.bcast_S_S60 (constantI S_ 32 16#32)))
      (fun i => lit2 (S60.rowMajor i)))

theorem idxCols_at (p : Fin 60) : idxCols (ixP p) = lit2 p := by
  unfold idxCols
  rw [bcast_col1, select_apply]
  show Scalar.select 0#1 _ _ = _
  rw [select_zero, rm60]

theorem clamp_cols (p : Fin 60) : clampRow 16 (by decide) idxCols p = Spec.cols p := by
  apply Fin.ext
  show min (idxCols (ixP p)).toInt.toNat (16 - 1) = (Spec.cols p).val
  rw [idxCols_at]
  revert p
  decide

abbrev idxRows : IVec S60x1 32 :=
  broadcastInDim S60x1 ![0] Facts₀.bcast_S60_S60x1_0 (fun i => lit3 (S60.rowMajor i))

theorem idxRows_at (p : Fin 60) : idxRows (ixP p) = lit3 p := by
  unfold idxRows
  rw [bcast_col1, rm60]

theorem lit3_rows : ∀ p : Fin 60, (lit3 p).toInt = ((Spec.rows p).val : Int) := by decide

theorem lands_rows (p : Fin 60) (i : Fin 16) : lands idxRows p i.val ↔ Spec.rows p = i := by
  unfold lands
  rw [idxRows_at, lit3_rows]
  constructor
  · intro h; exact Fin.ext (by exact_mod_cast h)
  · intro h; rw [h]

abbrev dotA : DotDims S16x256x256 S8192x256 S16x256x8192 := dot_S16x256x256_S8192x256_S16x256x8192_2_1_01_0_n_n

theorem dotA_lhs (i : Fin 16) (e : Fin 256) (r : Fin 8192) (c : Fin 256) :
    dotA.lhsIdx (ix3 i e r) ((contrEquiv1 dotA 256 rfl rfl).symm c) = ix3 i e c := by
  have hk := contrEquiv1_symm_val dotA 256 rfl rfl c
  generalize (contrEquiv1 dotA 256 rfl rfl).symm c = q at hk
  have h0 : (dotA.lhsIdx (ix3 i e r) q 0).val = i.val := by
    unfold DotDims.lhsIdx
    rw [dif_neg (show ¬(0 : Fin 3) ∈ dotA.lhsBatch from List.not_mem_nil),
      dif_pos (show (0 : Fin 3) ∈ dotA.lhsNonContracting by decide)]
    rfl
  have h1 : (dotA.lhsIdx (ix3 i e r) q 1).val = e.val := by
    unfold DotDims.lhsIdx
    rw [dif_neg (show ¬(1 : Fin 3) ∈ dotA.lhsBatch from List.not_mem_nil),
      dif_pos (show (1 : Fin 3) ∈ dotA.lhsNonContracting by decide)]
    rfl
  have h2 : (dotA.lhsIdx (ix3 i e r) q 2).val = c.val :=
    (dotA.lhsIdx_val_of_single (cl := (2 : Fin 3)) rfl _ _).trans hk
  funext t
  apply Fin.ext
  match t with
  | ⟨0, _⟩ => exact h0
  | ⟨1, _⟩ => exact h1
  | ⟨2, _⟩ => exact h2

theorem dotA_rhs (i : Fin 16) (e : Fin 256) (r : Fin 8192) (c : Fin 256) :
    dotA.rhsIdx (ix3 i e r) ((contrEquiv1 dotA 256 rfl rfl).symm c) = ix2 r c := by
  have hk := contrEquiv1_symm_val dotA 256 rfl rfl c
  generalize (contrEquiv1 dotA 256 rfl rfl).symm c = q at hk
  have h0 : (dotA.rhsIdx (ix3 i e r) q 0).val = r.val := by
    unfold DotDims.rhsIdx
    rw [dif_neg (show ¬(0 : Fin 2) ∈ dotA.rhsBatch from List.not_mem_nil),
      dif_pos (show (0 : Fin 2) ∈ dotA.rhsNonContracting by decide)]
    rfl
  have h1 : (dotA.rhsIdx (ix3 i e r) q 1).val = c.val :=
    (dotA.rhsIdx_val_of_single (cr := (1 : Fin 2)) rfl _ _).trans hk
  funext t
  apply Fin.ext
  match t with
  | ⟨0, _⟩ => exact h0
  | ⟨1, _⟩ => exact h1

theorem dotA_apply (L : FVec Ideal S16x256x256 .f32) (R : FVec Ideal S8192x256 .f32) (i : Fin 16) (e : Fin 256) (r : Fin 8192) :
    Host.dotGeneral (F := Ideal) dotA none L R (ix3 i e r) = ∑ d : Fin 256, L (ix3 i e d) * R (ix2 r d) := by
  simp only [Host.dotGeneral]
  rw [Ideal.dotGeneral_apply, ← Equiv.sum_comp (contrEquiv1 dotA 256 rfl rfl).symm]
  refine Finset.sum_congr rfl fun c _ => ?_
  rw [dotA_lhs, dotA_rhs]

abbrev dotB : DotDims S60x8192x256 S60x256x256 S60x8192x256 := dot_S60x8192x256_S60x256x256_S60x8192x256_2_2_1_1_0_0

theorem dotB_lhs (p : Fin 60) (r : Fin 8192) (e : Fin 256) (c : Fin 256) :
    dotB.lhsIdx (ix3 p r e) ((contrEquiv1 dotB 256 rfl rfl).symm c) = ix3 p r c := by
  have hk := contrEquiv1_symm_val dotB 256 rfl rfl c
  generalize (contrEquiv1 dotB 256 rfl rfl).symm c = q at hk
  have h0 : (dotB.lhsIdx (ix3 p r e) q 0).val = p.val := by
    unfold DotDims.lhsIdx
    rw [dif_pos (show (0 : Fin 3) ∈ dotB.lhsBatch by decide)]
    rfl
  have h1 : (dotB.lhsIdx (ix3 p r e) q 1).val = r.val := by
    unfold DotDims.lhsIdx
    rw [dif_neg (show ¬(1 : Fin 3) ∈ dotB.lhsBatch by decide),
      dif_pos (show (1 : Fin 3) ∈ dotB.lhsNonContracting by decide)]
    rfl
  have h2 : (dotB.lhsIdx (ix3 p r e) q 2).val = c.val :=
    (dotB.lhsIdx_val_of_single (cl := (2 : Fin 3)) rfl _ _).trans hk
  funext t
  apply Fin.ext
  match t with
  | ⟨0, _⟩ => exact h0
  | ⟨1, _⟩ => exact h1
  | ⟨2, _⟩ => exact h2

theorem dotB_rhs (p : Fin 60) (r : Fin 8192) (e : Fin 256) (c : Fin 256) :
    dotB.rhsIdx (ix3 p r e) ((contrEquiv1 dotB 256 rfl rfl).symm c) = ix3 p e c := by
  have hk := contrEquiv1_symm_val dotB 256 rfl rfl c
  generalize (contrEquiv1 dotB 256 rfl rfl).symm c = q at hk
  have h0 : (dotB.rhsIdx (ix3 p r e) q 0).val = p.val := by
    unfold DotDims.rhsIdx
    rw [dif_pos (show (0 : Fin 3) ∈ dotB.rhsBatch by decide)]
    rfl
  have h1 : (dotB.rhsIdx (ix3 p r e) q 1).val = e.val := by
    unfold DotDims.rhsIdx
    rw [dif_neg (show ¬(1 : Fin 3) ∈ dotB.rhsBatch by decide),
      dif_pos (show (1 : Fin 3) ∈ dotB.rhsNonContracting by decide)]
    rfl
  have h2 : (dotB.rhsIdx (ix3 p r e) q 2).val = c.val :=
    (dotB.rhsIdx_val_of_single (cr := (2 : Fin 3)) rfl _ _).trans hk
  funext t
  apply Fin.ext
  match t with
  | ⟨0, _⟩ => exact h0
  | ⟨1, _⟩ => exact h1
  | ⟨2, _⟩ => exact h2

theorem dotB_apply (L : FVec Ideal S60x8192x256 .f32) (R : FVec Ideal S60x256x256 .f32) (p : Fin 60) (r : Fin 8192) (e : Fin 256) :
    Host.dotGeneral (F := Ideal) dotB none L R (ix3 p r e) = ∑ d : Fin 256, L (ix3 p r d) * R (ix3 p e d) := by
  simp only [Host.dotGeneral]
  rw [Ideal.dotGeneral_apply, ← Equiv.sum_comp (contrEquiv1 dotB 256 rfl rfl).symm]
  refine Finset.sum_congr rfl fun c _ => ?_
  rw [dotB_lhs, dotB_rhs]

theorem zeroSplat_apply {t : Shape} (h : S_.BroadcastsInDim t ![]) (j : t.Idx) :
    broadcastInDim t ![] h (constant (F := Ideal) S_ .f32 0x00000000#32) j = (0 : EReal) := by
  rw [bcast_scalar h (by decide)]
  exact Ideal.ofBits_zero_f32

theorem bias16_apply {α : Type} (v : S16x256.Idx → α) (i : Fin 16) (r : Fin 8192) (e : Fin 256) :
    broadcastInDim S16x8192x256 ![0, 1, 2] Facts₀.bcast_S16x1x256_S16x8192x256_0_1_2
      (broadcastInDim S16x1x256 ![0, 2] Facts₀.bcast_S16x256_S16x1x256_0_2 v) (ix3 i r e) = v (ix2 i e) := by
  rw [broadcastInDim_apply _ _ _ (ix3 i r e) (ix3 i (0 : Fin 1) e)
    (fun a => match a with | ⟨0, _⟩ => rfl | ⟨1, _⟩ => rfl | ⟨2, _⟩ => rfl)]
  rw [broadcastInDim_apply _ _ _ (ix3 i (0 : Fin 1) e) (ix2 i e)
    (fun a => match a with | ⟨0, _⟩ => rfl | ⟨1, _⟩ => rfl)]

theorem bias60_apply {α : Type} (v : S60x256.Idx → α) (p : Fin 60) (r : Fin 8192) (e : Fin 256) :
    broadcastInDim S60x8192x256 ![0, 1, 2] Facts₀.bcast_S60x1x256_S60x8192x256_0_1_2
      (broadcastInDim S60x1x256 ![0, 2] Facts₀.bcast_S60x256_S60x1x256_0_2 v) (ix3 p r e) = v (ix2 p e) := by
  rw [broadcastInDim_apply _ _ _ (ix3 p r e) (ix3 p (0 : Fin 1) e)
    (fun a => match a with | ⟨0, _⟩ => rfl | ⟨1, _⟩ => rfl | ⟨2, _⟩ => rfl)]
  rw [broadcastInDim_apply _ _ _ (ix3 p (0 : Fin 1) e) (ix2 p e)
    (fun a => match a with | ⟨0, _⟩ => rfl | ⟨1, _⟩ => rfl)]

theorem swap_apply {α : Type} (x : S16x256x8192.Idx → α) (i : Fin 16) (r : Fin 8192) (e : Fin 256) :
    transpose S16x8192x256 [0, 2, 1] x Facts₀.transposes_S16x256x8192_S16x8192x256_0_2_1 (ix3 i r e) = x (ix3 i e r) :=
  transpose_apply _ x _ (ix3 i r e) (ix3 i e r)
    (fun b => match b with | ⟨0, _⟩ => rfl | ⟨1, _⟩ => rfl | ⟨2, _⟩ => rfl)

theorem ref0_apply (X : (⟨S8192x256, .f32⟩ : BufTy).Contents (Elt Ideal)) (W : (⟨S60x256x256, .f32⟩ : BufTy).Contents (Elt Ideal))
    (b : (⟨S60x256, .f32⟩ : BufTy).Contents (Elt Ideal)) (i : Fin 16) (r : Fin 8192) (e : Fin 256) :
    Run.ref0 (F := Ideal) X W b (ix3 i r e)
      = Spec.S0 (fun r d => X (ix2 r d)) (fun p e d => W (ix3 p e d)) (fun p e => b (ix2 p e)) i r e := by
  unfold Run.ref0 Spec.S0
  rw [maximumf_apply, zeroSplat_apply]
  simp only [Host.scatterAdd, Ideal.hostScatterAdd_def]
  rw [scatterAdd_planes _ rfl rfl rfl rfl, zeroSplat_apply, zero_add]
  have hf : Finset.univ.filter (fun p : Fin 16 => lands idxId p i.val) = {i} := by
    ext p; simp [lands_id]
  rw [hf, Finset.sum_singleton, addf_apply, swap_apply, dotA_apply, bias16_apply]
  rw [gather_rows _ rfl rfl rfl rfl rfl rfl b idxFirst i e (by decide), clamp_first]
  congr 2
  refine Finset.sum_congr rfl fun d _ => ?_
  rw [gather_planes _ rfl rfl rfl rfl rfl rfl W idxFirst i e d (by decide), clamp_first, mul_comm]

theorem refStep_apply (S : (⟨S16x8192x256, .f32⟩ : BufTy).Contents (Elt Ideal)) (W : (⟨S60x256x256, .f32⟩ : BufTy).Contents (Elt Ideal))
    (b : (⟨S60x256, .f32⟩ : BufTy).Contents (Elt Ideal)) (i : Fin 16) (r : Fin 8192) (e : Fin 256) :
    Run.refStep (F := Ideal) S W b (ix3 i r e)
      = Spec.step (fun p e d => W (ix3 p e d)) (fun p e => b (ix2 p e)) (fun i r d => S (ix3 i r d)) i r e := by
  unfold Run.refStep Spec.step
  rw [maximumf_apply, zeroSplat_apply]
  simp only [Host.scatterAdd, Ideal.hostScatterAdd_def]
  rw [scatterAdd_planes _ rfl rfl rfl rfl, zeroSplat_apply, zero_add, Finset.sum_filter]
  congr 1
  refine Finset.sum_congr rfl fun p _ => ?_
  rw [if_congr (lands_rows p i) rfl rfl]
  by_cases hp : Spec.rows p = i
  · rw [if_pos hp, if_pos hp, addf_apply, dotB_apply, bias60_apply]
    congr 1
    refine Finset.sum_congr rfl fun d _ => ?_
    rw [gather_planes _ rfl rfl rfl rfl rfl rfl S idxCols p r d (by decide), clamp_cols]
  · rw [if_neg hp, if_neg hp]

theorem refOut_apply (X : (⟨S8192x256, .f32⟩ : BufTy).Contents (Elt Ideal)) (W : (⟨S60x256x256, .f32⟩ : BufTy).Contents (Elt Ideal))
    (b : (⟨S60x256, .f32⟩ : BufTy).Contents (Elt Ideal)) (i : Fin 16) (r : Fin 8192) (e : Fin 256) :
    Run.refStep (Run.refStep (Run.refStep (Run.refStep (Run.refStep (Run.ref0 (F := Ideal) X W b) W b) W b) W b) W b) W b (ix3 i r e)
      = Spec.out (fun r d => X (ix2 r d)) (fun p e d => W (ix3 p e d)) (fun p e => b (ix2 p e)) i r e := by

  have h0 : (fun i r d => Run.ref0 (F := Ideal) X W b (ix3 i r d))
      = Spec.S0 (fun r d => X (ix2 r d)) (fun p e d => W (ix3 p e d)) (fun p e => b (ix2 p e)) := by
    funext i r d; exact ref0_apply X W b i r d
  have hs : ∀ S : (⟨S16x8192x256, .f32⟩ : BufTy).Contents (Elt Ideal),
      (fun i r d => Run.refStep (F := Ideal) S W b (ix3 i r d))
        = Spec.step (fun p e d => W (ix3 p e d)) (fun p e => b (ix2 p e)) (fun i r d => S (ix3 i r d)) := by
    intro S; funext i r d; exact refStep_apply S W b i r d
  have h1 := hs (Run.ref0 (F := Ideal) X W b)
  rw [h0] at h1
  have h2 := hs (Run.refStep (Run.ref0 (F := Ideal) X W b) W b)
  rw [h1] at h2
  have h3 := hs (Run.refStep (Run.refStep (Run.ref0 (F := Ideal) X W b) W b) W b)
  rw [h2] at h3
  have h4 := hs (Run.refStep (Run.refStep (Run.refStep (Run.ref0 (F := Ideal) X W b) W b) W b) W b)
  rw [h3] at h4
  rw [refStep_apply, h4]
  rfl

end Cert.ReferenceIdeal.Rd

end
-- ==== Proof.RefSide.lean ====
import proofs.«167552_j64123861729349_1_alg».proof.Proof.Ref.Run
import proofs.«167552_j64123861729349_1_alg».proof.Proof.Ref.Read
import proofs.«167552_j64123861729349_1_alg».proof.Proof.Spec

noncomputable section

namespace Cert.Proof.RefSide

open Idealize.ShloMosaic Idealize.SL.Sem
open Cert.ReferenceIdeal

abbrev Xof (X : Vec Ideal S8192x256 .f32) : Cert.Spec.Inp := fun r d => X (ValueIdx.ix2 r d)
abbrev Wof (W : Vec Ideal S60x256x256 .f32) : Cert.Spec.Wts := fun p e d => W (ValueIdx.ix3 p e d)
abbrev bof (b : Vec Ideal S60x256 .f32) : Cert.Spec.Bias := fun p e => b (ValueIdx.ix2 p e)

def specArr (X : Vec Ideal S8192x256 .f32) (W : Vec Ideal S60x256x256 .f32) (b : Vec Ideal S60x256 .f32) :
    Vec Ideal S16x8192x256 .f32 :=
  fun idx => Cert.Spec.out (Xof X) (Wof W) (bof b) (idx 0) (idx 1) (idx 2)

theorem rounds_eq (X : Vec Ideal S8192x256 .f32) (W : Vec Ideal S60x256x256 .f32) (b : Vec Ideal S60x256 .f32) :
    Run.refStep (Run.refStep (Run.refStep (Run.refStep (Run.refStep (Run.ref0 (F := Ideal) X W b) W b) W b) W b) W b) W b
      = specArr X W b := by
  funext idx
  rw [ValueIdx.eq_ix3 idx]
  exact Rd.refOut_apply X W b (idx 0) (idx 1) (idx 2)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v83)
        = specArr (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c => ⟨(h c).1.trans (rounds_eq _ _ _), (h c).2⟩) (Run.run (F := Ideal) m ρ)

end Cert.Proof.RefSide

end
-- ==== Proof.lean ====
/-
  Six rounds of  S' i = max (∑ over the present blocks p of block-row i, S (col p) · W pᵀ + b p) 0  on a 16 × 16 block pattern,
  the first reading the input in every row. The kernel pads each row to four slots (an empty slot holds zero weights and a zero
  bias), so a later round adds one slot's product and bias per point and clips at the row's last slot; an empty slot adds 0 and
  addition of extended reals is commutative and associative, so a round over slots is the reference's round over present blocks.
-/
import proofs.«167552_j64123861729349_1_alg».proof.Defs
import proofs.«167552_j64123861729349_1_alg».proof.Proof.Gen.Kernel
import proofs.«167552_j64123861729349_1_alg».proof.Proof.Gen.KernelIdeal
import proofs.«167552_j64123861729349_1_alg».proof.Proof.Gen.ReferenceIdeal
import proofs.«167552_j64123861729349_1_alg».proof.Proof.Gen.Pre_finite_inputs
import proofs.«167552_j64123861729349_1_alg».proof.Proof.K.Segs
import proofs.«167552_j64123861729349_1_alg».proof.Proof.KI.Segs
import proofs.«167552_j64123861729349_1_alg».proof.Proof.KernelSide
import proofs.«167552_j64123861729349_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Fr.frame (F := Bits) m ρ

theorem frame_kernelIdeal : Cert.frame_KernelIdeal := fun m ρ _ => Cert.KernelIdeal.Fr.frame (F := Ideal) m ρ

theorem frame_referenceIdeal : Cert.frame_ReferenceIdeal := fun m ρ _ =>
  (θ_run (Cert.ReferenceIdeal.defs (F := Ideal)) _ _).mono (fun _ h c => (h c).2) (Cert.ReferenceIdeal.Run.run (F := Ideal) m ρ)

theorem preserves : Cert.preserves_Kernel_KernelIdeal := trivial

theorem algebraic : Cert.algebraic_KernelIdeal_ReferenceIdeal := by
  intro m ρ m' ρ' _ hagree
  refine ⟨fun c => KernelSide.specArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), KernelSide.run m ρ, ?_⟩
  refine (θ_run (Cert.ReferenceIdeal.defs (F := Ideal)) _ _).mono (fun r h c => ⟨(h c).1.trans ?_, (h c).2⟩) (RefSide.run m' ρ')
  rw [(hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
